-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S65536 : Shape := ⟨1, ![65536]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel

variable [Facts]

def fn {F : FTy → Type} [FloatOps F] (main_arg0 : FVec F S65536x256 .f32) (main_arg1 : FVec F S65536x256 .f32) (main_arg2 : IVec S65536 32) (main_arg3 : IVec S65536 32) (main_arg4 : FVec F S65536x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536x256 .f32 := Host.absf main_arg4
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  main_v13
-- ==== Kernel.lean ====
abbrev S65536x256 : Shape := ⟨2, ![65536, 256]⟩
abbrev S65536 : Shape := ⟨1, ![65536]⟩
abbrev S65536x1 : Shape := ⟨2, ![65536, 1]⟩
abbrev S2x64x256 : Shape := ⟨3, ![2, 64, 256]⟩
abbrev S2x64 : Shape := ⟨2, ![2, 64]⟩
abbrev S4096x256 : Shape := ⟨2, ![4096, 256]⟩
abbrev S4096x1 : Shape := ⟨2, ![4096, 1]⟩
abbrev S4096x64 : Shape := ⟨2, ![4096, 64]⟩
abbrev S64 : Shape := ⟨1, ![64]⟩
abbrev S64x256 : Shape := ⟨2, ![64, 256]⟩
abbrev S1x64x256 : Shape := ⟨3, ![1, 64, 256]⟩
abbrev S1x64 : Shape := ⟨2, ![1, 64]⟩
abbrev S64x1 : Shape := ⟨2, ![64, 1]⟩
abbrev S256x64 : Shape := ⟨2, ![256, 64]⟩
abbrev S256x192 : Shape := ⟨2, ![256, 192]⟩
abbrev S1x8 : Shape := ⟨2, ![1, 8]⟩
abbrev S2048x256 : Shape := ⟨2, ![2048, 256]⟩
abbrev S2048x192 : Shape := ⟨2, ![2048, 192]⟩
abbrev S2048x64 : Shape := ⟨2, ![2048, 64]⟩
abbrev S2048 : Shape := ⟨1, ![2048]⟩
abbrev S2048x1 : Shape := ⟨2, ![2048, 1]⟩
abbrev S1x2048x64 : Shape := ⟨3, ![1, 2048, 64]⟩
abbrev S1 : Shape := ⟨1, ![1]⟩
abbrev S1x1x1 : Shape := ⟨3, ![1, 1, 1]⟩
abbrev S8 : Shape := ⟨1, ![8]⟩
abbrev S_ : Shape := ⟨0, ![]⟩

abbrev nBuf : Space → Nat
  | .hbm => 74
  | .vmem => 18
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536, .i32⟩
  | .hbm, ⟨3, _⟩ => ⟨S65536, .i32⟩
  | .hbm, ⟨4, _⟩ => ⟨S65536x256, .f32⟩
  | .hbm, ⟨5, _⟩ => ⟨S65536x1, .i32⟩
  | .hbm, ⟨6, _⟩ => ⟨S65536x1, .i32⟩
  | .hbm, ⟨7, _⟩ => ⟨S2x64x256, .f32⟩
  | .hbm, ⟨8, _⟩ => ⟨S2x64, .f32⟩
  | .hbm, ⟨9, _⟩ => ⟨S1x64x256, .f32⟩
  | .hbm, ⟨10, _⟩ => ⟨S64x256, .f32⟩
  | .hbm, ⟨11, _⟩ => ⟨S1x64x256, .f32⟩
  | .hbm, ⟨12, _⟩ => ⟨S64x256, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S64x1, .f32⟩
  | .hbm, ⟨18, _⟩ => ⟨S64x256, .f32⟩
  | .hbm, ⟨19, _⟩ => ⟨S64x256, .f32⟩
  | .hbm, ⟨20, _⟩ => ⟨S64x1, .f32⟩
  | .hbm, ⟨21, _⟩ => ⟨S64x256, .f32⟩
  | .hbm, ⟨22, _⟩ => ⟨S64x256, .f32⟩
  | .hbm, ⟨23, _⟩ => ⟨S64x256, .f32⟩
  | .hbm, ⟨24, _⟩ => ⟨S64, .f32⟩
  | .hbm, ⟨25, _⟩ => ⟨S64x1, .f32⟩
  | .hbm, ⟨26, _⟩ => ⟨S64x256, .f32⟩
  | .hbm, ⟨27, _⟩ => ⟨S64x256, .f32⟩
  | .hbm, ⟨28, _⟩ => ⟨S256x64, .f32⟩
  | .hbm, ⟨29, _⟩ => ⟨S256x64, .f32⟩
  | .hbm, ⟨30, _⟩ => ⟨S256x64, .f32⟩
  | .hbm, ⟨31, _⟩ => ⟨S256x192, .f32⟩
  | .hbm, ⟨32, _⟩ => ⟨S256x192, .bf16⟩
  | .hbm, ⟨33, _⟩ => ⟨S1x8, .f32⟩
  | .hbm, ⟨34, _⟩ => ⟨S1x8, .f32⟩
  | .hbm, ⟨35, _⟩ => ⟨S1x8, .f32⟩
  | .hbm, ⟨36, _⟩ => ⟨S8, .f32⟩
  | .hbm, ⟨37, _⟩ => ⟨S1, .f32⟩
  | .hbm, ⟨38, _⟩ => ⟨S_, .f32⟩
  | .hbm, ⟨39, _⟩ => ⟨S1, .f32⟩
  | .hbm, ⟨40, _⟩ => ⟨S_, .f32⟩
  | .hbm, ⟨41, _⟩ => ⟨S1, .f32⟩
  | .hbm, ⟨42, _⟩ => ⟨S_, .f32⟩
  | .hbm, ⟨43, _⟩ => ⟨S1, .f32⟩
  | .hbm, ⟨44, _⟩ => ⟨S_, .f32⟩
  | .hbm, ⟨45, _⟩ => ⟨S1, .f32⟩
  | .hbm, ⟨46, _⟩ => ⟨S_, .f32⟩
  | .hbm, ⟨47, _⟩ => ⟨S1, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x1, .i32⟩
  | .local _ .vmem, ⟨5, _⟩ => ⟨S4096x1, .i32⟩
  | .local _ .vmem, ⟨6, _⟩ => ⟨S4096x1, .i32⟩
  | .local _ .vmem, ⟨7, _⟩ => ⟨S4096x1, .i32⟩
  | .local _ .vmem, ⟨8, _⟩ => ⟨S2x64x256, .f32⟩
  | .local _ .vmem, ⟨9, _⟩ => ⟨S2x64, .f32⟩
  | .local _ .vmem, ⟨10, _⟩ => ⟨S2048x256, .f32⟩
  | .local _ .vmem, ⟨11, _⟩ => ⟨S2048x256, .f32⟩
  | .local _ .vmem, ⟨12, _⟩ => ⟨S256x192, .bf16⟩
  | .local _ .vmem, ⟨13, _⟩ => ⟨S1x8, .f32⟩
  | .local _ .vmem, ⟨14, _⟩ => ⟨S2048x256, .f32⟩
  | .local _ .vmem, ⟨15, _⟩ => ⟨S2048x256, .f32⟩
  | .local _ .vmem, ⟨16, _⟩ => ⟨S256x192, .bf16⟩
  | .local _ .vmem, ⟨17, _⟩ => ⟨S1x8, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_cst : Ref sig .tc := ⟨.hbm, 49, rfl⟩
abbrev main_v43 : Ref sig .tc := ⟨.hbm, 50, rfl⟩
abbrev main_cst_0 : Ref sig .tc := ⟨.hbm, 51, rfl⟩
abbrev main_v44 : Ref sig .tc := ⟨.hbm, 52, rfl⟩
abbrev main_v45 : Ref sig .tc := ⟨.hbm, 53, rfl⟩
abbrev main_cst_1 : Ref sig .tc := ⟨.hbm, 54, rfl⟩
abbrev main_v46 : Ref sig .tc := ⟨.hbm, 55, rfl⟩
abbrev main_cst_2 : Ref sig .tc := ⟨.hbm, 56, rfl⟩
abbrev main_v47 : Ref sig .tc := ⟨.hbm, 57, rfl⟩
abbrev main_cst_3 : Ref sig .tc := ⟨.hbm, 58, rfl⟩
abbrev main_v48 : Ref sig .tc := ⟨.hbm, 59, rfl⟩
abbrev main_v49 : Ref sig .tc := ⟨.hbm, 60, rfl⟩
abbrev main_cst_4 : Ref sig .tc := ⟨.hbm, 61, rfl⟩
abbrev main_v50 : Ref sig .tc := ⟨.hbm, 62, rfl⟩
abbrev main_cst_5 : Ref sig .tc := ⟨.hbm, 63, rfl⟩
abbrev main_v51 : Ref sig .tc := ⟨.hbm, 64, rfl⟩
abbrev main_cst_6 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_8 : Ref sig .tc := ⟨.hbm, 72, rfl⟩
abbrev main_v57 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc2_sem0_0 : DmaSem sig := 14
abbrev cc2_sem0_1 : DmaSem sig := 15
abbrev cc2_sem1_0 : DmaSem sig := 16
abbrev cc2_sem2_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x192 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x192 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  shapeCasts_S65536_S65536x1 : S65536.ShapeCasts S65536x1
  inb_S2x64x256_S2x64x256_0_0_0 : ∀ a, (![0, 0, 0] : Fin 3 → Nat) a + S2x64x256.size a ≤ S2x64x256.size a
  h_S2x64x256 : 0 < S2x64x256.numel
  inb_S2x64_S2x64_0_0 : ∀ a, (![0, 0] : Fin 2 → Nat) a + S2x64.size a ≤ S2x64.size a
  h_S2x64 : 0 < S2x64.numel
  inb_S4096x256_S4096x256_0_0 : ∀ a, (![0, 0] : Fin 2 → Nat) a + S4096x256.size a ≤ S4096x256.size a
  h_S4096x256 : 0 < S4096x256.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S4096x64_d1_w32 : S4096x64.Iotas .tc 32 [1]
  broadcasts_S4096x1_S4096x64 : S4096x1.Broadcasts S4096x64
  natLt_1_32 : 1 < 32
  reduces_S4096x64_S64 : S4096x64.Reduces [0] S64
  bitsLt_bf16_f32 : FTy.bits .bf16 < FTy.bits .f32
  inb_S2x64x256_S1x64x256_0_0_0 : ∀ a, (![0, 0, 0] : Fin 3 → Nat) a + S1x64x256.size a ≤ S2x64x256.size a
  h_S1x64x256 : 0 < S1x64x256.numel
  shapeCasts_S1x64x256_S64x256 : S1x64x256.ShapeCasts S64x256
  shapeCasts_S64x256_S1x64x256 : S64x256.ShapeCasts S1x64x256
  inb_S2x64x256_S1x64x256_1_0_0 : ∀ a, (![1, 0, 0] : Fin 3 → Nat) a + S1x64x256.size a ≤ S2x64x256.size a
  inb_S2x64_S1x64_0_0 : ∀ a, (![0, 0] : Fin 2 → Nat) a + S1x64.size a ≤ S2x64.size a
  h_S1x64 : 0 < S1x64.numel
  shapeCasts_S1x64_S64 : S1x64.ShapeCasts S64
  shapeCasts_S64_S1x64 : S64.ShapeCasts S1x64
  inb_S2x64_S1x64_1_0 : ∀ a, (![1, 0] : Fin 2 → Nat) a + S1x64.size a ≤ S2x64.size a
  slices_S2x64x256_S1x64x256_0_0_0 : S2x64x256.Slices ![0, 0, 0] S1x64x256
  slices_S2x64x256_S1x64x256_1_0_0 : S2x64x256.Slices ![1, 0, 0] S1x64x256
  slices_S2x64_S1x64_0_0 : S2x64.Slices ![0, 0] S1x64
  slices_S2x64_S1x64_1_0 : S2x64.Slices ![1, 0] S1x64
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  transposes_S64x256_S256x64_1_0 : S64x256.Transposes [1, 0] S256x64
  concatenates_S256x64_S256x64_S256x64_S256x192_d1 : Shape.Concatenates [S256x64, S256x64, S256x64] S256x192 1
  inb_S1x8_S1x8_0_0 : ∀ a, (![0, 0] : Fin 2 → Nat) a + S1x8.size a ≤ S1x8.size a
  h_S1x8 : 0 < S1x8.numel
  inb_S2048x256_S2048x256_0_0 : ∀ a, (![0, 0] : Fin 2 → Nat) a + S2048x256.size a ≤ S2048x256.size a
  h_S2048x256 : 0 < S2048x256.numel
  inb_S256x192_S256x192_0_0 : ∀ a, (![0, 0] : Fin 2 → Nat) a + S256x192.size a ≤ S256x192.size a
  h_S256x192 : 0 < S256x192.numel
  shapeCasts_S256x192_S256x192 : S256x192.ShapeCasts S256x192
  slices_S2048x192_o0_0_S2048x64 : S2048x192.Slices ![0, 0] S2048x64
  slices_S2048x192_o0_64_S2048x64 : S2048x192.Slices ![0, 64] S2048x64
  slices_S2048x192_o0_128_S2048x64 : S2048x192.Slices ![0, 128] S2048x64
  reduces_S2048x64_S2048 : S2048x64.Reduces [1] S2048
  shapeCasts_S2048_S2048x1 : S2048.ShapeCasts S2048x1
  broadcasts_S2048x1_S2048x64 : S2048x1.Broadcasts S2048x64
  shapeCasts_S2048x64_S1x2048x64 : S2048x64.ShapeCasts S1x2048x64
  reduces_S1x2048x64_S1 : S1x2048x64.Reduces [1, 2] S1
  shapeCasts_S1_S1x1x1 : S1.ShapeCasts S1x1x1
  inpos_S1x1x1_p0_0_0 : ∀ a, (![0, 0, 0] : Fin 3 → Nat) a < S1x1x1.size a
  concatenates_S1_S1_S1_S1_S1_S1_S1_S1_S8_d0 : Shape.Concatenates [S1, S1, S1, S1, S1, S1, S1, S1] S8 0
  shapeCasts_S1x8_S1x8 : S1x8.ShapeCasts S1x8
  shapeCasts_S8_S1x8 : S8.ShapeCasts S1x8
  shapeCasts_S1x8_S8 : S1x8.ShapeCasts S8
  slices_S8_S1_0 : S8.Slices ![0] S1
  shapeCasts_S1_S_ : S1.ShapeCasts S_
  slices_S8_S1_1 : S8.Slices ![1] S1
  slices_S8_S1_2 : S8.Slices ![2] S1
  slices_S8_S1_3 : S8.Slices ![3] S1
  slices_S8_S1_4 : S8.Slices ![4] S1
  slices_S8_S1_5 : S8.Slices ![5] S1
  dot_S4096x64_S4096x256_S64x256_0_0_1_1_n_n_wf : DotDims.WF S4096x64 S4096x256 S64x256 [0] [0] [1] [1] [] []
  dot_S2048x256_S256x192_S2048x192_1_0_0_1_n_n_wf : DotDims.WF S2048x256 S256x192 S2048x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S65536x256.size a
  hwx0_0 : ∀ i : grid0.Coords, EltTy.bits .f32 = 32 ∨ (Rect.block (s := S65536x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S65536x256.size a
  hwx0_1 : ∀ i : grid0.Coords, EltTy.bits .f32 = 32 ∨ (Rect.block (s := S65536x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S65536x1.size a
  hwx0_2 : ∀ i : grid0.Coords, EltTy.bits .i32 = 32 ∨ (Rect.block (s := S65536x1) S4096x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x1.size a ≤ S65536x1.size a
  hwx0_3 : ∀ i : grid0.Coords, EltTy.bits .i32 = 32 ∨ (Rect.block (s := S65536x1) S4096x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x64x256.size a ≤ S2x64x256.size a
  hwx0_4 : ∀ i : grid0.Coords, EltTy.bits .f32 = 32 ∨ (Rect.block (s := S2x64x256) S2x64x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x64.size a ≤ S2x64.size a
  hwx0_5 : ∀ i : grid0.Coords, EltTy.bits .f32 = 32 ∨ (Rect.block (s := S2x64) S2x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S65536x256.size a
  hwx1_0 : ∀ i : grid1.Coords, EltTy.bits .f32 = 32 ∨ (Rect.block (s := S65536x256) S2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x192.size a ≤ S256x192.size a
  hwx1_1 : ∀ i : grid1.Coords, EltTy.bits .bf16 = 32 ∨ (Rect.block (s := S256x192) S256x192.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x8.size a ≤ S1x8.size a
  hwx1_2 : ∀ i : grid1.Coords, EltTy.bits .f32 = 32 ∨ (Rect.block (s := S1x8) S1x8.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S65536x256.size a
  hwx2_0 : ∀ i : grid2.Coords, EltTy.bits .f32 = 32 ∨ (Rect.block (s := S65536x256) S2048x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x192.size a ≤ S256x192.size a
  hwx2_1 : ∀ i : grid2.Coords, EltTy.bits .bf16 = 32 ∨ (Rect.block (s := S256x192) S256x192.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x8.size a ≤ S1x8.size a
  hwx2_2 : ∀ i : grid2.Coords, EltTy.bits .f32 = 32 ∨ (Rect.block (s := S1x8) S1x8.size (cc2_transform_2 i) (hinb2_2 i)).WholeWords (EltTy.packing .f32)

variable [Facts₀]

def dot_S4096x64_S4096x256_S64x256_0_0_1_1_n_n : DotDims S4096x64 S4096x256 S64x256 where
  lhsContracting := [0]
  rhsContracting := [0]
  lhsNonContracting := [1]
  rhsNonContracting := [1]
  lhsBatch := []
  rhsBatch := []
  wf := dot_S4096x64_S4096x256_S64x256_0_0_1_1_n_n_wf
def dot_S2048x256_S256x192_S2048x192_1_0_0_1_n_n : DotDims S2048x256 S256x192 S2048x192 where
  lhsContracting := [1]
  rhsContracting := [0]
  lhsNonContracting := [0]
  rhsNonContracting := [1]
  lhsBatch := []
  rhsBatch := []
  wf := dot_S2048x256_S256x192_S2048x192_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S2x64x256.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S2x64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S256x192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x8.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg1) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S256x192.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28) S1x8.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S65536x256 : Shape := ⟨2, ![65536, 256]⟩
abbrev S65536 : Shape := ⟨1, ![65536]⟩
abbrev S_ : Shape := ⟨0, ![]⟩
abbrev S64x256 : Shape := ⟨2, ![64, 256]⟩
abbrev S65536x1 : Shape := ⟨2, ![65536, 1]⟩
abbrev S64 : Shape := ⟨1, ![64]⟩
abbrev S64x1 : Shape := ⟨2, ![64, 1]⟩
abbrev S131072x256 : Shape := ⟨2, ![131072, 256]⟩
abbrev S256x64 : Shape := ⟨2, ![256, 64]⟩
abbrev S131072x64 : Shape := ⟨2, ![131072, 64]⟩
abbrev S131072 : Shape := ⟨1, ![131072]⟩
abbrev S131072x1 : Shape := ⟨2, ![131072, 1]⟩

abbrev nBuf : Space → Nat
  | .hbm => 356
  | .vmem => 0
  | .smem => 0
  | _ => 0

abbrev hbmTy0_0 (i : Nat) : BufTy := match i % 128 with
  | 0 => ⟨S65536x256, .f32⟩
  | 1 => ⟨S65536x256, .f32⟩
  | 2 => ⟨S65536, .i32⟩
  | 3 => ⟨S65536, .i32⟩
  | 4 => ⟨S65536x256, .f32⟩
  | 5 => ⟨S_, .f32⟩
  | 6 => ⟨S65536, .f32⟩
  | 7 => ⟨S_, .f32⟩
  | 8 => ⟨S65536, .f32⟩
  | 9 => ⟨S_, .f32⟩
  | 10 => ⟨S64x256, .f32⟩
  | 11 => ⟨S65536x1, .i32⟩
  | 12 => ⟨S64x256, .f32⟩
  | 13 => ⟨S_, .f32⟩
  | 14 => ⟨S64x256, .f32⟩
  | 15 => ⟨S65536x1, .i32⟩
  | 16 => ⟨S64x256, .f32⟩
  | 17 => ⟨S_, .f32⟩
  | 18 => ⟨S64, .f32⟩
  | 19 => ⟨S65536x1, .i32⟩
  | 20 => ⟨S64, .f32⟩
  | 21 => ⟨S_, .f32⟩
  | 22 => ⟨S64, .f32⟩
  | 23 => ⟨S65536x1, .i32⟩
  | 24 => ⟨S64, .f32⟩
  | 25 => ⟨S64x1, .f32⟩
  | 26 => ⟨S64x256, .f32⟩
  | 27 => ⟨S64x256, .f32⟩
  | 28 => ⟨S64x1, .f32⟩
  | 29 => ⟨S64x256, .f32⟩
  | 30 => ⟨S64x256, .f32⟩
  | 31 => ⟨S64x256, .f32⟩
  | 32 => ⟨S64, .f32⟩
  | 33 => ⟨S64x1, .f32⟩
  | 34 => ⟨S64x256, .f32⟩
  | 35 => ⟨S64x256, .f32⟩
  | 36 => ⟨S131072x256, .f32⟩
  | 37 => ⟨S256x64, .f32⟩
  | 38 => ⟨S131072x64, .f32⟩
  | 39 => ⟨S256x64, .f32⟩
  | 40 => ⟨S131072x64, .f32⟩
  | 41 => ⟨S256x64, .f32⟩
  | 42 => ⟨S131072x64, .f32⟩
  | 43 => ⟨S_, .f32⟩
  | 44 => ⟨S131072, .f32⟩
  | 45 => ⟨S_, .f32⟩
  | 46 => ⟨S131072, .f32⟩
  | 47 => ⟨S131072, .f32⟩
  | 48 => ⟨S131072x1, .f32⟩
  | 49 => ⟨S131072x64, .f32⟩
  | 50 => ⟨S131072x64, .f32⟩
  | 51 => ⟨S131072x64, .f32⟩
  | 52 => ⟨S_, .f32⟩
  | 53 => ⟨S131072, .f32⟩
  | 54 => ⟨S131072x1, .f32⟩
  | 55 => ⟨S131072x64, .f32⟩
  | 56 => ⟨S131072x64, .f32⟩
  | 57 => ⟨S_, .f32⟩
  | 58 => ⟨S131072, .f32⟩
  | 59 => ⟨S_, .f32⟩
  | 60 => ⟨S131072, .f32⟩
  | 61 => ⟨S131072, .f32⟩
  | 62 => ⟨S131072x1, .f32⟩
  | 63 => ⟨S131072x64, .f32⟩
  | 64 => ⟨S131072x64, .f32⟩
  | 65 => ⟨S131072x64, .f32⟩
  | 66 => ⟨S_, .f32⟩
  | 67 => ⟨S131072, .f32⟩
  | 68 => ⟨S131072x1, .f32⟩
  | 69 => ⟨S131072x1, .f32⟩
  | 70 => ⟨S131072x64, .f32⟩
  | 71 => ⟨S131072x64, .f32⟩
  | 72 => ⟨S_, .f32⟩
  | 73 => ⟨S131072, .f32⟩
  | 74 => ⟨S_, .f32⟩
  | 75 => ⟨S131072, .f32⟩
  | 76 => ⟨S131072, .f32⟩
  | 77 => ⟨S131072x1, .f32⟩
  | 78 => ⟨S131072x64, .f32⟩
  | 79 => ⟨S131072x64, .f32⟩
  | 80 => ⟨S131072x64, .f32⟩
  | 81 => ⟨S_, .f32⟩
  | 82 => ⟨S131072, .f32⟩
  | 83 => ⟨S131072x1, .f32⟩
  | 84 => ⟨S131072x1, .f32⟩
  | 85 => ⟨S131072x64, .f32⟩
  | 86 => ⟨S131072x64, .f32⟩
  | 87 => ⟨S131072x64, .f32⟩
  | 88 => ⟨S131072x64, .f32⟩
  | 89 => ⟨S_, .f32⟩
  | 90 => ⟨S_, .f32⟩
  | 91 => ⟨S_, .f32⟩
  | 92 => ⟨S_, .f32⟩
  | 93 => ⟨S_, .f32⟩
  | 94 => ⟨S131072, .f32⟩
  | 95 => ⟨S_, .f32⟩
  | 96 => ⟨S131072, .f32⟩
  | 97 => ⟨S131072, .f32⟩
  | 98 => ⟨S131072x1, .f32⟩
  | 99 => ⟨S131072x64, .f32⟩
  | 100 => ⟨S131072x64, .f32⟩
  | 101 => ⟨S131072x64, .f32⟩
  | 102 => ⟨S_, .f32⟩
  | 103 => ⟨S131072, .f32⟩
  | 104 => ⟨S131072x1, .f32⟩
  | 105 => ⟨S131072x64, .f32⟩
  | 106 => ⟨S131072x64, .f32⟩
  | 107 => ⟨S_, .f32⟩
  | 108 => ⟨S131072, .f32⟩
  | 109 => ⟨S_, .f32⟩
  | 110 => ⟨S131072, .f32⟩
  | 111 => ⟨S131072, .f32⟩
  | 112 => ⟨S131072x1, .f32⟩
  | 113 => ⟨S131072x64, .f32⟩
  | 114 => ⟨S131072x64, .f32⟩
  | 115 => ⟨S131072x64, .f32⟩
  | 116 => ⟨S_, .f32⟩
  | 117 => ⟨S131072, .f32⟩
  | 118 => ⟨S131072x1, .f32⟩
  | 119 => ⟨S131072x1, .f32⟩
  | 120 => ⟨S131072x64, .f32⟩
  | 121 => ⟨S131072x64, .f32⟩
  | 122 => ⟨S_, .f32⟩
  | 123 => ⟨S131072, .f32⟩
  | 124 => ⟨S_, .f32⟩
  | 125 => ⟨S131072, .f32⟩
  | 126 => ⟨S131072, .f32⟩
  | 127 => ⟨S131072x1, .f32⟩
  | _ => ⟨S65536x256, .f32⟩

abbrev hbmTy0_1 (i : Nat) : BufTy := match i % 128 with
  | 0 => ⟨S131072x64, .f32⟩
  | 1 => ⟨S131072x64, .f32⟩
  | 2 => ⟨S131072x64, .f32⟩
  | 3 => ⟨S_, .f32⟩
  | 4 => ⟨S131072, .f32⟩
  | 5 => ⟨S131072x1, .f32⟩
  | 6 => ⟨S131072x1, .f32⟩
  | 7 => ⟨S131072x64, .f32⟩
  | 8 => ⟨S131072x64, .f32⟩
  | 9 => ⟨S131072x64, .f32⟩
  | 10 => ⟨S131072x64, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S131072, .f32⟩
  | 20 => ⟨S_, .f32⟩
  | 21 => ⟨S131072, .f32⟩
  | 22 => ⟨S131072, .f32⟩
  | 23 => ⟨S131072x1, .f32⟩
  | 24 => ⟨S131072x64, .f32⟩
  | 25 => ⟨S131072x64, .f32⟩
  | 26 => ⟨S131072x64, .f32⟩
  | 27 => ⟨S_, .f32⟩
  | 28 => ⟨S131072, .f32⟩
  | 29 => ⟨S131072x1, .f32⟩
  | 30 => ⟨S131072x64, .f32⟩
  | 31 => ⟨S131072x64, .f32⟩
  | 32 => ⟨S_, .f32⟩
  | 33 => ⟨S131072, .f32⟩
  | 34 => ⟨S_, .f32⟩
  | 35 => ⟨S131072, .f32⟩
  | 36 => ⟨S131072, .f32⟩
  | 37 => ⟨S131072x1, .f32⟩
  | 38 => ⟨S131072x64, .f32⟩
  | 39 => ⟨S131072x64, .f32⟩
  | 40 => ⟨S131072x64, .f32⟩
  | 41 => ⟨S_, .f32⟩
  | 42 => ⟨S131072, .f32⟩
  | 43 => ⟨S131072x1, .f32⟩
  | 44 => ⟨S131072x1, .f32⟩
  | 45 => ⟨S131072x64, .f32⟩
  | 46 => ⟨S131072x64, .f32⟩
  | 47 => ⟨S_, .f32⟩
  | 48 => ⟨S131072, .f32⟩
  | 49 => ⟨S_, .f32⟩
  | 50 => ⟨S131072, .f32⟩
  | 51 => ⟨S131072, .f32⟩
  | 52 => ⟨S131072x1, .f32⟩
  | 53 => ⟨S131072x64, .f32⟩
  | 54 => ⟨S131072x64, .f32⟩
  | 55 => ⟨S131072x64, .f32⟩
  | 56 => ⟨S_, .f32⟩
  | 57 => ⟨S131072, .f32⟩
  | 58 => ⟨S131072x1, .f32⟩
  | 59 => ⟨S131072x1, .f32⟩
  | 60 => ⟨S131072x64, .f32⟩
  | 61 => ⟨S131072x64, .f32⟩
  | 62 => ⟨S131072x64, .f32⟩
  | 63 => ⟨S131072x64, .f32⟩
  | 64 => ⟨S_, .f32⟩
  | 65 => ⟨S_, .f32⟩
  | 66 => ⟨S_, .f32⟩
  | 67 => ⟨S_, .f32⟩
  | 68 => ⟨S_, .f32⟩
  | 69 => ⟨S131072, .f32⟩
  | 70 => ⟨S_, .f32⟩
  | 71 => ⟨S131072, .f32⟩
  | 72 => ⟨S131072, .f32⟩
  | 73 => ⟨S131072x1, .f32⟩
  | 74 => ⟨S131072x64, .f32⟩
  | 75 => ⟨S131072x64, .f32⟩
  | 76 => ⟨S131072x64, .f32⟩
  | 77 => ⟨S_, .f32⟩
  | 78 => ⟨S131072, .f32⟩
  | 79 => ⟨S131072x1, .f32⟩
  | 80 => ⟨S131072x64, .f32⟩
  | 81 => ⟨S131072x64, .f32⟩
  | 82 => ⟨S_, .f32⟩
  | 83 => ⟨S131072, .f32⟩
  | 84 => ⟨S_, .f32⟩
  | 85 => ⟨S131072, .f32⟩
  | 86 => ⟨S131072, .f32⟩
  | 87 => ⟨S131072x1, .f32⟩
  | 88 => ⟨S131072x64, .f32⟩
  | 89 => ⟨S131072x64, .f32⟩
  | 90 => ⟨S131072x64, .f32⟩
  | 91 => ⟨S_, .f32⟩
  | 92 => ⟨S131072, .f32⟩
  | 93 => ⟨S131072x1, .f32⟩
  | 94 => ⟨S131072x1, .f32⟩
  | 95 => ⟨S131072x64, .f32⟩
  | 96 => ⟨S131072x64, .f32⟩
  | 97 => ⟨S_, .f32⟩
  | 98 => ⟨S131072, .f32⟩
  | 99 => ⟨S_, .f32⟩
  | 100 => ⟨S131072, .f32⟩
  | 101 => ⟨S131072, .f32⟩
  | 102 => ⟨S131072x1, .f32⟩
  | 103 => ⟨S131072x64, .f32⟩
  | 104 => ⟨S131072x64, .f32⟩
  | 105 => ⟨S131072x64, .f32⟩
  | 106 => ⟨S_, .f32⟩
  | 107 => ⟨S131072, .f32⟩
  | 108 => ⟨S131072x1, .f32⟩
  | 109 => ⟨S131072x1, .f32⟩
  | 110 => ⟨S131072x64, .f32⟩
  | 111 => ⟨S131072x64, .f32⟩
  | 112 => ⟨S131072x64, .f32⟩
  | 113 => ⟨S131072x64, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S131072, .f32⟩
  | 123 => ⟨S_, .f32⟩
  | 124 => ⟨S131072, .f32⟩
  | 125 => ⟨S131072, .f32⟩
  | 126 => ⟨S131072x1, .f32⟩
  | 127 => ⟨S131072x64, .f32⟩
  | _ => ⟨S65536x256, .f32⟩

abbrev hbmTy0_2 (i : Nat) : BufTy := match i % 128 with
  | 0 => ⟨S131072x64, .f32⟩
  | 1 => ⟨S131072x64, .f32⟩
  | 2 => ⟨S_, .f32⟩
  | 3 => ⟨S131072, .f32⟩
  | 4 => ⟨S131072x1, .f32⟩
  | 5 => ⟨S131072x64, .f32⟩
  | 6 => ⟨S131072x64, .f32⟩
  | 7 => ⟨S_, .f32⟩
  | 8 => ⟨S131072, .f32⟩
  | 9 => ⟨S_, .f32⟩
  | 10 => ⟨S131072, .f32⟩
  | 11 => ⟨S131072, .f32⟩
  | 12 => ⟨S131072x1, .f32⟩
  | 13 => ⟨S131072x64, .f32⟩
  | 14 => ⟨S131072x64, .f32⟩
  | 15 => ⟨S131072x64, .f32⟩
  | 16 => ⟨S_, .f32⟩
  | 17 => ⟨S131072, .f32⟩
  | 18 => ⟨S131072x1, .f32⟩
  | 19 => ⟨S131072x1, .f32⟩
  | 20 => ⟨S131072x64, .f32⟩
  | 21 => ⟨S131072x64, .f32⟩
  | 22 => ⟨S_, .f32⟩
  | 23 => ⟨S131072, .f32⟩
  | 24 => ⟨S_, .f32⟩
  | 25 => ⟨S131072, .f32⟩
  | 26 => ⟨S131072, .f32⟩
  | 27 => ⟨S131072x1, .f32⟩
  | 28 => ⟨S131072x64, .f32⟩
  | 29 => ⟨S131072x64, .f32⟩
  | 30 => ⟨S131072x64, .f32⟩
  | 31 => ⟨S_, .f32⟩
  | 32 => ⟨S131072, .f32⟩
  | 33 => ⟨S131072x1, .f32⟩
  | 34 => ⟨S131072x1, .f32⟩
  | 35 => ⟨S131072x64, .f32⟩
  | 36 => ⟨S131072x64, .f32⟩
  | 37 => ⟨S131072x64, .f32⟩
  | 38 => ⟨S131072x64, .f32⟩
  | 39 => ⟨S_, .f32⟩
  | 40 => ⟨S_, .f32⟩
  | 41 => ⟨S_, .f32⟩
  | 42 => ⟨S_, .f32⟩
  | 43 => ⟨S_, .f32⟩
  | 44 => ⟨S131072, .f32⟩
  | 45 => ⟨S_, .f32⟩
  | 46 => ⟨S131072, .f32⟩
  | 47 => ⟨S131072, .f32⟩
  | 48 => ⟨S131072x1, .f32⟩
  | 49 => ⟨S131072x64, .f32⟩
  | 50 => ⟨S131072x64, .f32⟩
  | 51 => ⟨S131072x64, .f32⟩
  | 52 => ⟨S_, .f32⟩
  | 53 => ⟨S131072, .f32⟩
  | 54 => ⟨S131072x1, .f32⟩
  | 55 => ⟨S131072x64, .f32⟩
  | 56 => ⟨S131072x64, .f32⟩
  | 57 => ⟨S_, .f32⟩
  | 58 => ⟨S131072, .f32⟩
  | 59 => ⟨S_, .f32⟩
  | 60 => ⟨S131072, .f32⟩
  | 61 => ⟨S131072, .f32⟩
  | 62 => ⟨S131072x1, .f32⟩
  | 63 => ⟨S131072x64, .f32⟩
  | 64 => ⟨S131072x64, .f32⟩
  | 65 => ⟨S131072x64, .f32⟩
  | 66 => ⟨S_, .f32⟩
  | 67 => ⟨S131072, .f32⟩
  | 68 => ⟨S131072x1, .f32⟩
  | 69 => ⟨S131072x1, .f32⟩
  | 70 => ⟨S131072x64, .f32⟩
  | 71 => ⟨S131072x64, .f32⟩
  | 72 => ⟨S_, .f32⟩
  | 73 => ⟨S131072, .f32⟩
  | 74 => ⟨S_, .f32⟩
  | 75 => ⟨S131072, .f32⟩
  | 76 => ⟨S131072, .f32⟩
  | 77 => ⟨S131072x1, .f32⟩
  | 78 => ⟨S131072x64, .f32⟩
  | 79 => ⟨S131072x64, .f32⟩
  | 80 => ⟨S131072x64, .f32⟩
  | 81 => ⟨S_, .f32⟩
  | 82 => ⟨S131072, .f32⟩
  | 83 => ⟨S131072x1, .f32⟩
  | 84 => ⟨S131072x1, .f32⟩
  | 85 => ⟨S131072x64, .f32⟩
  | 86 => ⟨S131072x64, .f32⟩
  | 87 => ⟨S131072x64, .f32⟩
  | 88 => ⟨S131072x64, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | _ => ⟨S65536x256, .f32⟩

abbrev hbmTy (i : Nat) : BufTy := match i / 128 with
  | 0 => hbmTy0_0 i
  | 1 => hbmTy0_1 i
  | 2 => hbmTy0_2 i
  | _ => ⟨S65536x256, .f32⟩

abbrev bufTy : (tb : Table) → Fin (tcTables nBuf tb) → BufTy
  | .hbm, ⟨i, _⟩ => hbmTy i
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_call0_cst : Ref sig .tc := ⟨.hbm, 57, rfl⟩
abbrev main_call0_v0 : Ref sig .tc := ⟨.hbm, 58, rfl⟩
abbrev main_call0_cst_0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_v5 : Ref sig .tc := ⟨.hbm, 64, rfl⟩
abbrev main_call0_v6 : Ref sig .tc := ⟨.hbm, 65, rfl⟩
abbrev main_call0_cst_1 : Ref sig .tc := ⟨.hbm, 66, rfl⟩
abbrev main_call0_v7 : Ref sig .tc := ⟨.hbm, 67, rfl⟩
abbrev main_call0_v8 : Ref sig .tc := ⟨.hbm, 68, rfl⟩
abbrev main_call0_v9 : Ref sig .tc := ⟨.hbm, 69, rfl⟩
abbrev main_call0_v10 : Ref sig .tc := ⟨.hbm, 70, rfl⟩
abbrev main_v43 : Ref sig .tc := ⟨.hbm, 71, rfl⟩
abbrev main_call1_cst : Ref sig .tc := ⟨.hbm, 72, rfl⟩
abbrev main_call1_v0 : Ref sig .tc := ⟨.hbm, 73, rfl⟩
abbrev main_call1_cst_0 : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_call1_v5 : Ref sig .tc := ⟨.hbm, 79, rfl⟩
abbrev main_call1_v6 : Ref sig .tc := ⟨.hbm, 80, rfl⟩
abbrev main_call1_cst_1 : Ref sig .tc := ⟨.hbm, 81, rfl⟩
abbrev main_call1_v7 : Ref sig .tc := ⟨.hbm, 82, rfl⟩
abbrev main_call1_v8 : Ref sig .tc := ⟨.hbm, 83, rfl⟩
abbrev main_call1_v9 : Ref sig .tc := ⟨.hbm, 84, rfl⟩
abbrev main_call1_v10 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_cst_8 : Ref sig .tc := ⟨.hbm, 89, rfl⟩
abbrev main_v47 : Ref sig .tc := ⟨.hbm, 90, rfl⟩
abbrev main_cst_9 : Ref sig .tc := ⟨.hbm, 91, rfl⟩
abbrev main_v48 : Ref sig .tc := ⟨.hbm, 92, rfl⟩
abbrev main_cst_10 : Ref sig .tc := ⟨.hbm, 93, rfl⟩
abbrev main_v49 : Ref sig .tc := ⟨.hbm, 94, rfl⟩
abbrev main_cst_11 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_cst_12 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_call2_cst : Ref sig .tc := ⟨.hbm, 107, rfl⟩
abbrev main_call2_v0 : Ref sig .tc := ⟨.hbm, 108, rfl⟩
abbrev main_call2_cst_0 : Ref sig .tc := ⟨.hbm, 109, rfl⟩
abbrev main_call2_v1 : Ref sig .tc := ⟨.hbm, 110, rfl⟩
abbrev main_call2_v2 : Ref sig .tc := ⟨.hbm, 111, rfl⟩
abbrev main_call2_v3 : Ref sig .tc := ⟨.hbm, 112, rfl⟩
abbrev main_call2_v4 : Ref sig .tc := ⟨.hbm, 113, rfl⟩
abbrev main_call2_v5 : Ref sig .tc := ⟨.hbm, 114, rfl⟩
abbrev main_call2_v6 : Ref sig .tc := ⟨.hbm, 115, rfl⟩
abbrev main_call2_cst_1 : Ref sig .tc := ⟨.hbm, 116, rfl⟩
abbrev main_call2_v7 : Ref sig .tc := ⟨.hbm, 117, rfl⟩
abbrev main_call2_v8 : Ref sig .tc := ⟨.hbm, 118, rfl⟩
abbrev main_call2_v9 : Ref sig .tc := ⟨.hbm, 119, rfl⟩
abbrev main_call2_v10 : Ref sig .tc := ⟨.hbm, 120, rfl⟩
abbrev main_v60 : Ref sig .tc := ⟨.hbm, 121, rfl⟩
abbrev main_call3_cst : Ref sig .tc := ⟨.hbm, 122, rfl⟩
abbrev main_call3_v0 : Ref sig .tc := ⟨.hbm, 123, rfl⟩
abbrev main_call3_cst_0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_v6 : Ref sig .tc := ⟨.hbm, 130, rfl⟩
abbrev main_call3_cst_1 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_cst_13 : Ref sig .tc := ⟨.hbm, 139, rfl⟩
abbrev main_v64 : Ref sig .tc := ⟨.hbm, 140, rfl⟩
abbrev main_cst_14 : Ref sig .tc := ⟨.hbm, 141, rfl⟩
abbrev main_v65 : Ref sig .tc := ⟨.hbm, 142, rfl⟩
abbrev main_v66 : Ref sig .tc := ⟨.hbm, 143, rfl⟩
abbrev main_cst_15 : Ref sig .tc := ⟨.hbm, 144, rfl⟩
abbrev main_v67 : Ref sig .tc := ⟨.hbm, 145, rfl⟩
abbrev main_cst_16 : Ref sig .tc := ⟨.hbm, 146, rfl⟩
abbrev main_v68 : Ref sig .tc := ⟨.hbm, 147, rfl⟩
abbrev main_cst_17 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_cst_18 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_call4_cst : Ref sig .tc := ⟨.hbm, 160, rfl⟩
abbrev main_call4_v0 : Ref sig .tc := ⟨.hbm, 161, rfl⟩
abbrev main_call4_cst_0 : Ref sig .tc := ⟨.hbm, 162, rfl⟩
abbrev main_call4_v1 : Ref sig .tc := ⟨.hbm, 163, rfl⟩
abbrev main_call4_v2 : Ref sig .tc := ⟨.hbm, 164, rfl⟩
abbrev main_call4_v3 : Ref sig .tc := ⟨.hbm, 165, rfl⟩
abbrev main_call4_v4 : Ref sig .tc := ⟨.hbm, 166, rfl⟩
abbrev main_call4_v5 : Ref sig .tc := ⟨.hbm, 167, rfl⟩
abbrev main_call4_v6 : Ref sig .tc := ⟨.hbm, 168, rfl⟩
abbrev main_call4_cst_1 : Ref sig .tc := ⟨.hbm, 169, rfl⟩
abbrev main_call4_v7 : Ref sig .tc := ⟨.hbm, 170, rfl⟩
abbrev main_call4_v8 : Ref sig .tc := ⟨.hbm, 171, rfl⟩
abbrev main_call4_v9 : Ref sig .tc := ⟨.hbm, 172, rfl⟩
abbrev main_call4_v10 : Ref sig .tc := ⟨.hbm, 173, rfl⟩
abbrev main_v79 : Ref sig .tc := ⟨.hbm, 174, rfl⟩
abbrev main_call5_cst : Ref sig .tc := ⟨.hbm, 175, rfl⟩
abbrev main_call5_v0 : Ref sig .tc := ⟨.hbm, 176, rfl⟩
abbrev main_call5_cst_0 : Ref sig .tc := ⟨.hbm, 177, rfl⟩
abbrev main_call5_v1 : Ref sig .tc := ⟨.hbm, 178, rfl⟩
abbrev main_call5_v2 : Ref sig .tc := ⟨.hbm, 179, rfl⟩
abbrev main_call5_v3 : Ref sig .tc := ⟨.hbm, 180, rfl⟩
abbrev main_call5_v4 : Ref sig .tc := ⟨.hbm, 181, rfl⟩
abbrev main_call5_v5 : Ref sig .tc := ⟨.hbm, 182, rfl⟩
abbrev main_call5_v6 : Ref sig .tc := ⟨.hbm, 183, rfl⟩
abbrev main_call5_cst_1 : Ref sig .tc := ⟨.hbm, 184, rfl⟩
abbrev main_call5_v7 : Ref sig .tc := ⟨.hbm, 185, rfl⟩
abbrev main_call5_v8 : Ref sig .tc := ⟨.hbm, 186, rfl⟩
abbrev main_call5_v9 : Ref sig .tc := ⟨.hbm, 187, rfl⟩
abbrev main_call5_v10 : Ref sig .tc := ⟨.hbm, 188, rfl⟩
abbrev main_v80 : Ref sig .tc := ⟨.hbm, 189, rfl⟩
abbrev main_v81 : Ref sig .tc := ⟨.hbm, 190, rfl⟩
abbrev main_v82 : Ref sig .tc := ⟨.hbm, 191, rfl⟩
abbrev main_cst_19 : Ref sig .tc := ⟨.hbm, 192, rfl⟩
abbrev main_v83 : Ref sig .tc := ⟨.hbm, 193, rfl⟩
abbrev main_cst_20 : Ref sig .tc := ⟨.hbm, 194, rfl⟩
abbrev main_v84 : Ref sig .tc := ⟨.hbm, 195, rfl⟩
abbrev main_cst_21 : Ref sig .tc := ⟨.hbm, 196, rfl⟩
abbrev main_v85 : Ref sig .tc := ⟨.hbm, 197, rfl⟩
abbrev main_cst_22 : Ref sig .tc := ⟨.hbm, 198, rfl⟩
abbrev main_v86 : Ref sig .tc := ⟨.hbm, 199, rfl⟩
abbrev main_v87 : Ref sig .tc := ⟨.hbm, 200, rfl⟩
abbrev main_v88 : Ref sig .tc := ⟨.hbm, 201, rfl⟩
abbrev main_v89 : Ref sig .tc := ⟨.hbm, 202, rfl⟩
abbrev main_v90 : Ref sig .tc := ⟨.hbm, 203, rfl⟩
abbrev main_v91 : Ref sig .tc := ⟨.hbm, 204, rfl⟩
abbrev main_cst_23 : Ref sig .tc := ⟨.hbm, 205, rfl⟩
abbrev main_v92 : Ref sig .tc := ⟨.hbm, 206, rfl⟩
abbrev main_v93 : Ref sig .tc := ⟨.hbm, 207, rfl⟩
abbrev main_v94 : Ref sig .tc := ⟨.hbm, 208, rfl⟩
abbrev main_v95 : Ref sig .tc := ⟨.hbm, 209, rfl⟩
abbrev main_call6_cst : Ref sig .tc := ⟨.hbm, 210, rfl⟩
abbrev main_call6_v0 : Ref sig .tc := ⟨.hbm, 211, rfl⟩
abbrev main_call6_cst_0 : Ref sig .tc := ⟨.hbm, 212, rfl⟩
abbrev main_call6_v1 : Ref sig .tc := ⟨.hbm, 213, rfl⟩
abbrev main_call6_v2 : Ref sig .tc := ⟨.hbm, 214, rfl⟩
abbrev main_call6_v3 : Ref sig .tc := ⟨.hbm, 215, rfl⟩
abbrev main_call6_v4 : Ref sig .tc := ⟨.hbm, 216, rfl⟩
abbrev main_call6_v5 : Ref sig .tc := ⟨.hbm, 217, rfl⟩
abbrev main_call6_v6 : Ref sig .tc := ⟨.hbm, 218, rfl⟩
abbrev main_call6_cst_1 : Ref sig .tc := ⟨.hbm, 219, rfl⟩
abbrev main_call6_v7 : Ref sig .tc := ⟨.hbm, 220, rfl⟩
abbrev main_call6_v8 : Ref sig .tc := ⟨.hbm, 221, rfl⟩
abbrev main_call6_v9 : Ref sig .tc := ⟨.hbm, 222, rfl⟩
abbrev main_call6_v10 : Ref sig .tc := ⟨.hbm, 223, rfl⟩
abbrev main_v96 : Ref sig .tc := ⟨.hbm, 224, rfl⟩
abbrev main_call7_cst : Ref sig .tc := ⟨.hbm, 225, rfl⟩
abbrev main_call7_v0 : Ref sig .tc := ⟨.hbm, 226, rfl⟩
abbrev main_call7_cst_0 : Ref sig .tc := ⟨.hbm, 227, rfl⟩
abbrev main_call7_v1 : Ref sig .tc := ⟨.hbm, 228, rfl⟩
abbrev main_call7_v2 : Ref sig .tc := ⟨.hbm, 229, rfl⟩
abbrev main_call7_v3 : Ref sig .tc := ⟨.hbm, 230, rfl⟩
abbrev main_call7_v4 : Ref sig .tc := ⟨.hbm, 231, rfl⟩
abbrev main_call7_v5 : Ref sig .tc := ⟨.hbm, 232, rfl⟩
abbrev main_call7_v6 : Ref sig .tc := ⟨.hbm, 233, rfl⟩
abbrev main_call7_cst_1 : Ref sig .tc := ⟨.hbm, 234, rfl⟩
abbrev main_call7_v7 : Ref sig .tc := ⟨.hbm, 235, rfl⟩
abbrev main_call7_v8 : Ref sig .tc := ⟨.hbm, 236, rfl⟩
abbrev main_call7_v9 : Ref sig .tc := ⟨.hbm, 237, rfl⟩
abbrev main_call7_v10 : Ref sig .tc := ⟨.hbm, 238, rfl⟩
abbrev main_v97 : Ref sig .tc := ⟨.hbm, 239, rfl⟩
abbrev main_v98 : Ref sig .tc := ⟨.hbm, 240, rfl⟩
abbrev main_v99 : Ref sig .tc := ⟨.hbm, 241, rfl⟩
abbrev main_cst_24 : Ref sig .tc := ⟨.hbm, 242, rfl⟩
abbrev main_v100 : Ref sig .tc := ⟨.hbm, 243, rfl⟩
abbrev main_cst_25 : Ref sig .tc := ⟨.hbm, 244, rfl⟩
abbrev main_v101 : Ref sig .tc := ⟨.hbm, 245, rfl⟩
abbrev main_v102 : Ref sig .tc := ⟨.hbm, 246, rfl⟩
abbrev main_cst_26 : Ref sig .tc := ⟨.hbm, 247, rfl⟩
abbrev main_v103 : Ref sig .tc := ⟨.hbm, 248, rfl⟩
abbrev main_cst_27 : Ref sig .tc := ⟨.hbm, 249, rfl⟩
abbrev main_v104 : Ref sig .tc := ⟨.hbm, 250, rfl⟩
abbrev main_cst_28 : Ref sig .tc := ⟨.hbm, 251, rfl⟩
abbrev main_v105 : Ref sig .tc := ⟨.hbm, 252, rfl⟩
abbrev main_v106 : Ref sig .tc := ⟨.hbm, 253, rfl⟩
abbrev main_v107 : Ref sig .tc := ⟨.hbm, 254, rfl⟩
abbrev main_v108 : Ref sig .tc := ⟨.hbm, 255, rfl⟩
abbrev main_v109 : Ref sig .tc := ⟨.hbm, 256, rfl⟩
abbrev main_v110 : Ref sig .tc := ⟨.hbm, 257, rfl⟩
abbrev main_cst_29 : Ref sig .tc := ⟨.hbm, 258, rfl⟩
abbrev main_v111 : Ref sig .tc := ⟨.hbm, 259, rfl⟩
abbrev main_v112 : Ref sig .tc := ⟨.hbm, 260, rfl⟩
abbrev main_v113 : Ref sig .tc := ⟨.hbm, 261, rfl⟩
abbrev main_v114 : Ref sig .tc := ⟨.hbm, 262, rfl⟩
abbrev main_call8_cst : Ref sig .tc := ⟨.hbm, 263, rfl⟩
abbrev main_call8_v0 : Ref sig .tc := ⟨.hbm, 264, rfl⟩
abbrev main_call8_cst_0 : Ref sig .tc := ⟨.hbm, 265, rfl⟩
abbrev main_call8_v1 : Ref sig .tc := ⟨.hbm, 266, rfl⟩
abbrev main_call8_v2 : Ref sig .tc := ⟨.hbm, 267, rfl⟩
abbrev main_call8_v3 : Ref sig .tc := ⟨.hbm, 268, rfl⟩
abbrev main_call8_v4 : Ref sig .tc := ⟨.hbm, 269, rfl⟩
abbrev main_call8_v5 : Ref sig .tc := ⟨.hbm, 270, rfl⟩
abbrev main_call8_v6 : Ref sig .tc := ⟨.hbm, 271, rfl⟩
abbrev main_call8_cst_1 : Ref sig .tc := ⟨.hbm, 272, rfl⟩
abbrev main_call8_v7 : Ref sig .tc := ⟨.hbm, 273, rfl⟩
abbrev main_call8_v8 : Ref sig .tc := ⟨.hbm, 274, rfl⟩
abbrev main_call8_v9 : Ref sig .tc := ⟨.hbm, 275, rfl⟩
abbrev main_call8_v10 : Ref sig .tc := ⟨.hbm, 276, rfl⟩
abbrev main_v115 : Ref sig .tc := ⟨.hbm, 277, rfl⟩
abbrev main_call9_cst : Ref sig .tc := ⟨.hbm, 278, rfl⟩
abbrev main_call9_v0 : Ref sig .tc := ⟨.hbm, 279, rfl⟩
abbrev main_call9_cst_0 : Ref sig .tc := ⟨.hbm, 280, rfl⟩
abbrev main_call9_v1 : Ref sig .tc := ⟨.hbm, 281, rfl⟩
abbrev main_call9_v2 : Ref sig .tc := ⟨.hbm, 282, rfl⟩
abbrev main_call9_v3 : Ref sig .tc := ⟨.hbm, 283, rfl⟩
abbrev main_call9_v4 : Ref sig .tc := ⟨.hbm, 284, rfl⟩
abbrev main_call9_v5 : Ref sig .tc := ⟨.hbm, 285, rfl⟩
abbrev main_call9_v6 : Ref sig .tc := ⟨.hbm, 286, rfl⟩
abbrev main_call9_cst_1 : Ref sig .tc := ⟨.hbm, 287, rfl⟩
abbrev main_call9_v7 : Ref sig .tc := ⟨.hbm, 288, rfl⟩
abbrev main_call9_v8 : Ref sig .tc := ⟨.hbm, 289, rfl⟩
abbrev main_call9_v9 : Ref sig .tc := ⟨.hbm, 290, rfl⟩
abbrev main_call9_v10 : Ref sig .tc := ⟨.hbm, 291, rfl⟩
abbrev main_v116 : Ref sig .tc := ⟨.hbm, 292, rfl⟩
abbrev main_v117 : Ref sig .tc := ⟨.hbm, 293, rfl⟩
abbrev main_v118 : Ref sig .tc := ⟨.hbm, 294, rfl⟩
abbrev main_cst_30 : Ref sig .tc := ⟨.hbm, 295, rfl⟩
abbrev main_v119 : Ref sig .tc := ⟨.hbm, 296, rfl⟩
abbrev main_cst_31 : Ref sig .tc := ⟨.hbm, 297, rfl⟩
abbrev main_v120 : Ref sig .tc := ⟨.hbm, 298, rfl⟩
abbrev main_cst_32 : Ref sig .tc := ⟨.hbm, 299, rfl⟩
abbrev main_v121 : Ref sig .tc := ⟨.hbm, 300, rfl⟩
abbrev main_cst_33 : Ref sig .tc := ⟨.hbm, 301, rfl⟩
abbrev main_v122 : Ref sig .tc := ⟨.hbm, 302, rfl⟩
abbrev main_v123 : Ref sig .tc := ⟨.hbm, 303, rfl⟩
abbrev main_v124 : Ref sig .tc := ⟨.hbm, 304, rfl⟩
abbrev main_v125 : Ref sig .tc := ⟨.hbm, 305, rfl⟩
abbrev main_v126 : Ref sig .tc := ⟨.hbm, 306, rfl⟩
abbrev main_v127 : Ref sig .tc := ⟨.hbm, 307, rfl⟩
abbrev main_cst_34 : Ref sig .tc := ⟨.hbm, 308, rfl⟩
abbrev main_v128 : Ref sig .tc := ⟨.hbm, 309, rfl⟩
abbrev main_v129 : Ref sig .tc := ⟨.hbm, 310, rfl⟩
abbrev main_v130 : Ref sig .tc := ⟨.hbm, 311, rfl⟩
abbrev main_v131 : Ref sig .tc := ⟨.hbm, 312, rfl⟩
abbrev main_call10_cst : Ref sig .tc := ⟨.hbm, 313, rfl⟩
abbrev main_call10_v0 : Ref sig .tc := ⟨.hbm, 314, rfl⟩
abbrev main_call10_cst_0 : Ref sig .tc := ⟨.hbm, 315, rfl⟩
abbrev main_call10_v1 : Ref sig .tc := ⟨.hbm, 316, rfl⟩
abbrev main_call10_v2 : Ref sig .tc := ⟨.hbm, 317, rfl⟩
abbrev main_call10_v3 : Ref sig .tc := ⟨.hbm, 318, rfl⟩
abbrev main_call10_v4 : Ref sig .tc := ⟨.hbm, 319, rfl⟩
abbrev main_call10_v5 : Ref sig .tc := ⟨.hbm, 320, rfl⟩
abbrev main_call10_v6 : Ref sig .tc := ⟨.hbm, 321, rfl⟩
abbrev main_call10_cst_1 : Ref sig .tc := ⟨.hbm, 322, rfl⟩
abbrev main_call10_v7 : Ref sig .tc := ⟨.hbm, 323, rfl⟩
abbrev main_call10_v8 : Ref sig .tc := ⟨.hbm, 324, rfl⟩
abbrev main_call10_v9 : Ref sig .tc := ⟨.hbm, 325, rfl⟩
abbrev main_call10_v10 : Ref sig .tc := ⟨.hbm, 326, rfl⟩
abbrev main_v132 : Ref sig .tc := ⟨.hbm, 327, rfl⟩
abbrev main_call11_cst : Ref sig .tc := ⟨.hbm, 328, rfl⟩
abbrev main_call11_v0 : Ref sig .tc := ⟨.hbm, 329, rfl⟩
abbrev main_call11_cst_0 : Ref sig .tc := ⟨.hbm, 330, rfl⟩
abbrev main_call11_v1 : Ref sig .tc := ⟨.hbm, 331, rfl⟩
abbrev main_call11_v2 : Ref sig .tc := ⟨.hbm, 332, rfl⟩
abbrev main_call11_v3 : Ref sig .tc := ⟨.hbm, 333, rfl⟩
abbrev main_call11_v4 : Ref sig .tc := ⟨.hbm, 334, rfl⟩
abbrev main_call11_v5 : Ref sig .tc := ⟨.hbm, 335, rfl⟩
abbrev main_call11_v6 : Ref sig .tc := ⟨.hbm, 336, rfl⟩
abbrev main_call11_cst_1 : Ref sig .tc := ⟨.hbm, 337, rfl⟩
abbrev main_call11_v7 : Ref sig .tc := ⟨.hbm, 338, rfl⟩
abbrev main_call11_v8 : Ref sig .tc := ⟨.hbm, 339, rfl⟩
abbrev main_call11_v9 : Ref sig .tc := ⟨.hbm, 340, rfl⟩
abbrev main_call11_v10 : Ref sig .tc := ⟨.hbm, 341, rfl⟩
abbrev main_v133 : Ref sig .tc := ⟨.hbm, 342, rfl⟩
abbrev main_v134 : Ref sig .tc := ⟨.hbm, 343, rfl⟩
abbrev main_v135 : Ref sig .tc := ⟨.hbm, 344, rfl⟩
abbrev main_cst_35 : Ref sig .tc := ⟨.hbm, 345, rfl⟩
abbrev main_v136 : Ref sig .tc := ⟨.hbm, 346, rfl⟩
abbrev main_cst_36 : Ref sig .tc := ⟨.hbm, 347, rfl⟩
abbrev main_v137 : Ref sig .tc := ⟨.hbm, 348, rfl⟩
abbrev main_v138 : Ref sig .tc := ⟨.hbm, 349, rfl⟩
abbrev main_cst_37 : Ref sig .tc := ⟨.hbm, 350, rfl⟩
abbrev main_v139 : Ref sig .tc := ⟨.hbm, 351, rfl⟩
abbrev main_v140 : Ref sig .tc := ⟨.hbm, 352, rfl⟩
abbrev main_v141 : Ref sig .tc := ⟨.hbm, 353, rfl⟩
abbrev main_cst_38 : Ref sig .tc := ⟨.hbm, 354, rfl⟩
abbrev main_v142 : Ref sig .tc := ⟨.hbm, 355, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S_S64x256 : S_.BroadcastsInDim S64x256 (![] : Fin 0 → Fin S64x256.rank)
  bcast_S65536_S65536x1_0 : S65536.BroadcastsInDim S65536x1 (![0] : Fin 1 → Fin S65536x1.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  concatenates_S65536x256_S65536x256_S131072x256_d0 : Shape.Concatenates [S65536x256, S65536x256] S131072x256 0
  transposes_S64x256_S256x64_1_0 : S64x256.Transposes [1, 0] S256x64
  reducesTo_S131072x64_S131072_d1 : S131072x64.ReducesTo [1] S131072
  h_S_ : 0 < S_.numel
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x64_0_1 : S131072x1.BroadcastsInDim S131072x64 (![0, 1] : Fin 2 → Fin S131072x64.rank)
  reducesTo_S131072x64_S_d0_1 : S131072x64.ReducesTo [0, 1] S_
  scatter_S64x256_S65536x1_S65536x256_1_0_0_1_wf : ScatterDims.WF S64x256 S65536x1 S65536x256 [1] [0] [0] 1
  scatter_S64_S65536x1_S65536_n_0_0_1_wf : ScatterDims.WF S64 S65536x1 S65536 [] [0] [0] 1
  dot_S131072x256_S256x64_S131072x64_1_0_0_1_n_n_wf : DotDims.WF S131072x256 S256x64 S131072x64 [1] [0] [0] [1] [] []

variable [Facts₀]

def scatter_S64x256_S65536x1_S65536x256_1_0_0_1 : ScatterDims S64x256 S65536x1 S65536x256 where
  updateWindowDims := [1]
  insertedWindowDims := [0]
  scatterDimsToOperandDims := [0]
  indexVectorDim := 1
  wf := scatter_S64x256_S65536x1_S65536x256_1_0_0_1_wf
def scatter_S64_S65536x1_S65536_n_0_0_1 : ScatterDims S64 S65536x1 S65536 where
  updateWindowDims := []
  insertedWindowDims := [0]
  scatterDimsToOperandDims := [0]
  indexVectorDim := 1
  wf := scatter_S64_S65536x1_S65536_n_0_0_1_wf
def dot_S131072x256_S256x64_S131072x64_1_0_0_1_n_n : DotDims S131072x256 S256x64 S131072x64 where
  lhsContracting := [1]
  rhsContracting := [0]
  lhsNonContracting := [0]
  rhsNonContracting := [1]
  lhsBatch := []
  rhsBatch := []
  wf := dot_S131072x256_S256x64_S131072x64_1_0_0_1_n_n_wf

class Facts : Prop extends Facts₀ where

variable [Facts]
-- ==== Proof.KB.R0RunA.lean ====
import proofs.«417377_j33337536151700_1_alg».proof.Proof.Gen.Kernel.Launch
import proofs.«417377_j33337536151700_1_alg».proof.Proof.Gen.Kernel.Skeleton
import proofs.«417377_j33337536151700_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0 (i : grid0.Coords) : Prop :=
  (Scalar.cmpi .ne (Scalar.extui (Scalar.cmpi .eq (BitVec.ofNat 32 (i 0).val) 0#32)) 0#32) = 1#1

theorem hcond0 : ∀ t : Fin cfg0.N, cond0 (grid0.coords t) ↔ t.val % 16 = 0 :=
  (by decide +kernel : ∀ t : Fin grid0.N, cond0 (grid0.coords t) ↔ t.val % 16 = 0)

abbrev VO0_4 : View sig .tc .vmem S2x64x256 .f32 := (Memref.whole cc0_stg4_0 : Memref sig .tc .vmem S2x64x256 .f32).view
abbrev VO0_5 : View sig .tc .vmem S2x64 .f32 := (Memref.whole cc0_stg5_0 : Memref sig .tc .vmem S2x64 .f32).view

abbrev ms0_0 (t : Fin cfg0.N) : Memref sig .tc .vmem S4096x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x1 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x64x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x64 .f32 := win0_5.stage (cfg0.slots t 5)
abbrev hs0_5 (t : Fin cfg0.N) : (ms0_5 t).IsWhole := hstage0_5 ((cfg0.slots t 5).cast nbuf0_5)

set_option maxHeartbeats 2000000 in

noncomputable def kernelRun0_A (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x1 .i32) (harg3 : arg3.IsWhole) (arg4 : Memref sig .tc .vmem S4096x1 .i32) (harg4 : arg4.IsWhole) (arg5 : Memref sig .tc .vmem S2x64x256 .f32) (harg5 : arg5.IsWhole) (arg6 : Memref sig .tc .vmem S2x64 .f32) (harg6 : arg6.IsWhole) (hc0 : cond0 i)
    (x0 x1 : Vec F S4096x256 .f32) (x2 x3 : Vec F S4096x1 .i32) :
    { L : List (View.Piece (Elt F) S2x64x256 .f32) × List (View.Piece (Elt F) S2x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1) ∗ (∃ f, arg6.view.loc (c : Thread nD τ) ↦[arg6.view.set]{fullShare} arg6.view.writes (Elt F) f L.2)) -∗ K ⟨⟩))
          ⊢ wp frame (wpE (defs₀ (F := F)) Variants.none c none) E (cc0__segsum_kernel i arg1 harg1 arg2 harg2 arg3 harg3 arg4 harg4 arg5 harg5 arg6 harg6) K } := by
  refine ⟨(?_, ?_), fun E K => ?run⟩
  case run =>
    simp only [cc0__segsum_kernel_eq_skeleton]; unfold cc0__segsum_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1
    obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; iexact H5

end Cert.Kernel.Fr

end
-- ==== Proof.KB.R0RunB.lean ====
import proofs.«417377_j33337536151700_1_alg».proof.Proof.KB.R0RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in

noncomputable def kernelRun0_B (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x1 .i32) (harg3 : arg3.IsWhole) (arg4 : Memref sig .tc .vmem S4096x1 .i32) (harg4 : arg4.IsWhole) (arg5 : Memref sig .tc .vmem S2x64x256 .f32) (harg5 : arg5.IsWhole) (arg6 : Memref sig .tc .vmem S2x64 .f32) (harg6 : arg6.IsWhole) (hc0 : ¬cond0 i)
    (x0 x1 : Vec F S4096x256 .f32) (x2 x3 : Vec F S4096x1 .i32) (xo4 : Vec F S2x64x256 .f32) (xo5 : Vec F S2x64 .f32) :
    { L : List (View.Piece (Elt F) S2x64x256 .f32) × List (View.Piece (Elt F) S2x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1) ∗ (∃ f, arg6.view.loc (c : Thread nD τ) ↦[arg6.view.set]{fullShare} arg6.view.writes (Elt F) f L.2)) -∗ K ⟨⟩))
          ⊢ wp frame (wpE (defs₀ (F := F)) Variants.none c none) E (cc0__segsum_kernel i arg1 harg1 arg2 harg2 arg3 harg3 arg4 harg4 arg5 harg5 arg6 harg6) K } := by
  refine ⟨(?_, ?_), fun E K => ?run⟩
  case run =>
    simp only [cc0__segsum_kernel_eq_skeleton]; unfold cc0__segsum_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1
    obtain rfl := harg3.eq_unread hf2; obtain rfl := harg4.eq_unread hf3
    obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; iexact H5

end Cert.Kernel.Fr

end
-- ==== Proof.KB.R0.lean ====
import proofs.«417377_j33337536151700_1_alg».proof.Proof.KB.R0RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x1 .i32) (harg3 : arg3.IsWhole) (arg4 : Memref sig .tc .vmem S4096x1 .i32) (harg4 : arg4.IsWhole) (arg5 : Memref sig .tc .vmem S2x64x256 .f32) (harg5 : arg5.IsWhole) (arg6 : Memref sig .tc .vmem S2x64 .f32) (harg6 : arg6.IsWhole)

theorem cover0_A_4 (hc0 : cond0 i)
    (x0 x1 : Vec F S4096x256 .f32) (x2 x3 : Vec F S4096x1 .i32) (y : S2x64x256.Idx) :
    ∃ pc ∈ (kernelRun0_A c i arg1 harg1 arg2 harg2 arg3 harg3 arg4 harg4 arg5 harg5 arg6 harg6 hc0 x0 x1 x2 x3).1.1, y ∈ pc.1.set :=
  View.cover_of_tiledL _ S2x64x256.size (by sl_kernel_rfl) y

theorem cover0_A_5 (hc0 : cond0 i)
    (x0 x1 : Vec F S4096x256 .f32) (x2 x3 : Vec F S4096x1 .i32) (y : S2x64.Idx) :
    ∃ pc ∈ (kernelRun0_A c i arg1 harg1 arg2 harg2 arg3 harg3 arg4 harg4 arg5 harg5 arg6 harg6 hc0 x0 x1 x2 x3).1.2, y ∈ pc.1.set :=
  View.cover_of_tiledL _ S2x64.size (by sl_kernel_rfl) y

theorem cover0_B_4 (hc0 : ¬cond0 i)
    (x0 x1 : Vec F S4096x256 .f32) (x2 x3 : Vec F S4096x1 .i32) (xo4 : Vec F S2x64x256 .f32) (xo5 : Vec F S2x64 .f32) (y : S2x64x256.Idx) :
    ∃ pc ∈ (kernelRun0_B c i arg1 harg1 arg2 harg2 arg3 harg3 arg4 harg4 arg5 harg5 arg6 harg6 hc0 x0 x1 x2 x3 xo4 xo5).1.1, y ∈ pc.1.set :=
  View.cover_of_tiledL (s := S2x64x256) _ S1x64x256.size (by sl_kernel_rfl) y

theorem cover0_B_5 (hc0 : ¬cond0 i)
    (x0 x1 : Vec F S4096x256 .f32) (x2 x3 : Vec F S4096x1 .i32) (xo4 : Vec F S2x64x256 .f32) (xo5 : Vec F S2x64 .f32) (y : S2x64.Idx) :
    ∃ pc ∈ (kernelRun0_B c i arg1 harg1 arg2 harg2 arg3 harg3 arg4 harg4 arg5 harg5 arg6 harg6 hc0 x0 x1 x2 x3 xo4 xo5).1.2, y ∈ pc.1.set :=
  View.cover_of_tiledL (s := S2x64) _ S1x64.size (by sl_kernel_rfl) y

def out0_A_4 (hc0 : cond0 i)
    (x0 x1 : Vec F S4096x256 .f32) (x2 x3 : Vec F S4096x1 .i32) : Vec F S2x64x256 .f32 :=
  VO0_4.read (Elt F) (VO0_4.writes (Elt F) VO0_4.junk (kernelRun0_A c i arg1 harg1 arg2 harg2 arg3 harg3 arg4 harg4 arg5 harg5 arg6 harg6 hc0 x0 x1 x2 x3).1.1)

def out0_A_5 (hc0 : cond0 i)
    (x0 x1 : Vec F S4096x256 .f32) (x2 x3 : Vec F S4096x1 .i32) : Vec F S2x64 .f32 :=
  VO0_5.read (Elt F) (VO0_5.writes (Elt F) VO0_5.junk (kernelRun0_A c i arg1 harg1 arg2 harg2 arg3 harg3 arg4 harg4 arg5 harg5 arg6 harg6 hc0 x0 x1 x2 x3).1.2)

def out0_B_4 (hc0 : ¬cond0 i)
    (x0 x1 : Vec F S4096x256 .f32) (x2 x3 : Vec F S4096x1 .i32) (xo4 : Vec F S2x64x256 .f32) (xo5 : Vec F S2x64 .f32) : Vec F S2x64x256 .f32 :=
  VO0_4.read (Elt F) (VO0_4.writes (Elt F) VO0_4.junk (kernelRun0_B c i arg1 harg1 arg2 harg2 arg3 harg3 arg4 harg4 arg5 harg5 arg6 harg6 hc0 x0 x1 x2 x3 xo4 xo5).1.1)

def out0_B_5 (hc0 : ¬cond0 i)
    (x0 x1 : Vec F S4096x256 .f32) (x2 x3 : Vec F S4096x1 .i32) (xo4 : Vec F S2x64x256 .f32) (xo5 : Vec F S2x64 .f32) : Vec F S2x64 .f32 :=
  VO0_5.read (Elt F) (VO0_5.writes (Elt F) VO0_5.junk (kernelRun0_B c i arg1 harg1 arg2 harg2 arg3 harg3 arg4 harg4 arg5 harg5 arg6 harg6 hc0 x0 x1 x2 x3 xo4 xo5).1.2)

end

section Region

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- Case A at point `t`: both outputs from the point's memrefs and input blocks.
def outA0 (c : Dev nD) (t : Fin cfg0.N) (h : cond0 (grid0.coords t)) : Vec F S2x64x256 .f32 × Vec F S2x64 .f32 :=
  (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) h (iblk0 V c 0 t) (iblk0 V c 1 t) (iblk0 V c 2 t) (iblk0 V c 3 t),
   out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) h (iblk0 V c 0 t) (iblk0 V c 1 t) (iblk0 V c 2 t) (iblk0 V c 3 t))

-- Case B at point `t`, over what the point before left in the two outputs.
def outB0 (c : Dev nD) (t : Fin cfg0.N) (h : ¬cond0 (grid0.coords t)) (o : Vec F S2x64x256 .f32 × Vec F S2x64 .f32) : Vec F S2x64x256 .f32 × Vec F S2x64 .f32 :=
  (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) h (iblk0 V c 0 t) (iblk0 V c 1 t) (iblk0 V c 2 t) (iblk0 V c 3 t) o.1 o.2,
   out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) h (iblk0 V c 0 t) (iblk0 V c 1 t) (iblk0 V c 2 t) (iblk0 V c 3 t) o.1 o.2)

-- The accumulation: case A resets the two outputs, case B adds to what the point before left.
def outsAt0 (c : Dev nD) : (n : ℕ) → n < cfg0.N → Vec F S2x64x256 .f32 × Vec F S2x64 .f32
  | 0, hn => outA0 V c ⟨0, hn⟩ ((hcond0 _).mpr (Nat.zero_mod _))
  | n + 1, hn =>
    if h0 : (n + 1) % 16 = 0 then outA0 V c ⟨n + 1, hn⟩ ((hcond0 _).mpr h0)
    else outB0 V c ⟨n + 1, hn⟩ (fun h => h0 ((hcond0 _).mp h)) (outsAt0 c n (Nat.lt_of_succ_lt hn))

theorem outsAt0_A (c : Dev nD) (t : Fin cfg0.N) (h0 : t.val % 16 = 0) :
    outsAt0 V c t.val t.isLt = outA0 V c t ((hcond0 t).mpr h0) := by
  obtain ⟨n, hn⟩ := t
  cases n with
  | zero => rfl
  | succ n => exact dif_pos h0

theorem outsAt0_B (c : Dev nD) (t : Fin cfg0.N) (h0 : ¬t.val % 16 = 0) :
    outsAt0 V c t.val t.isLt = outB0 V c t (fun h => h0 ((hcond0 t).mp h)) (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans rfl

theorem outsAt0_A_fst (c : Dev nD) (t : Fin cfg0.N) (h0 : t.val % 16 = 0) :
    (outsAt0 V c t.val t.isLt).1 = out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0 t).mpr h0) (iblk0 V c 0 t) (iblk0 V c 1 t) (iblk0 V c 2 t) (iblk0 V c 3 t) :=
  by rw [outsAt0_A V c t h0, outA0]
theorem outsAt0_A_snd (c : Dev nD) (t : Fin cfg0.N) (h0 : t.val % 16 = 0) :
    (outsAt0 V c t.val t.isLt).2 = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0 t).mpr h0) (iblk0 V c 0 t) (iblk0 V c 1 t) (iblk0 V c 2 t) (iblk0 V c 3 t) :=
  by rw [outsAt0_A V c t h0, outA0]
theorem outsAt0_B_fst (c : Dev nD) (t : Fin cfg0.N) (h0 : ¬t.val % 16 = 0) :
    (outsAt0 V c t.val t.isLt).1 = out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0 t).mp h)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2 :=
  by rw [outsAt0_B V c t h0, outB0]
theorem outsAt0_B_snd (c : Dev nD) (t : Fin cfg0.N) (h0 : ¬t.val % 16 = 0) :
    (outsAt0 V c t.val t.isLt).2 = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0 t).mp h)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2 :=
  by rw [outsAt0_B V c t h0, outB0]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2 := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl

theorem before0_4_B (c : Dev nD) (t : Fin cfg0.N) (h0 : ¬t.val % 16 = 0) (d) :
    (dat0 V c).before 4 t d = (outsAt0 V c (t.val - 1) (Nat.lt_of_le_of_lt (Nat.sub_le _ _) t.isLt)).1 := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dat0]

theorem before0_5_B (c : Dev nD) (t : Fin cfg0.N) (h0 : ¬t.val % 16 = 0) (d) :
    (dat0 V c).before 5 t d = (outsAt0 V c (t.val - 1) (Nat.lt_of_le_of_lt (Nat.sub_le _ _) t.isLt)).2 := by
  have hN : t.val < 16 := lt_of_lt_of_eq t.isLt (show cfg0.N = 16 from N_0)
  rw [Dat.before_out_kept _ 5 rfl t (by omega) (Bool.eq_false_iff.mpr fun h => by have := (flush0_5 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 1600000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  have hN : t.val < 16 := lt_of_lt_of_eq t.isLt (show cfg0.N = 16 from N_0)
  by_cases h0 : t.val % 16 = 0
  · rw [outsAt0_A_fst V c t h0, outsAt0_A_snd V c t h0]
    unfold out0_A_4 out0_A_5
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0 t).mpr h0) (iblk0 V c 0 t) (iblk0 V c 1 t) (iblk0 V c 2 t) (iblk0 V c 3 t)).2 Set.univ _)
    iframe H0 H1 H2 H3
    isplitl [H4]; · iexists _; iexact H4
    isplitl [H5]; · iexists _; iexact H5
    iintro ⟨H0, H1, H2, H3, ⟨%e4, H4⟩, ⟨%e5, H5⟩⟩
    iframe HΦ Ho H0 H1 H2 H3
    isplitl [H4]
    · unfold owns; iexists _; isplitr
      swap; · iexact H4
      ipureintro; exact View.read_writes_of_cover _ _ _ _ _ (cover0_A_4 c _ _ _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _ _ _)
  · rw [outsAt0_B_fst V c t h0, outsAt0_B_snd V c t h0]
    simp only [before0_4_B V c t h0, before0_5_B V c t h0]
    unfold out0_B_4 out0_B_5
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0 t).mp h)) (iblk0 V c 0 t) (iblk0 V c 1 t) (iblk0 V c 2 t) (iblk0 V c 3 t) _ _).2 Set.univ _)
    iframe H0 H1 H2 H3
    isplitl [H4]; · iexact H4
    isplitl [H5]; · iexact H5
    iintro ⟨H0, H1, H2, H3, ⟨%e4, H4⟩, ⟨%e5, H5⟩⟩
    iframe HΦ Ho H0 H1 H2 H3
    isplitl [H4]
    · unfold owns; iexists _; isplitr
      swap; · iexact H4
      ipureintro; exact View.read_writes_of_cover _ _ _ _ _ (cover0_B_4 c _ _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

end Region

end Cert.Kernel.Fr

end
-- ==== Proof.KB.R1RunA.lean ====
import proofs.«417377_j33337536151700_1_alg».proof.Proof.Gen.Kernel.Launch
import proofs.«417377_j33337536151700_1_alg».proof.Proof.Gen.Kernel.Skeleton
import proofs.«417377_j33337536151700_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1 (i : grid1.Coords) : Prop :=
  (Scalar.cmpi .ne (Scalar.extui (Scalar.cmpi .eq (BitVec.ofNat 32 (i 0).val) 0#32)) 0#32) = 1#1

theorem hcond1 : ∀ t : Fin cfg1.N, cond1 (grid1.coords t) ↔ t.val % 32 = 0 :=
  (by decide +kernel : ∀ t : Fin grid1.N, cond1 (grid1.coords t) ↔ t.val % 32 = 0)

abbrev VO1_2 : View sig .tc .vmem S1x8 .f32 := (Memref.whole cc1_stg2_0 : Memref sig .tc .vmem S1x8 .f32).view

abbrev ms1_0 (t : Fin cfg1.N) : Memref sig .tc .vmem S2048x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x192 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8 .f32 := win1_2.stage (cfg1.slots t 2)
abbrev hs1_2 (t : Fin cfg1.N) : (ms1_2 t).IsWhole := hstage1_2 ((cfg1.slots t 2).cast nbuf1_2)

set_option maxHeartbeats 1000000 in

noncomputable def kernelRun1_A (c : Dev nD) (i : grid1.Coords)
    (aA : Memref sig .tc .vmem S2048x256 .f32) (haA : aA.IsWhole)
    (aB : Memref sig .tc .vmem S256x192 .bf16) (haB : aB.IsWhole)
    (aC : Memref sig .tc .vmem S1x8 .f32) (haC : aC.IsWhole) (hc0 : cond1 i)
    (x0 : Vec F S2048x256 .f32) (xA : Vec F S256x192 .bf16) :
    { L : List (View.Piece (Elt F) S1x8 .f32) //
      ∀ (E : Set ℕ) (K : PUnit → sProp 𝕄),
        iprop(owns (c : Thread nD τ) aA fullShare x0 ∗ owns (c : Thread nD τ) aB fullShare xA ∗ (∃ d, owns (c : Thread nD τ) aC fullShare d)
            ∗ (iprop(owns (c : Thread nD τ) aA fullShare x0 ∗ owns (c : Thread nD τ) aB fullShare xA
                ∗ (∃ f, aC.view.loc (c : Thread nD τ) ↦[aC.view.set]{fullShare} aC.view.writes (Elt F) f L)) -∗ K ⟨⟩))
          ⊢ wp frame (wpE (defs₀ (F := F)) Variants.none c none) E (cc1__matmul_kl_kernel i aA haA aB haB aC haC) K } := by
  refine ⟨?_, fun E K => ?run⟩
  case run =>
    simp only [cc1__matmul_kl_kernel_eq_skeleton]; unfold cc1__matmul_kl_kernel_skel
    simp only [k1_part1_eq_skeleton, k1_part2_eq_skeleton]
    unfold owns
    iintro ⟨⟨%f0, %hf0, H0⟩, ⟨%fA, %hfA, HA⟩, ⟨%dC, %fC, -, HC⟩, Hk⟩
    obtain rfl := haA.eq_unread hf0; obtain rfl := haB.eq_unread hfA
    sl_exec (disch := first | exact hc0)
    sl_step
    iapply Hk
    isplitl [H0]
    · iexists _; isplitr; · ipureintro; exact haA.read_unread _
      iexact H0
    isplitl [HA]
    · iexists _; isplitr; · ipureintro; exact haB.read_unread _
      iexact HA
    iexists _; iexact HC

end Cert.Kernel.Fr

end
-- ==== Proof.KB.R1RunB.lean ====
import proofs.«417377_j33337536151700_1_alg».proof.Proof.KB.R1RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun1_B (c : Dev nD) (i : grid1.Coords)
    (aA : Memref sig .tc .vmem S2048x256 .f32) (haA : aA.IsWhole)
    (aB : Memref sig .tc .vmem S256x192 .bf16) (haB : aB.IsWhole)
    (aC : Memref sig .tc .vmem S1x8 .f32) (haC : aC.IsWhole) (hc0 : ¬cond1 i)
    (x0 : Vec F S2048x256 .f32) (xA : Vec F S256x192 .bf16) (xo : Vec F S1x8 .f32) :
    { L : List (View.Piece (Elt F) S1x8 .f32) //
      ∀ (E : Set ℕ) (K : PUnit → sProp 𝕄),
        iprop(owns (c : Thread nD τ) aA fullShare x0 ∗ owns (c : Thread nD τ) aB fullShare xA ∗ owns (c : Thread nD τ) aC fullShare xo
            ∗ (iprop(owns (c : Thread nD τ) aA fullShare x0 ∗ owns (c : Thread nD τ) aB fullShare xA
                ∗ (∃ f, aC.view.loc (c : Thread nD τ) ↦[aC.view.set]{fullShare} aC.view.writes (Elt F) f L)) -∗ K ⟨⟩))
          ⊢ wp frame (wpE (defs₀ (F := F)) Variants.none c none) E (cc1__matmul_kl_kernel i aA haA aB haB aC haC) K } := by
  refine ⟨?_, fun E K => ?run⟩
  case run =>
    simp only [cc1__matmul_kl_kernel_eq_skeleton]; unfold cc1__matmul_kl_kernel_skel
    simp only [k1_part1_eq_skeleton, k1_part2_eq_skeleton]
    unfold owns
    iintro ⟨⟨%f0, %hf0, H0⟩, ⟨%fA, %hfA, HA⟩, ⟨%fC, %hfC, HC⟩, Hk⟩
    obtain rfl := haA.eq_unread hf0; obtain rfl := haB.eq_unread hfA; obtain rfl := haC.eq_unread hfC
    sl_exec (disch := first | exact hc0)
    sl_step
    iapply Hk
    isplitl [H0]
    · iexists _; isplitr; · ipureintro; exact haA.read_unread _
      iexact H0
    isplitl [HA]
    · iexists _; isplitr; · ipureintro; exact haB.read_unread _
      iexact HA
    iexists _; iexact HC

end Cert.Kernel.Fr

end
-- ==== Proof.KB.R1.lean ====
import proofs.«417377_j33337536151700_1_alg».proof.Proof.KB.R1RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem cover1_A_2 (c : Dev nD) (i : grid1.Coords) (aA : Memref sig .tc .vmem S2048x256 .f32) (haA : aA.IsWhole) (aB : Memref sig .tc .vmem S256x192 .bf16) (haB : aB.IsWhole) (aC : Memref sig .tc .vmem S1x8 .f32) (haC : aC.IsWhole) (hc0 : cond1 i)
    (x0 : Vec F S2048x256 .f32) (xA : Vec F S256x192 .bf16) (y : S1x8.Idx) :
    ∃ pc ∈ (kernelRun1_A c i aA haA aB haB aC haC hc0 x0 xA).1, y ∈ pc.1.set :=
  View.cover_of_tiledL (kernelRun1_A c i aA haA aB haB aC haC hc0 x0 xA).1 S1x8.size (by sl_kernel_rfl) y

def out1_A_2 (c : Dev nD) (i : grid1.Coords) (aA : Memref sig .tc .vmem S2048x256 .f32) (haA : aA.IsWhole) (aB : Memref sig .tc .vmem S256x192 .bf16) (haB : aB.IsWhole) (aC : Memref sig .tc .vmem S1x8 .f32) (haC : aC.IsWhole) (hc0 : cond1 i)
    (x0 : Vec F S2048x256 .f32) (xA : Vec F S256x192 .bf16) : Vec F S1x8 .f32 :=
  VO1_2.read (Elt F) (VO1_2.writes (Elt F) VO1_2.junk (kernelRun1_A c i aA haA aB haB aC haC hc0 x0 xA).1)

theorem cover1_B_2 (c : Dev nD) (i : grid1.Coords) (aA : Memref sig .tc .vmem S2048x256 .f32) (haA : aA.IsWhole) (aB : Memref sig .tc .vmem S256x192 .bf16) (haB : aB.IsWhole) (aC : Memref sig .tc .vmem S1x8 .f32) (haC : aC.IsWhole) (hc0 : ¬cond1 i)
    (x0 : Vec F S2048x256 .f32) (xA : Vec F S256x192 .bf16) (xo : Vec F S1x8 .f32) (y : S1x8.Idx) :
    ∃ pc ∈ (kernelRun1_B c i aA haA aB haB aC haC hc0 x0 xA xo).1, y ∈ pc.1.set :=
  View.cover_of_tiledL (kernelRun1_B c i aA haA aB haB aC haC hc0 x0 xA xo).1 S1x8.size (by sl_kernel_rfl) y

def out1_B_2 (c : Dev nD) (i : grid1.Coords) (aA : Memref sig .tc .vmem S2048x256 .f32) (haA : aA.IsWhole) (aB : Memref sig .tc .vmem S256x192 .bf16) (haB : aB.IsWhole) (aC : Memref sig .tc .vmem S1x8 .f32) (haC : aC.IsWhole) (hc0 : ¬cond1 i)
    (x0 : Vec F S2048x256 .f32) (xA : Vec F S256x192 .bf16) (xo : Vec F S1x8 .f32) : Vec F S1x8 .f32 :=
  VO1_2.read (Elt F) (VO1_2.writes (Elt F) VO1_2.junk (kernelRun1_B c i aA haA aB haB aC haC hc0 x0 xA xo).1)

section Region

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

def outsAt1 (c : Dev nD) : (n : ℕ) → n < cfg1.N → Vec F S1x8 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1 ⟨0, hn⟩).mpr (Nat.zero_mod _)) (iblk1 V c 0 ⟨0, hn⟩) (iblk1 V c 1 ⟨0, hn⟩)
  | n + 1, hn =>
    if h0 : (n + 1) % 32 = 0 then
      out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1 ⟨n + 1, hn⟩).mpr h0) (iblk1 V c 0 ⟨n + 1, hn⟩) (iblk1 V c 1 ⟨n + 1, hn⟩)
    else
      out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1 ⟨n + 1, hn⟩).mp h)) (iblk1 V c 0 ⟨n + 1, hn⟩) (iblk1 V c 1 ⟨n + 1, hn⟩) (outsAt1 c n (Nat.lt_of_succ_lt hn))

theorem outsAt1_A (c : Dev nD) (t : Fin cfg1.N) (h0 : t.val % 32 = 0) :
    outsAt1 V c t.val t.isLt = out1_A_2 c (grid1.coords t) (ms1_0 t) (hs1_0 t) (ms1_1 t) (hs1_1 t) (ms1_2 t) (hs1_2 t) ((hcond1 t).mpr h0) (iblk1 V c 0 t) (iblk1 V c 1 t) := by
  obtain ⟨n, hn⟩ := t
  cases n with
  | zero => exact rfl
  | succ n => exact (dif_pos h0).trans rfl

theorem outsAt1_B (c : Dev nD) (t : Fin cfg1.N) (h0 : ¬t.val % 32 = 0) :
    outsAt1 V c t.val t.isLt = out1_B_2 c (grid1.coords t) (ms1_0 t) (hs1_0 t) (ms1_1 t) (hs1_1 t) (ms1_2 t) (hs1_2 t) (fun h => h0 ((hcond1 t).mp h)) (iblk1 V c 0 t) (iblk1 V c 1 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

theorem before1_2_B (c : Dev nD) (t : Fin cfg1.N) (h0 : ¬t.val % 32 = 0) (d) :
    (dat1 V c).before 2 t d = (outsAt1 V c (t.val - 1) (Nat.lt_of_le_of_lt (Nat.sub_le _ _) t.isLt)) := by
  have hN : t.val < 32 := lt_of_lt_of_eq t.isLt (show cfg1.N = 32 from N_1)
  rw [Dat.before_out_kept _ 2 rfl t (by omega) (Bool.eq_false_iff.mpr fun h => by have := (flush1_2 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 32 := lt_of_lt_of_eq t.isLt (show cfg1.N = 32 from N_1)
  by_cases h0 : t.val % 32 = 0
  · rw [outsAt1_A V c t h0]
    unfold out1_A_2
    iintro ⟨HΦ, Ho, ⟨%d0, H0⟩, ⟨%dA, HA⟩, ⟨%dC, HC⟩⟩
    iapply ((kernelRun1_A c (grid1.coords t) _ _ _ _ _ _ ((hcond1 t).mpr h0) (iblk1 V c 0 t) (iblk1 V c 1 t)).2 Set.univ _)
    isplitl [H0]; · iexact H0
    isplitl [HA]; · iexact HA
    isplitl [HC]; · iexists _; iexact HC
    iintro ⟨H0, HA, ⟨%eC, HC⟩⟩
    isplitl [HΦ]; · iexact HΦ
    isplitl [Ho]; · iexact Ho
    isplitl [H0]; · iexact H0
    isplitl [HA]; · iexact HA
    unfold owns; iexists _; isplitr
    swap; · iexact HC
    ipureintro; exact View.read_writes_of_cover _ _ _ _ _ (cover1_A_2 c _ _ _ _ _ _ _ _ _ _)
  · rw [outsAt1_B V c t h0]
    simp only [before1_2_B V c t h0]
    unfold out1_B_2
    iintro ⟨HΦ, Ho, ⟨%d0, H0⟩, ⟨%dA, HA⟩, ⟨%dC, HC⟩⟩
    iapply ((kernelRun1_B c (grid1.coords t) _ _ _ _ _ _ (fun h => h0 ((hcond1 t).mp h)) (iblk1 V c 0 t) (iblk1 V c 1 t) _).2 Set.univ _)
    isplitl [H0]; · iexact H0
    isplitl [HA]; · iexact HA
    isplitl [HC]; · iexact HC
    iintro ⟨H0, HA, ⟨%eC, HC⟩⟩
    isplitl [HΦ]; · iexact HΦ
    isplitl [Ho]; · iexact Ho
    isplitl [H0]; · iexact H0
    isplitl [HA]; · iexact HA
    unfold owns; iexists _; isplitr
    swap; · iexact HC
    ipureintro; exact View.read_writes_of_cover _ _ _ _ _ (cover1_B_2 c _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Region

end Cert.Kernel.Fr

end
-- ==== Proof.KB.R2RunA.lean ====
/- Region 2 (the kernel of pipeline 2, a grid of 32 points; windows 0 and 1 are inputs, window 2 the one
   output, whose block index never moves), first module of three. The body's only branch tests whether grid
   coordinate 0 is zero; here that condition is put in closed form over the grid, the staging memrefs of a point
   are named, and the whole body is run in the case where the branch is taken: the output block is overwritten
   by the reset store before it is read, so it may start at any contents. -/
import proofs.«417377_j33337536151700_1_alg».proof.Proof.Gen.Kernel.Launch
import proofs.«417377_j33337536151700_1_alg».proof.Proof.Gen.Kernel.Skeleton
import proofs.«417377_j33337536151700_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's one branch, as a function of the grid coordinates: the scalar chain
    "coordinate 0 equals zero", widened to a word and compared against zero again. -/
abbrev cond2 (i : grid2.Coords) : Prop :=
  (Scalar.cmpi .ne (Scalar.extui (Scalar.cmpi .eq (BitVec.ofNat 32 (i 0).val) 0#32)) 0#32) = 1#1

/-- It holds at the first point of the grid and nowhere else: a finite check over the 32 points. -/
theorem hcond2 : ∀ t : Fin cfg2.N, cond2 (grid2.coords t) ↔ t.val % 32 = 0 :=
  (by decide +kernel : ∀ t : Fin grid2.N, cond2 (grid2.coords t) ↔ t.val % 32 = 0)

/-! ## The staging memrefs of a point -/

/-- One staging buffer of the output window, through which its contents are stated: reading a list of covering
    writes back does not depend on which buffer they were made through. -/
abbrev VO2_2 : View sig .tc .vmem S1x8 .f32 := (Memref.whole cc2_stg2_0 : Memref sig .tc .vmem S1x8 .f32).view

/-- Each window's current staging memref at point `t`, spelled as the body is called with it, and its wholeness. -/
abbrev ms2_0 (t : Fin cfg2.N) : Memref sig .tc .vmem S2048x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x192 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x8 .f32 := win2_2.stage (cfg2.slots t 2)
abbrev hs2_2 (t : Fin cfg2.N) : (ms2_2 t).IsWhole := hstage2_2 ((cfg2.slots t 2).cast nbuf2_2)

/-! ## The body where the branch is taken -/

set_option maxHeartbeats 1000000 in
/-- CASE A (the branch taken: the first point). On whole staging memrefs, the two inputs owned at contents
    `x0` and `xA` and the output at anything, the body runs to any continuation that accepts the inputs as they
    were and the output's buffer with a list `L` of pieces written into it (last first). The list is the witness:
    it is whatever the body's stores to the output amount to, found by running the body, and nothing about it is
    asserted here beyond that the run ends with it. -/
noncomputable def kernelRun2_A (c : Dev nD) (i : grid2.Coords)
    (aA : Memref sig .tc .vmem S2048x256 .f32) (haA : aA.IsWhole)
    (aB : Memref sig .tc .vmem S256x192 .bf16) (haB : aB.IsWhole)
    (aC : Memref sig .tc .vmem S1x8 .f32) (haC : aC.IsWhole) (hc0 : cond2 i)
    (x0 : Vec F S2048x256 .f32) (xA : Vec F S256x192 .bf16) :
    { L : List (View.Piece (Elt F) S1x8 .f32) //
      ∀ (E : Set ℕ) (K : PUnit → sProp 𝕄),
        iprop(owns (c : Thread nD τ) aA fullShare x0 ∗ owns (c : Thread nD τ) aB fullShare xA ∗ (∃ d, owns (c : Thread nD τ) aC fullShare d)
            ∗ (iprop(owns (c : Thread nD τ) aA fullShare x0 ∗ owns (c : Thread nD τ) aB fullShare xA
                ∗ (∃ f, aC.view.loc (c : Thread nD τ) ↦[aC.view.set]{fullShare} aC.view.writes (Elt F) f L)) -∗ K ⟨⟩))
          ⊢ wp frame (wpE (defs₀ (F := F)) Variants.none c none) E (cc2__matmul_kl_kernel i aA haA aB haB aC haC) K } := by
  refine ⟨?_, fun E K => ?run⟩
  case run =>
    simp only [cc2__matmul_kl_kernel_eq_skeleton]; unfold cc2__matmul_kl_kernel_skel
    simp only [k2_part1_eq_skeleton, k2_part2_eq_skeleton]
    unfold owns
    iintro ⟨⟨%f0, %hf0, H0⟩, ⟨%fA, %hfA, HA⟩, ⟨%dC, %fC, -, HC⟩, Hk⟩
    obtain rfl := haA.eq_unread hf0; obtain rfl := haB.eq_unread hfA
    sl_exec (disch := first | exact hc0)
    sl_step
    iapply Hk
    isplitl [H0]
    · iexists _; isplitr; · ipureintro; exact haA.read_unread _
      iexact H0
    isplitl [HA]
    · iexists _; isplitr; · ipureintro; exact haB.read_unread _
      iexact HA
    iexists _; iexact HC

end Cert.Kernel.Fr

end
-- ==== Proof.KB.R2RunB.lean ====
/- Region 2, second module of three: the whole body in the case where the branch is not taken (every point after
   the first). The output block is read before it is overwritten, so its buffer must start at named contents:
   what the point before left there. -/
import proofs.«417377_j33337536151700_1_alg».proof.Proof.KB.R2RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE B (the branch not taken: points 1 to 31). On whole staging memrefs, the two inputs owned at contents
    `x0` and `xA` and the output at its running contents `xo`, the body runs to any continuation that accepts the
    inputs as they were and the output's buffer with a list `L` of pieces written into it (last first); the list
    is the witness the run ends with. -/
noncomputable def kernelRun2_B (c : Dev nD) (i : grid2.Coords)
    (aA : Memref sig .tc .vmem S2048x256 .f32) (haA : aA.IsWhole)
    (aB : Memref sig .tc .vmem S256x192 .bf16) (haB : aB.IsWhole)
    (aC : Memref sig .tc .vmem S1x8 .f32) (haC : aC.IsWhole) (hc0 : ¬cond2 i)
    (x0 : Vec F S2048x256 .f32) (xA : Vec F S256x192 .bf16) (xo : Vec F S1x8 .f32) :
    { L : List (View.Piece (Elt F) S1x8 .f32) //
      ∀ (E : Set ℕ) (K : PUnit → sProp 𝕄),
        iprop(owns (c : Thread nD τ) aA fullShare x0 ∗ owns (c : Thread nD τ) aB fullShare xA ∗ owns (c : Thread nD τ) aC fullShare xo
            ∗ (iprop(owns (c : Thread nD τ) aA fullShare x0 ∗ owns (c : Thread nD τ) aB fullShare xA
                ∗ (∃ f, aC.view.loc (c : Thread nD τ) ↦[aC.view.set]{fullShare} aC.view.writes (Elt F) f L)) -∗ K ⟨⟩))
          ⊢ wp frame (wpE (defs₀ (F := F)) Variants.none c none) E (cc2__matmul_kl_kernel i aA haA aB haB aC haC) K } := by
  refine ⟨?_, fun E K => ?run⟩
  case run =>
    simp only [cc2__matmul_kl_kernel_eq_skeleton]; unfold cc2__matmul_kl_kernel_skel
    simp only [k2_part1_eq_skeleton, k2_part2_eq_skeleton]
    unfold owns
    iintro ⟨⟨%f0, %hf0, H0⟩, ⟨%fA, %hfA, HA⟩, ⟨%fC, %hfC, HC⟩, Hk⟩
    obtain rfl := haA.eq_unread hf0; obtain rfl := haB.eq_unread hfA; obtain rfl := haC.eq_unread hfC
    sl_exec (disch := first | exact hc0)
    sl_step
    iapply Hk
    isplitl [H0]
    · iexists _; isplitr; · ipureintro; exact haA.read_unread _
      iexact H0
    isplitl [HA]
    · iexists _; isplitr; · ipureintro; exact haB.read_unread _
      iexact HA
    iexists _; iexact HC

end Cert.Kernel.Fr

end
-- ==== Proof.KB.R2.lean ====
/- Region 2, third module of three: what the output's staging buffer holds after the body, per case and then
   point by point along the grid; the proof data of pipeline 2 at a PARAMETER `V` (the contents of the core's
   buffers when the region is entered); what each window's buffer holds when the body is called; the body at a
   generic point; and the pipeline's body obligation. -/
import proofs.«417377_j33337536151700_1_alg».proof.Proof.KB.R2RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the output's buffer -/

/-- Case A's pieces tile the output block, so every index of the block lies in one of them. -/
theorem cover2_A_2 (c : Dev nD) (i : grid2.Coords) (aA : Memref sig .tc .vmem S2048x256 .f32) (haA : aA.IsWhole) (aB : Memref sig .tc .vmem S256x192 .bf16) (haB : aB.IsWhole) (aC : Memref sig .tc .vmem S1x8 .f32) (haC : aC.IsWhole) (hc0 : cond2 i)
    (x0 : Vec F S2048x256 .f32) (xA : Vec F S256x192 .bf16) (y : S1x8.Idx) :
    ∃ pc ∈ (kernelRun2_A c i aA haA aB haB aC haC hc0 x0 xA).1, y ∈ pc.1.set :=
  View.cover_of_tiledL (kernelRun2_A c i aA haA aB haB aC haC hc0 x0 xA).1 S1x8.size (by sl_kernel_rfl) y

/-- What case A leaves in the output's buffer: its pieces read back over arbitrary contents (they cover the
    block, so what lay underneath does not show). -/
def out2_A_2 (c : Dev nD) (i : grid2.Coords) (aA : Memref sig .tc .vmem S2048x256 .f32) (haA : aA.IsWhole) (aB : Memref sig .tc .vmem S256x192 .bf16) (haB : aB.IsWhole) (aC : Memref sig .tc .vmem S1x8 .f32) (haC : aC.IsWhole) (hc0 : cond2 i)
    (x0 : Vec F S2048x256 .f32) (xA : Vec F S256x192 .bf16) : Vec F S1x8 .f32 :=
  VO2_2.read (Elt F) (VO2_2.writes (Elt F) VO2_2.junk (kernelRun2_A c i aA haA aB haB aC haC hc0 x0 xA).1)

/-- Case B's pieces tile the output block, so every index of the block lies in one of them. -/
theorem cover2_B_2 (c : Dev nD) (i : grid2.Coords) (aA : Memref sig .tc .vmem S2048x256 .f32) (haA : aA.IsWhole) (aB : Memref sig .tc .vmem S256x192 .bf16) (haB : aB.IsWhole) (aC : Memref sig .tc .vmem S1x8 .f32) (haC : aC.IsWhole) (hc0 : ¬cond2 i)
    (x0 : Vec F S2048x256 .f32) (xA : Vec F S256x192 .bf16) (xo : Vec F S1x8 .f32) (y : S1x8.Idx) :
    ∃ pc ∈ (kernelRun2_B c i aA haA aB haB aC haC hc0 x0 xA xo).1, y ∈ pc.1.set :=
  View.cover_of_tiledL (kernelRun2_B c i aA haA aB haB aC haC hc0 x0 xA xo).1 S1x8.size (by sl_kernel_rfl) y

/-- What case B leaves in the output's buffer, from the running contents `xo` it started at. -/
def out2_B_2 (c : Dev nD) (i : grid2.Coords) (aA : Memref sig .tc .vmem S2048x256 .f32) (haA : aA.IsWhole) (aB : Memref sig .tc .vmem S256x192 .bf16) (haB : aB.IsWhole) (aC : Memref sig .tc .vmem S1x8 .f32) (haC : aC.IsWhole) (hc0 : ¬cond2 i)
    (x0 : Vec F S2048x256 .f32) (xA : Vec F S256x192 .bf16) (xo : Vec F S1x8 .f32) : Vec F S1x8 .f32 :=
  VO2_2.read (Elt F) (VO2_2.writes (Elt F) VO2_2.junk (kernelRun2_B c i aA haA aB haB aC haC hc0 x0 xA xo).1)

section Region
-- the contents of the core's buffers when the region is entered: everything below is stated at this parameter
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, for any proof data whose array is the
    region-entry contents and whose body leaves the block in place. The window is fetched at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, likewise. This window is fetched at the first
    point only: its block index is constant, so at a later point the buffer still holds the previous point's
    block, which is this point's block because the index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What the output holds after each point -/

/-- THE ACCUMULATION. What the output's buffer holds after the body at position `n` of the grid: at the first
    point case A's contents; at a later point case B's, started from what this leaves at `n - 1` (the buffer is
    not written back in between). A later point at which the branch condition held would be case A again; the
    closed form says there is none, and the definition does not need to know. -/
def outsAt2 (c : Dev nD) : (n : ℕ) → n < cfg2.N → Vec F S1x8 .f32
  | 0, hn => out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) ((hcond2 ⟨0, hn⟩).mpr (Nat.zero_mod _)) (iblk2 V c 0 ⟨0, hn⟩) (iblk2 V c 1 ⟨0, hn⟩)
  | n + 1, hn =>
    if h0 : (n + 1) % 32 = 0 then
      out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) ((hcond2 ⟨n + 1, hn⟩).mpr h0) (iblk2 V c 0 ⟨n + 1, hn⟩) (iblk2 V c 1 ⟨n + 1, hn⟩)
    else
      out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (fun h => h0 ((hcond2 ⟨n + 1, hn⟩).mp h)) (iblk2 V c 0 ⟨n + 1, hn⟩) (iblk2 V c 1 ⟨n + 1, hn⟩) (outsAt2 c n (Nat.lt_of_succ_lt hn))

/-- `outsAt2` at a point of case A: that case's contents. -/
theorem outsAt2_A (c : Dev nD) (t : Fin cfg2.N) (h0 : t.val % 32 = 0) :
    outsAt2 V c t.val t.isLt = out2_A_2 c (grid2.coords t) (ms2_0 t) (hs2_0 t) (ms2_1 t) (hs2_1 t) (ms2_2 t) (hs2_2 t) ((hcond2 t).mpr h0) (iblk2 V c 0 t) (iblk2 V c 1 t) := by
  obtain ⟨n, hn⟩ := t
  cases n with
  | zero => exact rfl
  | succ n => exact (dif_pos h0).trans rfl

/-- `outsAt2` at a point of case B: that case's contents, over what the point before left. -/
theorem outsAt2_B (c : Dev nD) (t : Fin cfg2.N) (h0 : ¬t.val % 32 = 0) :
    outsAt2 V c t.val t.isLt = out2_B_2 c (grid2.coords t) (ms2_0 t) (hs2_0 t) (ms2_1 t) (hs2_1 t) (ms2_2 t) (hs2_2 t) (fun h => h0 ((hcond2 t).mp h)) (iblk2 V c 0 t) (iblk2 V c 1 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 2 on core `c`: the arrays as the region finds them; after the body at point `t`
    each input's buffer at its block and the output's at `outsAt2`; the invariant that of a body touching only
    its windows; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt)
  Φ _ := Pipeline.ΦA spec2 c
  q _ := fullShare
  owed _ := 0

/-- The proof data's arrays are the region-entry contents (the definition projected; `V` is never unfolded). -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt) := by dsimp only [dat2]

/-- Each input's current buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- At a point of case B the output's current buffer holds what the body left at the point before: the point is not
    the first, and the buffer was not written back in between (that happens after the last point only). -/
theorem before2_2_B (c : Dev nD) (t : Fin cfg2.N) (h0 : ¬t.val % 32 = 0) (d) :
    (dat2 V c).before 2 t d = (outsAt2 V c (t.val - 1) (Nat.lt_of_le_of_lt (Nat.sub_le _ _) t.isLt)) := by
  have hN : t.val < 32 := lt_of_lt_of_eq t.isLt (show cfg2.N = 32 from N_2)
  rw [Dat.before_out_kept _ 2 rfl t (by omega) (Bool.eq_false_iff.mpr fun h => by have := (flush2_2 _).mp h; dsimp only at this; omega)
    (fun _ => rfl) (fun _ _ => rfl)]
  dsimp only [dat2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

set_option maxHeartbeats 800000 in
/-- The body at any point. The inputs' memrefs hold their blocks; the closed form of the branch condition says
    which case the point is in; in case B the output's memref holds what the point before left; so that case's run
    applies. Its pieces cover the output block, hence reading them back does not depend on the buffer they were
    written through nor on what lay underneath. The invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  have hN : t.val < 32 := lt_of_lt_of_eq t.isLt (show cfg2.N = 32 from N_2)
  by_cases h0 : t.val % 32 = 0
  · rw [outsAt2_A V c t h0]
    unfold out2_A_2
    iintro ⟨HΦ, Ho, ⟨%d0, H0⟩, ⟨%dA, HA⟩, ⟨%dC, HC⟩⟩
    iapply ((kernelRun2_A c (grid2.coords t) _ _ _ _ _ _ ((hcond2 t).mpr h0) (iblk2 V c 0 t) (iblk2 V c 1 t)).2 Set.univ _)
    isplitl [H0]; · iexact H0
    isplitl [HA]; · iexact HA
    isplitl [HC]; · iexists _; iexact HC
    iintro ⟨H0, HA, ⟨%eC, HC⟩⟩
    isplitl [HΦ]; · iexact HΦ
    isplitl [Ho]; · iexact Ho
    isplitl [H0]; · iexact H0
    isplitl [HA]; · iexact HA
    unfold owns; iexists _; isplitr
    swap; · iexact HC
    ipureintro; exact View.read_writes_of_cover _ _ _ _ _ (cover2_A_2 c _ _ _ _ _ _ _ _ _ _)
  · rw [outsAt2_B V c t h0]
    simp only [before2_2_B V c t h0]
    unfold out2_B_2
    iintro ⟨HΦ, Ho, ⟨%d0, H0⟩, ⟨%dA, HA⟩, ⟨%dC, HC⟩⟩
    iapply ((kernelRun2_B c (grid2.coords t) _ _ _ _ _ _ (fun h => h0 ((hcond2 t).mp h)) (iblk2 V c 0 t) (iblk2 V c 1 t) _).2 Set.univ _)
    isplitl [H0]; · iexact H0
    isplitl [HA]; · iexact HA
    isplitl [HC]; · iexact HC
    iintro ⟨H0, HA, ⟨%eC, HC⟩⟩
    isplitl [HΦ]; · iexact HΦ
    isplitl [Ho]; · iexact Ho
    isplitl [H0]; · iexact H0
    isplitl [HA]; · iexact HA
    unfold owns; iexists _; isplitr
    swap; · iexact HC
    ipureintro; exact View.read_writes_of_cover _ _ _ _ _ (cover2_B_2 c _ _ _ _ _ _ _ _ _ _ _)

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Region

end Cert.Kernel.Fr

end
-- ==== Proof.KB.Frame.lean ====
import proofs.«417377_j33337536151700_1_alg».proof.Proof.KB.R0
import proofs.«417377_j33337536151700_1_alg».proof.Proof.KB.R1
import proofs.«417377_j33337536151700_1_alg».proof.Proof.KB.R2
import proofs.«417377_j33337536151700_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

abbrev En0 : (c : Dev nD) → (b : Ref sig .tc) → Buf (Elt F) ((c : Thread nD τ).loc b) := fun c b => W1 m ρ c b
-- Region 0's arrays at what its pipeline leaves, every other buffer as entered.
def W2 (c : Dev nD) : Valuation τ sig (Elt F) :=
  Pipeline.withArrays spec0 c (W1 m ρ c) fun w => (dat0 (En0 m ρ) c).arrAt w cfg0.N
theorem W2_arr (c : Dev nD) (w : Fin cfg0.W) :
    W2 m ρ c (Proc.devRef .tc (Pipeline.arrRef spec0 w)) = (dat0 (En0 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb

abbrev W3 : Dev nD → Valuation τ sig (Elt F) := fun c => StableHlo.after hostOps1 (W2 m ρ c)
theorem W3_def (c : Dev nD) : W3 m ρ c = StableHlo.after hostOps1 (W2 m ρ c) := rfl
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

abbrev En1 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (En1 m ρ) c).arrAt w cfg1.N
theorem W4_arr (c : Dev nD) (w : Fin cfg1.W) :
    W4 m ρ c (Proc.devRef .tc (Pipeline.arrRef spec1 w)) = (dat1 (En1 m ρ) c).arrAt w cfg1.N :=
  Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb

abbrev En2 : (c : Dev nD) → (b : Ref sig .tc) → Buf (Elt F) ((c : Thread nD τ).loc b) := fun c b => W4 m ρ c b
def W5 (c : Dev nD) : Valuation τ sig (Elt F) :=
  Pipeline.withArrays spec2 c (W4 m ρ c) fun w => (dat2 (En2 m ρ) c).arrAt w cfg2.N
theorem W5_arr (c : Dev nD) (w : Fin cfg2.W) :
    W5 m ρ c (Proc.devRef .tc (Pipeline.arrRef spec2 w)) = (dat2 (En2 m ρ) c).arrAt w cfg2.N :=
  Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) :=
  Pipeline.withArrays_of_ne spec2 c _ _ b hb

abbrev W6 : Dev nD → Valuation τ sig (Elt F) := fun c => StableHlo.after hostOps3 (W5 m ρ c)
theorem W6_def (c : Dev nD) : W6 m ρ c = StableHlo.after hostOps3 (W5 m ρ c) := rfl
theorem W6_of (c : Dev nD) (r : Ref sig .tc) (h : r ∉ hostOps3_W) :
    W6 m ρ c (Proc.devRef .tc r) = W5 m ρ c (Proc.devRef .tc r) :=
  StableHlo.after_of_writes_sub hostOps3 _ hostOps3_writes h

-- No host operation and no region writes an argument (a region reads it through an input window or not at all), so the fold walks back to the launch memory.
theorem W6_main_arg0 (c : Dev nD) : W6 m ρ c (Proc.devRef .tc main_arg0) = m ((c : Thread nD τ).loc main_arg0) :=
  (W6_of m ρ c main_arg0 (by decide)).trans <| (W5_of_ne m ρ c main_arg0 (by decide)).trans <| ((W4_arr m ρ c 0).trans (((dat1 (En1 m ρ) c).arrAt_in 0 rfl _).trans (A_eq1 (En1 m ρ) c 0))).trans <|
    (W3_of m ρ c main_arg0 (by decide)).trans <| ((W2_arr m ρ c 0).trans (((dat0 (En0 m ρ) c).arrAt_in 0 rfl _).trans (A_eq0 (En0 m ρ) c 0))).trans (W1_of m ρ c main_arg0 (by decide))

theorem W6_main_arg1 (c : Dev nD) : W6 m ρ c (Proc.devRef .tc main_arg1) = m ((c : Thread nD τ).loc main_arg1) :=
  (W6_of m ρ c main_arg1 (by decide)).trans <| ((W5_arr m ρ c 0).trans (((dat2 (En2 m ρ) c).arrAt_in 0 rfl _).trans (A_eq2 (En2 m ρ) c 0))).trans <| (W4_of_ne m ρ c main_arg1 (by decide)).trans <|
    (W3_of m ρ c main_arg1 (by decide)).trans <| ((W2_arr m ρ c 1).trans (((dat0 (En0 m ρ) c).arrAt_in 1 rfl _).trans (A_eq0 (En0 m ρ) c 1))).trans (W1_of m ρ c main_arg1 (by decide))

theorem W6_main_arg2 (c : Dev nD) : W6 m ρ c (Proc.devRef .tc main_arg2) = m ((c : Thread nD τ).loc main_arg2) :=
  (W6_of m ρ c main_arg2 (by decide)).trans <| (W5_of_ne m ρ c main_arg2 (by decide)).trans <| (W4_of_ne m ρ c main_arg2 (by decide)).trans <|
    (W3_of m ρ c main_arg2 (by decide)).trans <| (W2_of_ne m ρ c main_arg2 (by decide)).trans (W1_of m ρ c main_arg2 (by decide))

theorem W6_main_arg3 (c : Dev nD) : W6 m ρ c (Proc.devRef .tc main_arg3) = m ((c : Thread nD τ).loc main_arg3) :=
  (W6_of m ρ c main_arg3 (by decide)).trans <| (W5_of_ne m ρ c main_arg3 (by decide)).trans <| (W4_of_ne m ρ c main_arg3 (by decide)).trans <|
    (W3_of m ρ c main_arg3 (by decide)).trans <| (W2_of_ne m ρ c main_arg3 (by decide)).trans (W1_of m ρ c main_arg3 (by decide))

theorem W6_main_arg4 (c : Dev nD) : W6 m ρ c (Proc.devRef .tc main_arg4) = m ((c : Thread nD τ).loc main_arg4) :=
  (W6_of m ρ c main_arg4 (by decide)).trans <| (W5_of_ne m ρ c main_arg4 (by decide)).trans <| (W4_of_ne m ρ c main_arg4 (by decide)).trans <|
    (W3_of m ρ c main_arg4 (by decide)).trans <| (W2_of_ne m ρ c main_arg4 (by decide)).trans (W1_of m ρ c main_arg4 (by decide))

def pdats : (p : Fin 3) → (c : Dev nD) → Dat τ (Elt F) Unit ℕ (UR sig nD τ) ℕ (Pipeline.pin (pcfgs (F := F)) adm p) c
  | ⟨0, _⟩ => fun c => dat0 (En0 m ρ) c
  | ⟨1, _⟩ => fun c => dat1 (En1 m ρ) c
  | ⟨2, _⟩ => fun c => dat2 (En2 m ρ) c
abbrev 𝒱₀ : Variants := Variants.none
abbrev L : GSem nD τ sig → Finset Unit := fun _ => ∅
abbrev lv : GSem nD τ sig → Unit → ℕ := fun _ _ => 0
-- What rides beside the buffers through every item: the generator register at some state, and nothing owed.
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

set_option backward.isDefEq.respectTransparency.types false in
-- Region `p` as a segment: every unscoped buffer at `V` on entry and at `V'` on exit, where `V'` has the pipeline's final arrays and agrees with `V` elsewhere.
def regOf (p : Fin 3) (hw : Pipeline.WinFacts (Pipeline.pin (pcfgs (F := F)) adm p).spec) (hpos : ∀ w : Fin (Pipeline.pin (pcfgs (F := F)) adm p).W, 0 < ((Pipeline.pin (pcfgs (F := F)) adm p).spec w).block.numel)
    (harr : ∀ w, ((Pipeline.pin (pcfgs (F := F)) adm p).spec w).arr.IsWhole)
    (hst : ∀ (w : Fin (Pipeline.pin (pcfgs (F := F)) adm p).W) (s : Fin ((Pipeline.pin (pcfgs (F := F)) adm p).spec w).nbuf), (((Pipeline.pin (pcfgs (F := F)) adm p).spec w).stage s).IsWhole)
    (V V' : Dev nD → Valuation τ sig (Elt F)) (hbody : ∀ c, Pipeline.BodyObligationLoose (pdats m ρ p c) (defs₀ (F := F)) 𝒱₀ () Set.univ)
    (hK : (pcfgs (F := F) p).pre.K = 0) (howed : ∀ c t, (pdats m ρ p c).owed t = 0) (hq : ∀ c w, (pdats m ρ p c).q w = fullShare) (hrec : ∀ c t, (pdats m ρ p c).recorded t = Set.univ)
    (hA : ∀ c w, (pdats m ρ p c).A w = V c (Pipeline.arrRef (Pipeline.pin (pcfgs (F := F)) adm p).spec w)) (hΦ : ∀ c t, (pdats m ρ p c).Φ t = Pipeline.ΦA (Pipeline.pin (pcfgs (F := F)) adm p).spec c)
    (hF : ∀ c w, (pdats m ρ p c).arrAt w (Pipeline.pin (pcfgs (F := F)) adm p).N = V' c (Pipeline.arrRef (Pipeline.pin (pcfgs (F := F)) adm p).spec w))
    (hrest : ∀ c (b : Ref sig .tc), (∀ w, Pipeline.arrRef (Pipeline.pin (pcfgs (F := F)) adm p).spec w ≠ b) → V' c (Proc.devRef .tc b) = V c (Proc.devRef .tc b)) :
    Pipeline.RegionSeg (pcfgs (F := F)) adm (pdats m ρ) () defs₀ 𝒱₀ L lv p where
  win := hw.to₀
  block_pos := hpos
  stage_whole := hst
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c fun b => V c b
  hentry c := by
    rw [Pipeline.ownSems0_none]; unfold Pipeline.Dat.owesAt Pipeline.owesWithin; rw [howed]
    have hsplit := Pipeline.arrays_of_unscopedBufs (p := p) (pcfgs (F := F)) adm (pdats m ρ) hw harr c ((pdats m ρ p c).share_full (hq c)) (fun b => V c b) (hA c)
    rw [Pipeline.unscopedBufs_held] at hsplit
    have : IsEmpty (Fin (pcfgs (F := F) p).pre.K) := by rw [hK]; infer_instance
    iintro ⟨⟨Hub, Hp, HO⟩, -, -⟩
    ihave H := hsplit $$ Hub
    icases H with ⟨Ha, Hrest⟩
    imodintro
    isplitl [Ha]; · iexact Ha
    isplitr; · unfold Pipeline.prefHeld; rw [Finset.univ_eq_empty, BI.bigSep_empty]; iempintro
    isplitl [HO]
    · icases HO with ⟨%W, HO⟩; iexists W; isplitr; · ipureintro; exact fun x _ => Or.inl ((hrec c 0).symm ▸ Set.mem_univ x)
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hw harr c (pdats m ρ) ((pdats m ρ p c).share_full (hq c)) (fun b => V c b) (fun b => V' c b) ((pdats m ρ p c).arrAt · (Pipeline.pin (pcfgs (F := F)) adm p).N) (hF c)
      fun b hb => hrest c b fun w e => hb (Finset.mem_image.mpr ⟨w, Finset.mem_univ _, e⟩)
    rw [Pipeline.unscopedBufs_held] at hjoin
    unfold Pipeline.Dat.owesAt Pipeline.owesWithin; rw [howed]
    iintro ⟨Ha, ⟨%W, -, HO⟩, HY, Hrest⟩
    imodintro
    isplitl [Ha Hrest]
    · iapply hjoin; isplitl [Ha] <;> iassumption
    isplitl [HY]; · iexact HY
    iexists W; iexact HO

def reg0 : Pipeline.RegionSeg (pcfgs (F := F)) adm (pdats m ρ) () defs₀ 𝒱₀ L lv 0 :=
  regOf m ρ 0 launch0.win launch0.block_pos launch0.arr_whole launch0.stage_whole (W1 m ρ) (W2 m ρ)
    (fun c => (body_obligation0 (En0 m ρ) c).loose) rfl (fun _ _ => rfl) (fun _ _ => rfl) (fun _ _ => rfl) (fun _ _ => rfl) (fun _ _ => rfl)
    (fun c w => (W2_arr m ρ c w).symm) (W2_of_ne m ρ)
def reg1 : Pipeline.RegionSeg (pcfgs (F := F)) adm (pdats m ρ) () defs₀ 𝒱₀ L lv 1 :=
  regOf m ρ 1 launch1.win launch1.block_pos launch1.arr_whole launch1.stage_whole (W3 m ρ) (W4 m ρ)
    (fun c => (body_obligation1 (En1 m ρ) c).loose) rfl (fun _ _ => rfl) (fun _ _ => rfl) (fun _ _ => rfl) (fun _ _ => rfl) (fun _ _ => rfl)
    (fun c w => (W4_arr m ρ c w).symm) (W4_of_ne m ρ)
def reg2 : Pipeline.RegionSeg (pcfgs (F := F)) adm (pdats m ρ) () defs₀ 𝒱₀ L lv 2 :=
  regOf m ρ 2 launch2.win launch2.block_pos launch2.arr_whole launch2.stage_whole (W4 m ρ) (W5 m ρ)
    (fun c => (body_obligation2 (En2 m ρ) c).loose) rfl (fun _ _ => rfl) (fun _ _ => rfl) (fun _ _ => rfl) (fun _ _ => rfl) (fun _ _ => rfl)
    (fun c w => (W5_arr m ρ c w).symm) (W5_of_ne m ρ)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)) ]
theorem main_run (c : Dev nD) : main (F := F) c = Pipeline.Seg.run (segs m ρ) := by
  rw [main_chain c, Pipeline.Seg.run_eq_chain]
  exact congrArg Pipeline.chain (show _ = (segs m ρ).map Pipeline.Seg.prog from rfl)

theorem hlast (c : Dev nD) :
    (iprop(StableHlo.held (c : Thread nD τ) (Pipeline.ucRefs τ sig) (W6 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh] <;> iassumption
  iexact HO

set_option backward.isDefEq.respectTransparency.types false in
theorem run_gen {Q : PUnit × MemSt nD τ sig (Elt F) → Prop}
    (hQ : ∀ s : MemSt nD τ sig (Elt F), (∀ c : Dev nD, ∀ b ∈ Pipeline.ucRefs τ sig, s.mem (((c : Thread nD τ)).1, b) = W6 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => hlast m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := hQ)

theorem run_all : θ_run defs (onTc (τ := τ) (main (F := F))) ⟨m, fun _ => 0, ρ⟩
    (fun r => ∀ c : Dev nD, ∀ b ∈ Pipeline.ucRefs τ sig, r.2.mem ((c : Thread nD τ).1, b) = W6 m ρ c b) :=
  run_gen m ρ fun _ h => h

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_gen m ρ fun s h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c)⟩

end Cert.Kernel.Fr

end
-- ==== Proof.K.R0RunA.lean ====
import proofs.«417377_j33337536151700_1_alg».proof.Proof.Gen.KernelIdeal.Launch
import proofs.«417377_j33337536151700_1_alg».proof.Proof.Gen.KernelIdeal.Skeleton
import proofs.«417377_j33337536151700_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0 (i : grid0.Coords) : Prop :=
  (Scalar.cmpi .ne (Scalar.extui (Scalar.cmpi .eq (BitVec.ofNat 32 (i 0).val) 0#32)) 0#32) = 1#1

theorem hcond0 : ∀ t : Fin cfg0.N, cond0 (grid0.coords t) ↔ t.val % 16 = 0 :=
  (by decide +kernel : ∀ t : Fin grid0.N, cond0 (grid0.coords t) ↔ t.val % 16 = 0)

abbrev VO0_4 : View sig .tc .vmem S2x64x256 .f32 := (Memref.whole cc0_stg4_0 : Memref sig .tc .vmem S2x64x256 .f32).view
abbrev VO0_5 : View sig .tc .vmem S2x64 .f32 := (Memref.whole cc0_stg5_0 : Memref sig .tc .vmem S2x64 .f32).view

abbrev ms0_0 (t : Fin cfg0.N) : Memref sig .tc .vmem S4096x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x1 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x64x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x64 .f32 := win0_5.stage (cfg0.slots t 5)
abbrev hs0_5 (t : Fin cfg0.N) : (ms0_5 t).IsWhole := hstage0_5 ((cfg0.slots t 5).cast nbuf0_5)

set_option maxHeartbeats 2000000 in

noncomputable def kernelRun0_A (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x1 .i32) (harg3 : arg3.IsWhole) (arg4 : Memref sig .tc .vmem S4096x1 .i32) (harg4 : arg4.IsWhole) (arg5 : Memref sig .tc .vmem S2x64x256 .f32) (harg5 : arg5.IsWhole) (arg6 : Memref sig .tc .vmem S2x64 .f32) (harg6 : arg6.IsWhole) (hc0 : cond0 i)
    (x0 x1 : Vec F S4096x256 .f32) (x2 x3 : Vec F S4096x1 .i32) :
    { L : List (View.Piece (Elt F) S2x64x256 .f32) × List (View.Piece (Elt F) S2x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1) ∗ (∃ f, arg6.view.loc (c : Thread nD τ) ↦[arg6.view.set]{fullShare} arg6.view.writes (Elt F) f L.2)) -∗ K ⟨⟩))
          ⊢ wp frame (wpE (defs₀ (F := F)) Variants.none c none) E (cc0__segsum_kernel i arg1 harg1 arg2 harg2 arg3 harg3 arg4 harg4 arg5 harg5 arg6 harg6) K } := by
  refine ⟨(?_, ?_), fun E K => ?run⟩
  case run =>
    simp only [cc0__segsum_kernel_eq_skeleton]; unfold cc0__segsum_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1
    obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; iexact H5

end Cert.KernelIdeal.Fr

end
-- ==== Proof.K.R0RunB.lean ====
import proofs.«417377_j33337536151700_1_alg».proof.Proof.K.R0RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in

noncomputable def kernelRun0_B (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x1 .i32) (harg3 : arg3.IsWhole) (arg4 : Memref sig .tc .vmem S4096x1 .i32) (harg4 : arg4.IsWhole) (arg5 : Memref sig .tc .vmem S2x64x256 .f32) (harg5 : arg5.IsWhole) (arg6 : Memref sig .tc .vmem S2x64 .f32) (harg6 : arg6.IsWhole) (hc0 : ¬cond0 i)
    (x0 x1 : Vec F S4096x256 .f32) (x2 x3 : Vec F S4096x1 .i32) (xo4 : Vec F S2x64x256 .f32) (xo5 : Vec F S2x64 .f32) :
    { L : List (View.Piece (Elt F) S2x64x256 .f32) × List (View.Piece (Elt F) S2x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1) ∗ (∃ f, arg6.view.loc (c : Thread nD τ) ↦[arg6.view.set]{fullShare} arg6.view.writes (Elt F) f L.2)) -∗ K ⟨⟩))
          ⊢ wp frame (wpE (defs₀ (F := F)) Variants.none c none) E (cc0__segsum_kernel i arg1 harg1 arg2 harg2 arg3 harg3 arg4 harg4 arg5 harg5 arg6 harg6) K } := by
  refine ⟨(?_, ?_), fun E K => ?run⟩
  case run =>
    simp only [cc0__segsum_kernel_eq_skeleton]; unfold cc0__segsum_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1
    obtain rfl := harg3.eq_unread hf2; obtain rfl := harg4.eq_unread hf3
    obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; iexact H5

end Cert.KernelIdeal.Fr

end
-- ==== Proof.K.R0.lean ====
import proofs.«417377_j33337536151700_1_alg».proof.Proof.K.R0RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x1 .i32) (harg3 : arg3.IsWhole) (arg4 : Memref sig .tc .vmem S4096x1 .i32) (harg4 : arg4.IsWhole) (arg5 : Memref sig .tc .vmem S2x64x256 .f32) (harg5 : arg5.IsWhole) (arg6 : Memref sig .tc .vmem S2x64 .f32) (harg6 : arg6.IsWhole)

theorem cover0_A_4 (hc0 : cond0 i)
    (x0 x1 : Vec F S4096x256 .f32) (x2 x3 : Vec F S4096x1 .i32) (y : S2x64x256.Idx) :
    ∃ pc ∈ (kernelRun0_A c i arg1 harg1 arg2 harg2 arg3 harg3 arg4 harg4 arg5 harg5 arg6 harg6 hc0 x0 x1 x2 x3).1.1, y ∈ pc.1.set :=
  View.cover_of_tiledL _ S2x64x256.size (by sl_kernel_rfl) y

theorem cover0_A_5 (hc0 : cond0 i)
    (x0 x1 : Vec F S4096x256 .f32) (x2 x3 : Vec F S4096x1 .i32) (y : S2x64.Idx) :
    ∃ pc ∈ (kernelRun0_A c i arg1 harg1 arg2 harg2 arg3 harg3 arg4 harg4 arg5 harg5 arg6 harg6 hc0 x0 x1 x2 x3).1.2, y ∈ pc.1.set :=
  View.cover_of_tiledL _ S2x64.size (by sl_kernel_rfl) y

theorem cover0_B_4 (hc0 : ¬cond0 i)
    (x0 x1 : Vec F S4096x256 .f32) (x2 x3 : Vec F S4096x1 .i32) (xo4 : Vec F S2x64x256 .f32) (xo5 : Vec F S2x64 .f32) (y : S2x64x256.Idx) :
    ∃ pc ∈ (kernelRun0_B c i arg1 harg1 arg2 harg2 arg3 harg3 arg4 harg4 arg5 harg5 arg6 harg6 hc0 x0 x1 x2 x3 xo4 xo5).1.1, y ∈ pc.1.set :=
  View.cover_of_tiledL (s := S2x64x256) _ S1x64x256.size (by sl_kernel_rfl) y

theorem cover0_B_5 (hc0 : ¬cond0 i)
    (x0 x1 : Vec F S4096x256 .f32) (x2 x3 : Vec F S4096x1 .i32) (xo4 : Vec F S2x64x256 .f32) (xo5 : Vec F S2x64 .f32) (y : S2x64.Idx) :
    ∃ pc ∈ (kernelRun0_B c i arg1 harg1 arg2 harg2 arg3 harg3 arg4 harg4 arg5 harg5 arg6 harg6 hc0 x0 x1 x2 x3 xo4 xo5).1.2, y ∈ pc.1.set :=
  View.cover_of_tiledL (s := S2x64) _ S1x64.size (by sl_kernel_rfl) y

def out0_A_4 (hc0 : cond0 i)
    (x0 x1 : Vec F S4096x256 .f32) (x2 x3 : Vec F S4096x1 .i32) : Vec F S2x64x256 .f32 :=
  VO0_4.read (Elt F) (VO0_4.writes (Elt F) VO0_4.junk (kernelRun0_A c i arg1 harg1 arg2 harg2 arg3 harg3 arg4 harg4 arg5 harg5 arg6 harg6 hc0 x0 x1 x2 x3).1.1)

def out0_A_5 (hc0 : cond0 i)
    (x0 x1 : Vec F S4096x256 .f32) (x2 x3 : Vec F S4096x1 .i32) : Vec F S2x64 .f32 :=
  VO0_5.read (Elt F) (VO0_5.writes (Elt F) VO0_5.junk (kernelRun0_A c i arg1 harg1 arg2 harg2 arg3 harg3 arg4 harg4 arg5 harg5 arg6 harg6 hc0 x0 x1 x2 x3).1.2)

def out0_B_4 (hc0 : ¬cond0 i)
    (x0 x1 : Vec F S4096x256 .f32) (x2 x3 : Vec F S4096x1 .i32) (xo4 : Vec F S2x64x256 .f32) (xo5 : Vec F S2x64 .f32) : Vec F S2x64x256 .f32 :=
  VO0_4.read (Elt F) (VO0_4.writes (Elt F) VO0_4.junk (kernelRun0_B c i arg1 harg1 arg2 harg2 arg3 harg3 arg4 harg4 arg5 harg5 arg6 harg6 hc0 x0 x1 x2 x3 xo4 xo5).1.1)

def out0_B_5 (hc0 : ¬cond0 i)
    (x0 x1 : Vec F S4096x256 .f32) (x2 x3 : Vec F S4096x1 .i32) (xo4 : Vec F S2x64x256 .f32) (xo5 : Vec F S2x64 .f32) : Vec F S2x64 .f32 :=
  VO0_5.read (Elt F) (VO0_5.writes (Elt F) VO0_5.junk (kernelRun0_B c i arg1 harg1 arg2 harg2 arg3 harg3 arg4 harg4 arg5 harg5 arg6 harg6 hc0 x0 x1 x2 x3 xo4 xo5).1.2)

end

section Region

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- Case A at point `t`: both outputs from the point's memrefs and input blocks.
def outA0 (c : Dev nD) (t : Fin cfg0.N) (h : cond0 (grid0.coords t)) : Vec F S2x64x256 .f32 × Vec F S2x64 .f32 :=
  (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) h (iblk0 V c 0 t) (iblk0 V c 1 t) (iblk0 V c 2 t) (iblk0 V c 3 t),
   out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) h (iblk0 V c 0 t) (iblk0 V c 1 t) (iblk0 V c 2 t) (iblk0 V c 3 t))

-- Case B at point `t`, over what the point before left in the two outputs.
def outB0 (c : Dev nD) (t : Fin cfg0.N) (h : ¬cond0 (grid0.coords t)) (o : Vec F S2x64x256 .f32 × Vec F S2x64 .f32) : Vec F S2x64x256 .f32 × Vec F S2x64 .f32 :=
  (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) h (iblk0 V c 0 t) (iblk0 V c 1 t) (iblk0 V c 2 t) (iblk0 V c 3 t) o.1 o.2,
   out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) h (iblk0 V c 0 t) (iblk0 V c 1 t) (iblk0 V c 2 t) (iblk0 V c 3 t) o.1 o.2)

-- The accumulation: case A resets the two outputs, case B adds to what the point before left.
def outsAt0 (c : Dev nD) : (n : ℕ) → n < cfg0.N → Vec F S2x64x256 .f32 × Vec F S2x64 .f32
  | 0, hn => outA0 V c ⟨0, hn⟩ ((hcond0 _).mpr (Nat.zero_mod _))
  | n + 1, hn =>
    if h0 : (n + 1) % 16 = 0 then outA0 V c ⟨n + 1, hn⟩ ((hcond0 _).mpr h0)
    else outB0 V c ⟨n + 1, hn⟩ (fun h => h0 ((hcond0 _).mp h)) (outsAt0 c n (Nat.lt_of_succ_lt hn))

theorem outsAt0_A (c : Dev nD) (t : Fin cfg0.N) (h0 : t.val % 16 = 0) :
    outsAt0 V c t.val t.isLt = outA0 V c t ((hcond0 t).mpr h0) := by
  obtain ⟨n, hn⟩ := t
  cases n with
  | zero => rfl
  | succ n => exact dif_pos h0

theorem outsAt0_B (c : Dev nD) (t : Fin cfg0.N) (h0 : ¬t.val % 16 = 0) :
    outsAt0 V c t.val t.isLt = outB0 V c t (fun h => h0 ((hcond0 t).mp h)) (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans rfl

theorem outsAt0_A_fst (c : Dev nD) (t : Fin cfg0.N) (h0 : t.val % 16 = 0) :
    (outsAt0 V c t.val t.isLt).1 = out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0 t).mpr h0) (iblk0 V c 0 t) (iblk0 V c 1 t) (iblk0 V c 2 t) (iblk0 V c 3 t) :=
  by rw [outsAt0_A V c t h0, outA0]
theorem outsAt0_A_snd (c : Dev nD) (t : Fin cfg0.N) (h0 : t.val % 16 = 0) :
    (outsAt0 V c t.val t.isLt).2 = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0 t).mpr h0) (iblk0 V c 0 t) (iblk0 V c 1 t) (iblk0 V c 2 t) (iblk0 V c 3 t) :=
  by rw [outsAt0_A V c t h0, outA0]
theorem outsAt0_B_fst (c : Dev nD) (t : Fin cfg0.N) (h0 : ¬t.val % 16 = 0) :
    (outsAt0 V c t.val t.isLt).1 = out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0 t).mp h)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2 :=
  by rw [outsAt0_B V c t h0, outB0]
theorem outsAt0_B_snd (c : Dev nD) (t : Fin cfg0.N) (h0 : ¬t.val % 16 = 0) :
    (outsAt0 V c t.val t.isLt).2 = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0 t).mp h)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2 :=
  by rw [outsAt0_B V c t h0, outB0]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2 := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl

theorem before0_4_B (c : Dev nD) (t : Fin cfg0.N) (h0 : ¬t.val % 16 = 0) (d) :
    (dat0 V c).before 4 t d = (outsAt0 V c (t.val - 1) (Nat.lt_of_le_of_lt (Nat.sub_le _ _) t.isLt)).1 := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dat0]

theorem before0_5_B (c : Dev nD) (t : Fin cfg0.N) (h0 : ¬t.val % 16 = 0) (d) :
    (dat0 V c).before 5 t d = (outsAt0 V c (t.val - 1) (Nat.lt_of_le_of_lt (Nat.sub_le _ _) t.isLt)).2 := by
  have hN : t.val < 16 := lt_of_lt_of_eq t.isLt (show cfg0.N = 16 from N_0)
  rw [Dat.before_out_kept _ 5 rfl t (by omega) (Bool.eq_false_iff.mpr fun h => by have := (flush0_5 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 1600000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  have hN : t.val < 16 := lt_of_lt_of_eq t.isLt (show cfg0.N = 16 from N_0)
  by_cases h0 : t.val % 16 = 0
  · rw [outsAt0_A_fst V c t h0, outsAt0_A_snd V c t h0]
    unfold out0_A_4 out0_A_5
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0 t).mpr h0) (iblk0 V c 0 t) (iblk0 V c 1 t) (iblk0 V c 2 t) (iblk0 V c 3 t)).2 Set.univ _)
    iframe H0 H1 H2 H3
    isplitl [H4]; · iexists _; iexact H4
    isplitl [H5]; · iexists _; iexact H5
    iintro ⟨H0, H1, H2, H3, ⟨%e4, H4⟩, ⟨%e5, H5⟩⟩
    iframe HΦ Ho H0 H1 H2 H3
    isplitl [H4]
    · unfold owns; iexists _; isplitr
      swap; · iexact H4
      ipureintro; exact View.read_writes_of_cover _ _ _ _ _ (cover0_A_4 c _ _ _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _ _ _)
  · rw [outsAt0_B_fst V c t h0, outsAt0_B_snd V c t h0]
    simp only [before0_4_B V c t h0, before0_5_B V c t h0]
    unfold out0_B_4 out0_B_5
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0 t).mp h)) (iblk0 V c 0 t) (iblk0 V c 1 t) (iblk0 V c 2 t) (iblk0 V c 3 t) _ _).2 Set.univ _)
    iframe H0 H1 H2 H3
    isplitl [H4]; · iexact H4
    isplitl [H5]; · iexact H5
    iintro ⟨H0, H1, H2, H3, ⟨%e4, H4⟩, ⟨%e5, H5⟩⟩
    iframe HΦ Ho H0 H1 H2 H3
    isplitl [H4]
    · unfold owns; iexists _; isplitr
      swap; · iexact H4
      ipureintro; exact View.read_writes_of_cover _ _ _ _ _ (cover0_B_4 c _ _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

end Region

end Cert.KernelIdeal.Fr

end
-- ==== Proof.K.R1RunA.lean ====
import proofs.«417377_j33337536151700_1_alg».proof.Proof.Gen.KernelIdeal.Launch
import proofs.«417377_j33337536151700_1_alg».proof.Proof.Gen.KernelIdeal.Skeleton
import proofs.«417377_j33337536151700_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1 (i : grid1.Coords) : Prop :=
  (Scalar.cmpi .ne (Scalar.extui (Scalar.cmpi .eq (BitVec.ofNat 32 (i 0).val) 0#32)) 0#32) = 1#1

theorem hcond1 : ∀ t : Fin cfg1.N, cond1 (grid1.coords t) ↔ t.val % 32 = 0 :=
  (by decide +kernel : ∀ t : Fin grid1.N, cond1 (grid1.coords t) ↔ t.val % 32 = 0)

abbrev VO1_2 : View sig .tc .vmem S1x8 .f32 := (Memref.whole cc1_stg2_0 : Memref sig .tc .vmem S1x8 .f32).view

abbrev ms1_0 (t : Fin cfg1.N) : Memref sig .tc .vmem S2048x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x192 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8 .f32 := win1_2.stage (cfg1.slots t 2)
abbrev hs1_2 (t : Fin cfg1.N) : (ms1_2 t).IsWhole := hstage1_2 ((cfg1.slots t 2).cast nbuf1_2)

set_option maxHeartbeats 1000000 in

noncomputable def kernelRun1_A (c : Dev nD) (i : grid1.Coords)
    (aA : Memref sig .tc .vmem S2048x256 .f32) (haA : aA.IsWhole)
    (aB : Memref sig .tc .vmem S256x192 .bf16) (haB : aB.IsWhole)
    (aC : Memref sig .tc .vmem S1x8 .f32) (haC : aC.IsWhole) (hc0 : cond1 i)
    (x0 : Vec F S2048x256 .f32) (xA : Vec F S256x192 .bf16) :
    { L : List (View.Piece (Elt F) S1x8 .f32) //
      ∀ (E : Set ℕ) (K : PUnit → sProp 𝕄),
        iprop(owns (c : Thread nD τ) aA fullShare x0 ∗ owns (c : Thread nD τ) aB fullShare xA ∗ (∃ d, owns (c : Thread nD τ) aC fullShare d)
            ∗ (iprop(owns (c : Thread nD τ) aA fullShare x0 ∗ owns (c : Thread nD τ) aB fullShare xA
                ∗ (∃ f, aC.view.loc (c : Thread nD τ) ↦[aC.view.set]{fullShare} aC.view.writes (Elt F) f L)) -∗ K ⟨⟩))
          ⊢ wp frame (wpE (defs₀ (F := F)) Variants.none c none) E (cc1__matmul_kl_kernel i aA haA aB haB aC haC) K } := by
  refine ⟨?_, fun E K => ?run⟩
  case run =>
    simp only [cc1__matmul_kl_kernel_eq_skeleton]; unfold cc1__matmul_kl_kernel_skel
    simp only [k1_part1_eq_skeleton, k1_part2_eq_skeleton]
    unfold owns
    iintro ⟨⟨%f0, %hf0, H0⟩, ⟨%fA, %hfA, HA⟩, ⟨%dC, %fC, -, HC⟩, Hk⟩
    obtain rfl := haA.eq_unread hf0; obtain rfl := haB.eq_unread hfA
    sl_exec (disch := first | exact hc0)
    sl_step
    iapply Hk
    isplitl [H0]
    · iexists _; isplitr; · ipureintro; exact haA.read_unread _
      iexact H0
    isplitl [HA]
    · iexists _; isplitr; · ipureintro; exact haB.read_unread _
      iexact HA
    iexists _; iexact HC

end Cert.KernelIdeal.Fr

end
-- ==== Proof.K.R1RunB.lean ====
import proofs.«417377_j33337536151700_1_alg».proof.Proof.K.R1RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun1_B (c : Dev nD) (i : grid1.Coords)
    (aA : Memref sig .tc .vmem S2048x256 .f32) (haA : aA.IsWhole)
    (aB : Memref sig .tc .vmem S256x192 .bf16) (haB : aB.IsWhole)
    (aC : Memref sig .tc .vmem S1x8 .f32) (haC : aC.IsWhole) (hc0 : ¬cond1 i)
    (x0 : Vec F S2048x256 .f32) (xA : Vec F S256x192 .bf16) (xo : Vec F S1x8 .f32) :
    { L : List (View.Piece (Elt F) S1x8 .f32) //
      ∀ (E : Set ℕ) (K : PUnit → sProp 𝕄),
        iprop(owns (c : Thread nD τ) aA fullShare x0 ∗ owns (c : Thread nD τ) aB fullShare xA ∗ owns (c : Thread nD τ) aC fullShare xo
            ∗ (iprop(owns (c : Thread nD τ) aA fullShare x0 ∗ owns (c : Thread nD τ) aB fullShare xA
                ∗ (∃ f, aC.view.loc (c : Thread nD τ) ↦[aC.view.set]{fullShare} aC.view.writes (Elt F) f L)) -∗ K ⟨⟩))
          ⊢ wp frame (wpE (defs₀ (F := F)) Variants.none c none) E (cc1__matmul_kl_kernel i aA haA aB haB aC haC) K } := by
  refine ⟨?_, fun E K => ?run⟩
  case run =>
    simp only [cc1__matmul_kl_kernel_eq_skeleton]; unfold cc1__matmul_kl_kernel_skel
    simp only [k1_part1_eq_skeleton, k1_part2_eq_skeleton]
    unfold owns
    iintro ⟨⟨%f0, %hf0, H0⟩, ⟨%fA, %hfA, HA⟩, ⟨%fC, %hfC, HC⟩, Hk⟩
    obtain rfl := haA.eq_unread hf0; obtain rfl := haB.eq_unread hfA; obtain rfl := haC.eq_unread hfC
    sl_exec (disch := first | exact hc0)
    sl_step
    iapply Hk
    isplitl [H0]
    · iexists _; isplitr; · ipureintro; exact haA.read_unread _
      iexact H0
    isplitl [HA]
    · iexists _; isplitr; · ipureintro; exact haB.read_unread _
      iexact HA
    iexists _; iexact HC

end Cert.KernelIdeal.Fr

end
-- ==== Proof.K.R1.lean ====
import proofs.«417377_j33337536151700_1_alg».proof.Proof.K.R1RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem cover1_A_2 (c : Dev nD) (i : grid1.Coords) (aA : Memref sig .tc .vmem S2048x256 .f32) (haA : aA.IsWhole) (aB : Memref sig .tc .vmem S256x192 .bf16) (haB : aB.IsWhole) (aC : Memref sig .tc .vmem S1x8 .f32) (haC : aC.IsWhole) (hc0 : cond1 i)
    (x0 : Vec F S2048x256 .f32) (xA : Vec F S256x192 .bf16) (y : S1x8.Idx) :
    ∃ pc ∈ (kernelRun1_A c i aA haA aB haB aC haC hc0 x0 xA).1, y ∈ pc.1.set :=
  View.cover_of_tiledL (kernelRun1_A c i aA haA aB haB aC haC hc0 x0 xA).1 S1x8.size (by sl_kernel_rfl) y

def out1_A_2 (c : Dev nD) (i : grid1.Coords) (aA : Memref sig .tc .vmem S2048x256 .f32) (haA : aA.IsWhole) (aB : Memref sig .tc .vmem S256x192 .bf16) (haB : aB.IsWhole) (aC : Memref sig .tc .vmem S1x8 .f32) (haC : aC.IsWhole) (hc0 : cond1 i)
    (x0 : Vec F S2048x256 .f32) (xA : Vec F S256x192 .bf16) : Vec F S1x8 .f32 :=
  VO1_2.read (Elt F) (VO1_2.writes (Elt F) VO1_2.junk (kernelRun1_A c i aA haA aB haB aC haC hc0 x0 xA).1)

theorem cover1_B_2 (c : Dev nD) (i : grid1.Coords) (aA : Memref sig .tc .vmem S2048x256 .f32) (haA : aA.IsWhole) (aB : Memref sig .tc .vmem S256x192 .bf16) (haB : aB.IsWhole) (aC : Memref sig .tc .vmem S1x8 .f32) (haC : aC.IsWhole) (hc0 : ¬cond1 i)
    (x0 : Vec F S2048x256 .f32) (xA : Vec F S256x192 .bf16) (xo : Vec F S1x8 .f32) (y : S1x8.Idx) :
    ∃ pc ∈ (kernelRun1_B c i aA haA aB haB aC haC hc0 x0 xA xo).1, y ∈ pc.1.set :=
  View.cover_of_tiledL (kernelRun1_B c i aA haA aB haB aC haC hc0 x0 xA xo).1 S1x8.size (by sl_kernel_rfl) y

def out1_B_2 (c : Dev nD) (i : grid1.Coords) (aA : Memref sig .tc .vmem S2048x256 .f32) (haA : aA.IsWhole) (aB : Memref sig .tc .vmem S256x192 .bf16) (haB : aB.IsWhole) (aC : Memref sig .tc .vmem S1x8 .f32) (haC : aC.IsWhole) (hc0 : ¬cond1 i)
    (x0 : Vec F S2048x256 .f32) (xA : Vec F S256x192 .bf16) (xo : Vec F S1x8 .f32) : Vec F S1x8 .f32 :=
  VO1_2.read (Elt F) (VO1_2.writes (Elt F) VO1_2.junk (kernelRun1_B c i aA haA aB haB aC haC hc0 x0 xA xo).1)

section Region

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

def outsAt1 (c : Dev nD) : (n : ℕ) → n < cfg1.N → Vec F S1x8 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1 ⟨0, hn⟩).mpr (Nat.zero_mod _)) (iblk1 V c 0 ⟨0, hn⟩) (iblk1 V c 1 ⟨0, hn⟩)
  | n + 1, hn =>
    if h0 : (n + 1) % 32 = 0 then
      out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1 ⟨n + 1, hn⟩).mpr h0) (iblk1 V c 0 ⟨n + 1, hn⟩) (iblk1 V c 1 ⟨n + 1, hn⟩)
    else
      out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1 ⟨n + 1, hn⟩).mp h)) (iblk1 V c 0 ⟨n + 1, hn⟩) (iblk1 V c 1 ⟨n + 1, hn⟩) (outsAt1 c n (Nat.lt_of_succ_lt hn))

theorem outsAt1_A (c : Dev nD) (t : Fin cfg1.N) (h0 : t.val % 32 = 0) :
    outsAt1 V c t.val t.isLt = out1_A_2 c (grid1.coords t) (ms1_0 t) (hs1_0 t) (ms1_1 t) (hs1_1 t) (ms1_2 t) (hs1_2 t) ((hcond1 t).mpr h0) (iblk1 V c 0 t) (iblk1 V c 1 t) := by
  obtain ⟨n, hn⟩ := t
  cases n with
  | zero => exact rfl
  | succ n => exact (dif_pos h0).trans rfl

theorem outsAt1_B (c : Dev nD) (t : Fin cfg1.N) (h0 : ¬t.val % 32 = 0) :
    outsAt1 V c t.val t.isLt = out1_B_2 c (grid1.coords t) (ms1_0 t) (hs1_0 t) (ms1_1 t) (hs1_1 t) (ms1_2 t) (hs1_2 t) (fun h => h0 ((hcond1 t).mp h)) (iblk1 V c 0 t) (iblk1 V c 1 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

theorem before1_2_B (c : Dev nD) (t : Fin cfg1.N) (h0 : ¬t.val % 32 = 0) (d) :
    (dat1 V c).before 2 t d = (outsAt1 V c (t.val - 1) (Nat.lt_of_le_of_lt (Nat.sub_le _ _) t.isLt)) := by
  have hN : t.val < 32 := lt_of_lt_of_eq t.isLt (show cfg1.N = 32 from N_1)
  rw [Dat.before_out_kept _ 2 rfl t (by omega) (Bool.eq_false_iff.mpr fun h => by have := (flush1_2 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 32 := lt_of_lt_of_eq t.isLt (show cfg1.N = 32 from N_1)
  by_cases h0 : t.val % 32 = 0
  · rw [outsAt1_A V c t h0]
    unfold out1_A_2
    iintro ⟨HΦ, Ho, ⟨%d0, H0⟩, ⟨%dA, HA⟩, ⟨%dC, HC⟩⟩
    iapply ((kernelRun1_A c (grid1.coords t) _ _ _ _ _ _ ((hcond1 t).mpr h0) (iblk1 V c 0 t) (iblk1 V c 1 t)).2 Set.univ _)
    isplitl [H0]; · iexact H0
    isplitl [HA]; · iexact HA
    isplitl [HC]; · iexists _; iexact HC
    iintro ⟨H0, HA, ⟨%eC, HC⟩⟩
    isplitl [HΦ]; · iexact HΦ
    isplitl [Ho]; · iexact Ho
    isplitl [H0]; · iexact H0
    isplitl [HA]; · iexact HA
    unfold owns; iexists _; isplitr
    swap; · iexact HC
    ipureintro; exact View.read_writes_of_cover _ _ _ _ _ (cover1_A_2 c _ _ _ _ _ _ _ _ _ _)
  · rw [outsAt1_B V c t h0]
    simp only [before1_2_B V c t h0]
    unfold out1_B_2
    iintro ⟨HΦ, Ho, ⟨%d0, H0⟩, ⟨%dA, HA⟩, ⟨%dC, HC⟩⟩
    iapply ((kernelRun1_B c (grid1.coords t) _ _ _ _ _ _ (fun h => h0 ((hcond1 t).mp h)) (iblk1 V c 0 t) (iblk1 V c 1 t) _).2 Set.univ _)
    isplitl [H0]; · iexact H0
    isplitl [HA]; · iexact HA
    isplitl [HC]; · iexact HC
    iintro ⟨H0, HA, ⟨%eC, HC⟩⟩
    isplitl [HΦ]; · iexact HΦ
    isplitl [Ho]; · iexact Ho
    isplitl [H0]; · iexact H0
    isplitl [HA]; · iexact HA
    unfold owns; iexists _; isplitr
    swap; · iexact HC
    ipureintro; exact View.read_writes_of_cover _ _ _ _ _ (cover1_B_2 c _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Region

end Cert.KernelIdeal.Fr

end
-- ==== Proof.K.R2RunA.lean ====
/- Region 2 (the kernel of pipeline 2, a grid of 32 points; windows 0 and 1 are inputs, window 2 the one
   output, whose block index never moves), first module of three. The body's only branch tests whether grid
   coordinate 0 is zero; here that condition is put in closed form over the grid, the staging memrefs of a point
   are named, and the whole body is run in the case where the branch is taken: the output block is overwritten
   by the reset store before it is read, so it may start at any contents. -/
import proofs.«417377_j33337536151700_1_alg».proof.Proof.Gen.KernelIdeal.Launch
import proofs.«417377_j33337536151700_1_alg».proof.Proof.Gen.KernelIdeal.Skeleton
import proofs.«417377_j33337536151700_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's one branch, as a function of the grid coordinates: the scalar chain
    "coordinate 0 equals zero", widened to a word and compared against zero again. -/
abbrev cond2 (i : grid2.Coords) : Prop :=
  (Scalar.cmpi .ne (Scalar.extui (Scalar.cmpi .eq (BitVec.ofNat 32 (i 0).val) 0#32)) 0#32) = 1#1

/-- It holds at the first point of the grid and nowhere else: a finite check over the 32 points. -/
theorem hcond2 : ∀ t : Fin cfg2.N, cond2 (grid2.coords t) ↔ t.val % 32 = 0 :=
  (by decide +kernel : ∀ t : Fin grid2.N, cond2 (grid2.coords t) ↔ t.val % 32 = 0)

/-! ## The staging memrefs of a point -/

/-- One staging buffer of the output window, through which its contents are stated: reading a list of covering
    writes back does not depend on which buffer they were made through. -/
abbrev VO2_2 : View sig .tc .vmem S1x8 .f32 := (Memref.whole cc2_stg2_0 : Memref sig .tc .vmem S1x8 .f32).view

/-- Each window's current staging memref at point `t`, spelled as the body is called with it, and its wholeness. -/
abbrev ms2_0 (t : Fin cfg2.N) : Memref sig .tc .vmem S2048x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x192 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x8 .f32 := win2_2.stage (cfg2.slots t 2)
abbrev hs2_2 (t : Fin cfg2.N) : (ms2_2 t).IsWhole := hstage2_2 ((cfg2.slots t 2).cast nbuf2_2)

/-! ## The body where the branch is taken -/

set_option maxHeartbeats 1000000 in
/-- CASE A (the branch taken: the first point). On whole staging memrefs, the two inputs owned at contents
    `x0` and `xA` and the output at anything, the body runs to any continuation that accepts the inputs as they
    were and the output's buffer with a list `L` of pieces written into it (last first). The list is the witness:
    it is whatever the body's stores to the output amount to, found by running the body, and nothing about it is
    asserted here beyond that the run ends with it. -/
noncomputable def kernelRun2_A (c : Dev nD) (i : grid2.Coords)
    (aA : Memref sig .tc .vmem S2048x256 .f32) (haA : aA.IsWhole)
    (aB : Memref sig .tc .vmem S256x192 .bf16) (haB : aB.IsWhole)
    (aC : Memref sig .tc .vmem S1x8 .f32) (haC : aC.IsWhole) (hc0 : cond2 i)
    (x0 : Vec F S2048x256 .f32) (xA : Vec F S256x192 .bf16) :
    { L : List (View.Piece (Elt F) S1x8 .f32) //
      ∀ (E : Set ℕ) (K : PUnit → sProp 𝕄),
        iprop(owns (c : Thread nD τ) aA fullShare x0 ∗ owns (c : Thread nD τ) aB fullShare xA ∗ (∃ d, owns (c : Thread nD τ) aC fullShare d)
            ∗ (iprop(owns (c : Thread nD τ) aA fullShare x0 ∗ owns (c : Thread nD τ) aB fullShare xA
                ∗ (∃ f, aC.view.loc (c : Thread nD τ) ↦[aC.view.set]{fullShare} aC.view.writes (Elt F) f L)) -∗ K ⟨⟩))
          ⊢ wp frame (wpE (defs₀ (F := F)) Variants.none c none) E (cc2__matmul_kl_kernel i aA haA aB haB aC haC) K } := by
  refine ⟨?_, fun E K => ?run⟩
  case run =>
    simp only [cc2__matmul_kl_kernel_eq_skeleton]; unfold cc2__matmul_kl_kernel_skel
    simp only [k2_part1_eq_skeleton, k2_part2_eq_skeleton]
    unfold owns
    iintro ⟨⟨%f0, %hf0, H0⟩, ⟨%fA, %hfA, HA⟩, ⟨%dC, %fC, -, HC⟩, Hk⟩
    obtain rfl := haA.eq_unread hf0; obtain rfl := haB.eq_unread hfA
    sl_exec (disch := first | exact hc0)
    sl_step
    iapply Hk
    isplitl [H0]
    · iexists _; isplitr; · ipureintro; exact haA.read_unread _
      iexact H0
    isplitl [HA]
    · iexists _; isplitr; · ipureintro; exact haB.read_unread _
      iexact HA
    iexists _; iexact HC

end Cert.KernelIdeal.Fr

end
-- ==== Proof.K.R2RunB.lean ====
/- Region 2, second module of three: the whole body in the case where the branch is not taken (every point after
   the first). The output block is read before it is overwritten, so its buffer must start at named contents:
   what the point before left there. -/
import proofs.«417377_j33337536151700_1_alg».proof.Proof.K.R2RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE B (the branch not taken: points 1 to 31). On whole staging memrefs, the two inputs owned at contents
    `x0` and `xA` and the output at its running contents `xo`, the body runs to any continuation that accepts the
    inputs as they were and the output's buffer with a list `L` of pieces written into it (last first); the list
    is the witness the run ends with. -/
noncomputable def kernelRun2_B (c : Dev nD) (i : grid2.Coords)
    (aA : Memref sig .tc .vmem S2048x256 .f32) (haA : aA.IsWhole)
    (aB : Memref sig .tc .vmem S256x192 .bf16) (haB : aB.IsWhole)
    (aC : Memref sig .tc .vmem S1x8 .f32) (haC : aC.IsWhole) (hc0 : ¬cond2 i)
    (x0 : Vec F S2048x256 .f32) (xA : Vec F S256x192 .bf16) (xo : Vec F S1x8 .f32) :
    { L : List (View.Piece (Elt F) S1x8 .f32) //
      ∀ (E : Set ℕ) (K : PUnit → sProp 𝕄),
        iprop(owns (c : Thread nD τ) aA fullShare x0 ∗ owns (c : Thread nD τ) aB fullShare xA ∗ owns (c : Thread nD τ) aC fullShare xo
            ∗ (iprop(owns (c : Thread nD τ) aA fullShare x0 ∗ owns (c : Thread nD τ) aB fullShare xA
                ∗ (∃ f, aC.view.loc (c : Thread nD τ) ↦[aC.view.set]{fullShare} aC.view.writes (Elt F) f L)) -∗ K ⟨⟩))
          ⊢ wp frame (wpE (defs₀ (F := F)) Variants.none c none) E (cc2__matmul_kl_kernel i aA haA aB haB aC haC) K } := by
  refine ⟨?_, fun E K => ?run⟩
  case run =>
    simp only [cc2__matmul_kl_kernel_eq_skeleton]; unfold cc2__matmul_kl_kernel_skel
    simp only [k2_part1_eq_skeleton, k2_part2_eq_skeleton]
    unfold owns
    iintro ⟨⟨%f0, %hf0, H0⟩, ⟨%fA, %hfA, HA⟩, ⟨%fC, %hfC, HC⟩, Hk⟩
    obtain rfl := haA.eq_unread hf0; obtain rfl := haB.eq_unread hfA; obtain rfl := haC.eq_unread hfC
    sl_exec (disch := first | exact hc0)
    sl_step
    iapply Hk
    isplitl [H0]
    · iexists _; isplitr; · ipureintro; exact haA.read_unread _
      iexact H0
    isplitl [HA]
    · iexists _; isplitr; · ipureintro; exact haB.read_unread _
      iexact HA
    iexists _; iexact HC

end Cert.KernelIdeal.Fr

end
-- ==== Proof.K.R2.lean ====
/- Region 2, third module of three: what the output's staging buffer holds after the body, per case and then
   point by point along the grid; the proof data of pipeline 2 at a PARAMETER `V` (the contents of the core's
   buffers when the region is entered); what each window's buffer holds when the body is called; the body at a
   generic point; and the pipeline's body obligation. -/
import proofs.«417377_j33337536151700_1_alg».proof.Proof.K.R2RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the output's buffer -/

/-- Case A's pieces tile the output block, so every index of the block lies in one of them. -/
theorem cover2_A_2 (c : Dev nD) (i : grid2.Coords) (aA : Memref sig .tc .vmem S2048x256 .f32) (haA : aA.IsWhole) (aB : Memref sig .tc .vmem S256x192 .bf16) (haB : aB.IsWhole) (aC : Memref sig .tc .vmem S1x8 .f32) (haC : aC.IsWhole) (hc0 : cond2 i)
    (x0 : Vec F S2048x256 .f32) (xA : Vec F S256x192 .bf16) (y : S1x8.Idx) :
    ∃ pc ∈ (kernelRun2_A c i aA haA aB haB aC haC hc0 x0 xA).1, y ∈ pc.1.set :=
  View.cover_of_tiledL (kernelRun2_A c i aA haA aB haB aC haC hc0 x0 xA).1 S1x8.size (by sl_kernel_rfl) y

/-- What case A leaves in the output's buffer: its pieces read back over arbitrary contents (they cover the
    block, so what lay underneath does not show). -/
def out2_A_2 (c : Dev nD) (i : grid2.Coords) (aA : Memref sig .tc .vmem S2048x256 .f32) (haA : aA.IsWhole) (aB : Memref sig .tc .vmem S256x192 .bf16) (haB : aB.IsWhole) (aC : Memref sig .tc .vmem S1x8 .f32) (haC : aC.IsWhole) (hc0 : cond2 i)
    (x0 : Vec F S2048x256 .f32) (xA : Vec F S256x192 .bf16) : Vec F S1x8 .f32 :=
  VO2_2.read (Elt F) (VO2_2.writes (Elt F) VO2_2.junk (kernelRun2_A c i aA haA aB haB aC haC hc0 x0 xA).1)

/-- Case B's pieces tile the output block, so every index of the block lies in one of them. -/
theorem cover2_B_2 (c : Dev nD) (i : grid2.Coords) (aA : Memref sig .tc .vmem S2048x256 .f32) (haA : aA.IsWhole) (aB : Memref sig .tc .vmem S256x192 .bf16) (haB : aB.IsWhole) (aC : Memref sig .tc .vmem S1x8 .f32) (haC : aC.IsWhole) (hc0 : ¬cond2 i)
    (x0 : Vec F S2048x256 .f32) (xA : Vec F S256x192 .bf16) (xo : Vec F S1x8 .f32) (y : S1x8.Idx) :
    ∃ pc ∈ (kernelRun2_B c i aA haA aB haB aC haC hc0 x0 xA xo).1, y ∈ pc.1.set :=
  View.cover_of_tiledL (kernelRun2_B c i aA haA aB haB aC haC hc0 x0 xA xo).1 S1x8.size (by sl_kernel_rfl) y

/-- What case B leaves in the output's buffer, from the running contents `xo` it started at. -/
def out2_B_2 (c : Dev nD) (i : grid2.Coords) (aA : Memref sig .tc .vmem S2048x256 .f32) (haA : aA.IsWhole) (aB : Memref sig .tc .vmem S256x192 .bf16) (haB : aB.IsWhole) (aC : Memref sig .tc .vmem S1x8 .f32) (haC : aC.IsWhole) (hc0 : ¬cond2 i)
    (x0 : Vec F S2048x256 .f32) (xA : Vec F S256x192 .bf16) (xo : Vec F S1x8 .f32) : Vec F S1x8 .f32 :=
  VO2_2.read (Elt F) (VO2_2.writes (Elt F) VO2_2.junk (kernelRun2_B c i aA haA aB haB aC haC hc0 x0 xA xo).1)

section Region
-- the contents of the core's buffers when the region is entered: everything below is stated at this parameter
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, for any proof data whose array is the
    region-entry contents and whose body leaves the block in place. The window is fetched at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, likewise. This window is fetched at the first
    point only: its block index is constant, so at a later point the buffer still holds the previous point's
    block, which is this point's block because the index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What the output holds after each point -/

/-- THE ACCUMULATION. What the output's buffer holds after the body at position `n` of the grid: at the first
    point case A's contents; at a later point case B's, started from what this leaves at `n - 1` (the buffer is
    not written back in between). A later point at which the branch condition held would be case A again; the
    closed form says there is none, and the definition does not need to know. -/
def outsAt2 (c : Dev nD) : (n : ℕ) → n < cfg2.N → Vec F S1x8 .f32
  | 0, hn => out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) ((hcond2 ⟨0, hn⟩).mpr (Nat.zero_mod _)) (iblk2 V c 0 ⟨0, hn⟩) (iblk2 V c 1 ⟨0, hn⟩)
  | n + 1, hn =>
    if h0 : (n + 1) % 32 = 0 then
      out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) ((hcond2 ⟨n + 1, hn⟩).mpr h0) (iblk2 V c 0 ⟨n + 1, hn⟩) (iblk2 V c 1 ⟨n + 1, hn⟩)
    else
      out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (fun h => h0 ((hcond2 ⟨n + 1, hn⟩).mp h)) (iblk2 V c 0 ⟨n + 1, hn⟩) (iblk2 V c 1 ⟨n + 1, hn⟩) (outsAt2 c n (Nat.lt_of_succ_lt hn))

/-- `outsAt2` at a point of case A: that case's contents. -/
theorem outsAt2_A (c : Dev nD) (t : Fin cfg2.N) (h0 : t.val % 32 = 0) :
    outsAt2 V c t.val t.isLt = out2_A_2 c (grid2.coords t) (ms2_0 t) (hs2_0 t) (ms2_1 t) (hs2_1 t) (ms2_2 t) (hs2_2 t) ((hcond2 t).mpr h0) (iblk2 V c 0 t) (iblk2 V c 1 t) := by
  obtain ⟨n, hn⟩ := t
  cases n with
  | zero => exact rfl
  | succ n => exact (dif_pos h0).trans rfl

/-- `outsAt2` at a point of case B: that case's contents, over what the point before left. -/
theorem outsAt2_B (c : Dev nD) (t : Fin cfg2.N) (h0 : ¬t.val % 32 = 0) :
    outsAt2 V c t.val t.isLt = out2_B_2 c (grid2.coords t) (ms2_0 t) (hs2_0 t) (ms2_1 t) (hs2_1 t) (ms2_2 t) (hs2_2 t) (fun h => h0 ((hcond2 t).mp h)) (iblk2 V c 0 t) (iblk2 V c 1 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 2 on core `c`: the arrays as the region finds them; after the body at point `t`
    each input's buffer at its block and the output's at `outsAt2`; the invariant that of a body touching only
    its windows; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt)
  Φ _ := Pipeline.ΦA spec2 c
  q _ := fullShare
  owed _ := 0

/-- The proof data's arrays are the region-entry contents (the definition projected; `V` is never unfolded). -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt) := by dsimp only [dat2]

/-- Each input's current buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- At a point of case B the output's current buffer holds what the body left at the point before: the point is not
    the first, and the buffer was not written back in between (that happens after the last point only). -/
theorem before2_2_B (c : Dev nD) (t : Fin cfg2.N) (h0 : ¬t.val % 32 = 0) (d) :
    (dat2 V c).before 2 t d = (outsAt2 V c (t.val - 1) (Nat.lt_of_le_of_lt (Nat.sub_le _ _) t.isLt)) := by
  have hN : t.val < 32 := lt_of_lt_of_eq t.isLt (show cfg2.N = 32 from N_2)
  rw [Dat.before_out_kept _ 2 rfl t (by omega) (Bool.eq_false_iff.mpr fun h => by have := (flush2_2 _).mp h; dsimp only at this; omega)
    (fun _ => rfl) (fun _ _ => rfl)]
  dsimp only [dat2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

set_option maxHeartbeats 800000 in
/-- The body at any point. The inputs' memrefs hold their blocks; the closed form of the branch condition says
    which case the point is in; in case B the output's memref holds what the point before left; so that case's run
    applies. Its pieces cover the output block, hence reading them back does not depend on the buffer they were
    written through nor on what lay underneath. The invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  have hN : t.val < 32 := lt_of_lt_of_eq t.isLt (show cfg2.N = 32 from N_2)
  by_cases h0 : t.val % 32 = 0
  · rw [outsAt2_A V c t h0]
    unfold out2_A_2
    iintro ⟨HΦ, Ho, ⟨%d0, H0⟩, ⟨%dA, HA⟩, ⟨%dC, HC⟩⟩
    iapply ((kernelRun2_A c (grid2.coords t) _ _ _ _ _ _ ((hcond2 t).mpr h0) (iblk2 V c 0 t) (iblk2 V c 1 t)).2 Set.univ _)
    isplitl [H0]; · iexact H0
    isplitl [HA]; · iexact HA
    isplitl [HC]; · iexists _; iexact HC
    iintro ⟨H0, HA, ⟨%eC, HC⟩⟩
    isplitl [HΦ]; · iexact HΦ
    isplitl [Ho]; · iexact Ho
    isplitl [H0]; · iexact H0
    isplitl [HA]; · iexact HA
    unfold owns; iexists _; isplitr
    swap; · iexact HC
    ipureintro; exact View.read_writes_of_cover _ _ _ _ _ (cover2_A_2 c _ _ _ _ _ _ _ _ _ _)
  · rw [outsAt2_B V c t h0]
    simp only [before2_2_B V c t h0]
    unfold out2_B_2
    iintro ⟨HΦ, Ho, ⟨%d0, H0⟩, ⟨%dA, HA⟩, ⟨%dC, HC⟩⟩
    iapply ((kernelRun2_B c (grid2.coords t) _ _ _ _ _ _ (fun h => h0 ((hcond2 t).mp h)) (iblk2 V c 0 t) (iblk2 V c 1 t) _).2 Set.univ _)
    isplitl [H0]; · iexact H0
    isplitl [HA]; · iexact HA
    isplitl [HC]; · iexact HC
    iintro ⟨H0, HA, ⟨%eC, HC⟩⟩
    isplitl [HΦ]; · iexact HΦ
    isplitl [Ho]; · iexact Ho
    isplitl [H0]; · iexact H0
    isplitl [HA]; · iexact HA
    unfold owns; iexists _; isplitr
    swap; · iexact HC
    ipureintro; exact View.read_writes_of_cover _ _ _ _ _ (cover2_B_2 c _ _ _ _ _ _ _ _ _ _ _)

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Region

end Cert.KernelIdeal.Fr

end
-- ==== Proof.K.Frame.lean ====
import proofs.«417377_j33337536151700_1_alg».proof.Proof.K.R0
import proofs.«417377_j33337536151700_1_alg».proof.Proof.K.R1
import proofs.«417377_j33337536151700_1_alg».proof.Proof.K.R2
import proofs.«417377_j33337536151700_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

abbrev En0 : (c : Dev nD) → (b : Ref sig .tc) → Buf (Elt F) ((c : Thread nD τ).loc b) := fun c b => W1 m ρ c b
-- Region 0's arrays at what its pipeline leaves, every other buffer as entered.
def W2 (c : Dev nD) : Valuation τ sig (Elt F) :=
  Pipeline.withArrays spec0 c (W1 m ρ c) fun w => (dat0 (En0 m ρ) c).arrAt w cfg0.N
theorem W2_arr (c : Dev nD) (w : Fin cfg0.W) :
    W2 m ρ c (Proc.devRef .tc (Pipeline.arrRef spec0 w)) = (dat0 (En0 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb

abbrev W3 : Dev nD → Valuation τ sig (Elt F) := fun c => StableHlo.after hostOps1 (W2 m ρ c)
theorem W3_def (c : Dev nD) : W3 m ρ c = StableHlo.after hostOps1 (W2 m ρ c) := rfl
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

abbrev En1 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (En1 m ρ) c).arrAt w cfg1.N
theorem W4_arr (c : Dev nD) (w : Fin cfg1.W) :
    W4 m ρ c (Proc.devRef .tc (Pipeline.arrRef spec1 w)) = (dat1 (En1 m ρ) c).arrAt w cfg1.N :=
  Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb

abbrev En2 : (c : Dev nD) → (b : Ref sig .tc) → Buf (Elt F) ((c : Thread nD τ).loc b) := fun c b => W4 m ρ c b
def W5 (c : Dev nD) : Valuation τ sig (Elt F) :=
  Pipeline.withArrays spec2 c (W4 m ρ c) fun w => (dat2 (En2 m ρ) c).arrAt w cfg2.N
theorem W5_arr (c : Dev nD) (w : Fin cfg2.W) :
    W5 m ρ c (Proc.devRef .tc (Pipeline.arrRef spec2 w)) = (dat2 (En2 m ρ) c).arrAt w cfg2.N :=
  Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) :=
  Pipeline.withArrays_of_ne spec2 c _ _ b hb

abbrev W6 : Dev nD → Valuation τ sig (Elt F) := fun c => StableHlo.after hostOps3 (W5 m ρ c)
theorem W6_def (c : Dev nD) : W6 m ρ c = StableHlo.after hostOps3 (W5 m ρ c) := rfl
theorem W6_of (c : Dev nD) (r : Ref sig .tc) (h : r ∉ hostOps3_W) :
    W6 m ρ c (Proc.devRef .tc r) = W5 m ρ c (Proc.devRef .tc r) :=
  StableHlo.after_of_writes_sub hostOps3 _ hostOps3_writes h

-- No host operation and no region writes an argument (a region reads it through an input window or not at all), so the fold walks back to the launch memory.
theorem W6_main_arg0 (c : Dev nD) : W6 m ρ c (Proc.devRef .tc main_arg0) = m ((c : Thread nD τ).loc main_arg0) :=
  (W6_of m ρ c main_arg0 (by decide)).trans <| (W5_of_ne m ρ c main_arg0 (by decide)).trans <| ((W4_arr m ρ c 0).trans (((dat1 (En1 m ρ) c).arrAt_in 0 rfl _).trans (A_eq1 (En1 m ρ) c 0))).trans <|
    (W3_of m ρ c main_arg0 (by decide)).trans <| ((W2_arr m ρ c 0).trans (((dat0 (En0 m ρ) c).arrAt_in 0 rfl _).trans (A_eq0 (En0 m ρ) c 0))).trans (W1_of m ρ c main_arg0 (by decide))

theorem W6_main_arg1 (c : Dev nD) : W6 m ρ c (Proc.devRef .tc main_arg1) = m ((c : Thread nD τ).loc main_arg1) :=
  (W6_of m ρ c main_arg1 (by decide)).trans <| ((W5_arr m ρ c 0).trans (((dat2 (En2 m ρ) c).arrAt_in 0 rfl _).trans (A_eq2 (En2 m ρ) c 0))).trans <| (W4_of_ne m ρ c main_arg1 (by decide)).trans <|
    (W3_of m ρ c main_arg1 (by decide)).trans <| ((W2_arr m ρ c 1).trans (((dat0 (En0 m ρ) c).arrAt_in 1 rfl _).trans (A_eq0 (En0 m ρ) c 1))).trans (W1_of m ρ c main_arg1 (by decide))

theorem W6_main_arg2 (c : Dev nD) : W6 m ρ c (Proc.devRef .tc main_arg2) = m ((c : Thread nD τ).loc main_arg2) :=
  (W6_of m ρ c main_arg2 (by decide)).trans <| (W5_of_ne m ρ c main_arg2 (by decide)).trans <| (W4_of_ne m ρ c main_arg2 (by decide)).trans <|
    (W3_of m ρ c main_arg2 (by decide)).trans <| (W2_of_ne m ρ c main_arg2 (by decide)).trans (W1_of m ρ c main_arg2 (by decide))

theorem W6_main_arg3 (c : Dev nD) : W6 m ρ c (Proc.devRef .tc main_arg3) = m ((c : Thread nD τ).loc main_arg3) :=
  (W6_of m ρ c main_arg3 (by decide)).trans <| (W5_of_ne m ρ c main_arg3 (by decide)).trans <| (W4_of_ne m ρ c main_arg3 (by decide)).trans <|
    (W3_of m ρ c main_arg3 (by decide)).trans <| (W2_of_ne m ρ c main_arg3 (by decide)).trans (W1_of m ρ c main_arg3 (by decide))

theorem W6_main_arg4 (c : Dev nD) : W6 m ρ c (Proc.devRef .tc main_arg4) = m ((c : Thread nD τ).loc main_arg4) :=
  (W6_of m ρ c main_arg4 (by decide)).trans <| (W5_of_ne m ρ c main_arg4 (by decide)).trans <| (W4_of_ne m ρ c main_arg4 (by decide)).trans <|
    (W3_of m ρ c main_arg4 (by decide)).trans <| (W2_of_ne m ρ c main_arg4 (by decide)).trans (W1_of m ρ c main_arg4 (by decide))

def pdats : (p : Fin 3) → (c : Dev nD) → Dat τ (Elt F) Unit ℕ (UR sig nD τ) ℕ (Pipeline.pin (pcfgs (F := F)) adm p) c
  | ⟨0, _⟩ => fun c => dat0 (En0 m ρ) c
  | ⟨1, _⟩ => fun c => dat1 (En1 m ρ) c
  | ⟨2, _⟩ => fun c => dat2 (En2 m ρ) c
abbrev 𝒱₀ : Variants := Variants.none
abbrev L : GSem nD τ sig → Finset Unit := fun _ => ∅
abbrev lv : GSem nD τ sig → Unit → ℕ := fun _ _ => 0
-- What rides beside the buffers through every item: the generator register at some state, and nothing owed.
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

set_option backward.isDefEq.respectTransparency.types false in
-- Region `p` as a segment: every unscoped buffer at `V` on entry and at `V'` on exit, where `V'` has the pipeline's final arrays and agrees with `V` elsewhere.
def regOf (p : Fin 3) (hw : Pipeline.WinFacts (Pipeline.pin (pcfgs (F := F)) adm p).spec) (hpos : ∀ w : Fin (Pipeline.pin (pcfgs (F := F)) adm p).W, 0 < ((Pipeline.pin (pcfgs (F := F)) adm p).spec w).block.numel)
    (harr : ∀ w, ((Pipeline.pin (pcfgs (F := F)) adm p).spec w).arr.IsWhole)
    (hst : ∀ (w : Fin (Pipeline.pin (pcfgs (F := F)) adm p).W) (s : Fin ((Pipeline.pin (pcfgs (F := F)) adm p).spec w).nbuf), (((Pipeline.pin (pcfgs (F := F)) adm p).spec w).stage s).IsWhole)
    (V V' : Dev nD → Valuation τ sig (Elt F)) (hbody : ∀ c, Pipeline.BodyObligationLoose (pdats m ρ p c) (defs₀ (F := F)) 𝒱₀ () Set.univ)
    (hK : (pcfgs (F := F) p).pre.K = 0) (howed : ∀ c t, (pdats m ρ p c).owed t = 0) (hq : ∀ c w, (pdats m ρ p c).q w = fullShare) (hrec : ∀ c t, (pdats m ρ p c).recorded t = Set.univ)
    (hA : ∀ c w, (pdats m ρ p c).A w = V c (Pipeline.arrRef (Pipeline.pin (pcfgs (F := F)) adm p).spec w)) (hΦ : ∀ c t, (pdats m ρ p c).Φ t = Pipeline.ΦA (Pipeline.pin (pcfgs (F := F)) adm p).spec c)
    (hF : ∀ c w, (pdats m ρ p c).arrAt w (Pipeline.pin (pcfgs (F := F)) adm p).N = V' c (Pipeline.arrRef (Pipeline.pin (pcfgs (F := F)) adm p).spec w))
    (hrest : ∀ c (b : Ref sig .tc), (∀ w, Pipeline.arrRef (Pipeline.pin (pcfgs (F := F)) adm p).spec w ≠ b) → V' c (Proc.devRef .tc b) = V c (Proc.devRef .tc b)) :
    Pipeline.RegionSeg (pcfgs (F := F)) adm (pdats m ρ) () defs₀ 𝒱₀ L lv p where
  win := hw.to₀
  block_pos := hpos
  stage_whole := hst
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c fun b => V c b
  hentry c := by
    rw [Pipeline.ownSems0_none]; unfold Pipeline.Dat.owesAt Pipeline.owesWithin; rw [howed]
    have hsplit := Pipeline.arrays_of_unscopedBufs (p := p) (pcfgs (F := F)) adm (pdats m ρ) hw harr c ((pdats m ρ p c).share_full (hq c)) (fun b => V c b) (hA c)
    rw [Pipeline.unscopedBufs_held] at hsplit
    have : IsEmpty (Fin (pcfgs (F := F) p).pre.K) := by rw [hK]; infer_instance
    iintro ⟨⟨Hub, Hp, HO⟩, -, -⟩
    ihave H := hsplit $$ Hub
    icases H with ⟨Ha, Hrest⟩
    imodintro
    isplitl [Ha]; · iexact Ha
    isplitr; · unfold Pipeline.prefHeld; rw [Finset.univ_eq_empty, BI.bigSep_empty]; iempintro
    isplitl [HO]
    · icases HO with ⟨%W, HO⟩; iexists W; isplitr; · ipureintro; exact fun x _ => Or.inl ((hrec c 0).symm ▸ Set.mem_univ x)
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hw harr c (pdats m ρ) ((pdats m ρ p c).share_full (hq c)) (fun b => V c b) (fun b => V' c b) ((pdats m ρ p c).arrAt · (Pipeline.pin (pcfgs (F := F)) adm p).N) (hF c)
      fun b hb => hrest c b fun w e => hb (Finset.mem_image.mpr ⟨w, Finset.mem_univ _, e⟩)
    rw [Pipeline.unscopedBufs_held] at hjoin
    unfold Pipeline.Dat.owesAt Pipeline.owesWithin; rw [howed]
    iintro ⟨Ha, ⟨%W, -, HO⟩, HY, Hrest⟩
    imodintro
    isplitl [Ha Hrest]
    · iapply hjoin; isplitl [Ha] <;> iassumption
    isplitl [HY]; · iexact HY
    iexists W; iexact HO

def reg0 : Pipeline.RegionSeg (pcfgs (F := F)) adm (pdats m ρ) () defs₀ 𝒱₀ L lv 0 :=
  regOf m ρ 0 launch0.win launch0.block_pos launch0.arr_whole launch0.stage_whole (W1 m ρ) (W2 m ρ)
    (fun c => (body_obligation0 (En0 m ρ) c).loose) rfl (fun _ _ => rfl) (fun _ _ => rfl) (fun _ _ => rfl) (fun _ _ => rfl) (fun _ _ => rfl)
    (fun c w => (W2_arr m ρ c w).symm) (W2_of_ne m ρ)
def reg1 : Pipeline.RegionSeg (pcfgs (F := F)) adm (pdats m ρ) () defs₀ 𝒱₀ L lv 1 :=
  regOf m ρ 1 launch1.win launch1.block_pos launch1.arr_whole launch1.stage_whole (W3 m ρ) (W4 m ρ)
    (fun c => (body_obligation1 (En1 m ρ) c).loose) rfl (fun _ _ => rfl) (fun _ _ => rfl) (fun _ _ => rfl) (fun _ _ => rfl) (fun _ _ => rfl)
    (fun c w => (W4_arr m ρ c w).symm) (W4_of_ne m ρ)
def reg2 : Pipeline.RegionSeg (pcfgs (F := F)) adm (pdats m ρ) () defs₀ 𝒱₀ L lv 2 :=
  regOf m ρ 2 launch2.win launch2.block_pos launch2.arr_whole launch2.stage_whole (W4 m ρ) (W5 m ρ)
    (fun c => (body_obligation2 (En2 m ρ) c).loose) rfl (fun _ _ => rfl) (fun _ _ => rfl) (fun _ _ => rfl) (fun _ _ => rfl) (fun _ _ => rfl)
    (fun c w => (W5_arr m ρ c w).symm) (W5_of_ne m ρ)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)) ]
theorem main_run (c : Dev nD) : main (F := F) c = Pipeline.Seg.run (segs m ρ) := by
  rw [main_chain c, Pipeline.Seg.run_eq_chain]
  exact congrArg Pipeline.chain (show _ = (segs m ρ).map Pipeline.Seg.prog from rfl)

theorem hlast (c : Dev nD) :
    (iprop(StableHlo.held (c : Thread nD τ) (Pipeline.ucRefs τ sig) (W6 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh] <;> iassumption
  iexact HO

set_option backward.isDefEq.respectTransparency.types false in
theorem run_gen {Q : PUnit × MemSt nD τ sig (Elt F) → Prop}
    (hQ : ∀ s : MemSt nD τ sig (Elt F), (∀ c : Dev nD, ∀ b ∈ Pipeline.ucRefs τ sig, s.mem (((c : Thread nD τ)).1, b) = W6 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => hlast m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := hQ)

theorem run_all : θ_run defs (onTc (τ := τ) (main (F := F))) ⟨m, fun _ => 0, ρ⟩
    (fun r => ∀ c : Dev nD, ∀ b ∈ Pipeline.ucRefs τ sig, r.2.mem ((c : Thread nD τ).1, b) = W6 m ρ c b) :=
  run_gen m ρ fun _ h => h

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_gen m ρ fun s h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c)⟩

end Cert.KernelIdeal.Fr

end
-- ==== Proof.Cur.lean ====
import Idealize.ShloMosaic.Lib.ValueIdx

noncomputable section

namespace Cert.Cur

open Idealize.ShloMosaic Idealize.ShloMosaic.ValueIdx

def cur2 {α : Type} (x : (⟨2, ![65536, 256]⟩ : Shape).Idx → α) : Fin 65536 → Fin 256 → α := fun n d => x (ix2 n d)

def lab1 {α : Type} (l : (⟨1, ![65536]⟩ : Shape).Idx → α) : Fin 65536 → α := fun n => l (ix1 n)

def lab2 {α : Type} (l : (⟨2, ![65536, 1]⟩ : Shape).Idx → α) : Fin 65536 → α := fun n => l (ix2 n 0)

def tab {α : Type} (w : (⟨2, ![256, 192]⟩ : Shape).Idx → α) (b : Fin 3) : Fin 64 → Fin 256 → α :=
  fun c d => w (ix2 d ⟨64 * b.val + c.val, by have := b.isLt; have := c.isLt; omega⟩)

end Cert.Cur

end
-- ==== Proof.LibMatrixRead.lean ====
import Idealize.ShloMosaic.Lib.ValueLayout

namespace Cert.MatrixRead

open Idealize.ShloMosaic Idealize.ShloMosaic.ValueIdx

variable {α : Type}

-- A vector recast as a column holds entry `i` in row `i`: both sit at row-major position `i`.
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_two, Shape.rowMajor_val_one]
    show i.val = i.val * 1 + u.val
    omega)

end Cert.MatrixRead
-- ==== Proof.KV.Host0.lean ====
import proofs.«417377_j33337536151700_1_alg».proof.Proof.Gen.KernelIdeal.Launch
import proofs.«417377_j33337536151700_1_alg».proof.Proof.Cur
import proofs.«417377_j33337536151700_1_alg».proof.Proof.LibMatrixRead
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen Idealize.ShloMosaic Idealize.ShloMosaic.TcCoe Idealize.ShloMosaic.ValueIdx Idealize.ShloMosaic.StableHlo

variable {F : FTy → Type} [FloatOps F] (W : Valuation τ sig (Elt F))

-- Each label vector is recast as a column, so row `n` of the column is entry `n` of the vector.
theorem host0_v0 : Cert.Cur.lab2 (StableHlo.after (hostOps0 (F := F)) W (Proc.devRef .tc main_v0))
    = Cert.Cur.lab1 (W (Proc.devRef .tc main_arg2)) := by
  funext n
  unfold Cert.Cur.lab2 Cert.Cur.lab1
  after_results
  exact Cert.MatrixRead.shapeCast_a_a1_apply _ _ n 0

theorem host0_v1 : Cert.Cur.lab2 (StableHlo.after (hostOps0 (F := F)) W (Proc.devRef .tc main_v1))
    = Cert.Cur.lab1 (W (Proc.devRef .tc main_arg3)) := by
  funext n
  unfold Cert.Cur.lab2 Cert.Cur.lab1
  after_results
  exact Cert.MatrixRead.shapeCast_a_a1_apply _ _ n 0

end Cert.KernelIdeal.Val

end
-- ==== Proof.LibConcat3.lean ====
import Idealize.ShloMosaic.Lib.ValueLayout
import Idealize.ShloMosaic.Lib.Pipeline.Value

namespace Cert.Concat3

open Idealize.ShloMosaic Idealize.ShloMosaic.ValueIdx

variable {α : Type}

-- Three `[n, w]` matrices side by side: column `w * b + c` of a row is column `c` of piece `b` (quotient and remainder by `w`).
theorem concat3_apply {n w : ℕ} (x₁ x₂ x₃ : (⟨2, ![n, w]⟩ : Shape).Idx → α)
    (h : Shape.Concatenates (([⟨⟨2, ![n, w]⟩, x₁⟩, ⟨⟨2, ![n, w]⟩, x₂⟩, ⟨⟨2, ![n, w]⟩, x₃⟩] :
      List ((s : Shape) × (s.Idx → α))).map (·.1)) ⟨2, ![n, 3 * w]⟩ 1)
    (r : Fin n) (b : Fin 3) (c : Fin w) (hlt : w * b.val + c.val < 3 * w) :
    concatenate ⟨2, ![n, 3 * w]⟩ 1 [⟨⟨2, ![n, w]⟩, x₁⟩, ⟨⟨2, ![n, w]⟩, x₂⟩, ⟨⟨2, ![n, w]⟩, x₃⟩] h (ix2 r ⟨w * b.val + c.val, hlt⟩)
      = ![x₁, x₂, x₃] b (ix2 r c) := by
  refine concatenate_ofFn_apply (t := ⟨2, ![n, 3 * w]⟩) (s₁ := ⟨2, ![n, w]⟩) (1 : Fin 2) ![x₁, x₂, x₃] h rfl w rfl
    (ix2 r ⟨w * b.val + c.val, hlt⟩) b ?_ (ix2 r c) ?_ fun a ha => ?_
  · show (w * b.val + c.val) / w = b.val
    rw [Nat.mul_add_div ((Nat.zero_le _).trans_lt c.isLt), Nat.div_eq_of_lt c.isLt, Nat.add_zero]
  · show c.val = (w * b.val + c.val) % w
    rw [Nat.mul_add_mod, Nat.mod_eq_of_lt c.isLt]
  · match a with
    | ⟨0, _⟩ => rfl
    | ⟨1, _⟩ => exact absurd rfl ha

end Cert.Concat3
-- ==== Proof.KV.Host1.lean ====
import proofs.«417377_j33337536151700_1_alg».proof.Proof.Gen.KernelIdeal.Launch
import proofs.«417377_j33337536151700_1_alg».proof.Proof.Cur
import proofs.«417377_j33337536151700_1_alg».proof.Proof.LibConcat3
import Idealize.ShloMosaic.Lib.StableHlo.Run
import Idealize.ShloMosaic.PureOps.Ideal.Laws

noncomputable section

namespace Cert.KernelIdeal.Val

open Cert.KernelIdeal Cert.KernelIdeal.Gen Idealize.ShloMosaic Idealize.ShloMosaic.TcCoe Idealize.ShloMosaic.ValueIdx Idealize.ShloMosaic.StableHlo

section Nary3
variable {Val : EltTy → Type} {x a b y : Ref sig .tc}

theorem nary3_result
    (f : ((k : Fin 3) → ((![x, a, b] : Fin 3 → Ref sig .tc) k).ty.Contents Val) → y.ty.Contents Val) (hxs hy)
    (V : Valuation τ sig Val) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl
end Nary3

section Term
variable {F : FTy → Type} [FloatOps F]

def sumHalf0 (S : FVec F S2x64x256 .f32) : FVec F S64x256 .f32 :=
  shapeCast S64x256 (extractStridedSlice S1x64x256 ![0, 0, 0] S slices_S2x64x256_S1x64x256_0_0_0) shapeCasts_S1x64x256_S64x256

def sumHalf1 (S : FVec F S2x64x256 .f32) : FVec F S64x256 .f32 :=
  shapeCast S64x256 (extractStridedSlice S1x64x256 ![1, 0, 0] S slices_S2x64x256_S1x64x256_1_0_0) shapeCasts_S1x64x256_S64x256

def cntHalf0 (N : FVec F S2x64 .f32) : FVec F S64 .f32 :=
  shapeCast S64 (extractStridedSlice S1x64 ![0, 0] N slices_S2x64_S1x64_0_0) shapeCasts_S1x64_S64

def cntHalf1 (N : FVec F S2x64 .f32) : FVec F S64 .f32 :=
  shapeCast S64 (extractStridedSlice S1x64 ![1, 0] N slices_S2x64_S1x64_1_0) shapeCasts_S1x64_S64

def quot (s : FVec F S64x256 .f32) (n : FVec F S64 .f32) : FVec F S64x256 .f32 :=
  Host.divf s (broadcastInDim S64x256 ![0, 1] bcast_S64x1_S64x256_0_1 (broadcastInDim S64x1 ![0] bcast_S64_S64x1_0 n))

def turned (u : FVec F S64x256 .f32) : FVec F S256x64 .f32 := transpose S256x64 [1, 0] u transposes_S64x256_S256x64_1_0

def host1Term (S : FVec F S2x64x256 .f32) (N : FVec F S2x64 .f32) : FVec F S256x192 .bf16 :=
  truncf .bf16
    (concatenate S256x192 1
      [⟨S256x64, turned (quot (sumHalf0 S) (cntHalf0 N))⟩,
       ⟨S256x64, turned (quot (sumHalf1 S) (cntHalf1 N))⟩,
       ⟨S256x64, turned (quot (addf (sumHalf0 S) (sumHalf1 S)) (addf (cntHalf0 N) (cntHalf1 N)))⟩]
      concatenates_S256x64_S256x64_S256x64_S256x192_d1)
    bitsLt_bf16_f32

set_option maxHeartbeats 1000000 in

theorem host1_val (W : Valuation τ sig (Elt F)) :
    StableHlo.after (hostOps1 (F := F)) W (Proc.devRef .tc main_v26)
      = host1Term (W (Proc.devRef .tc main_v2_0)) (W (Proc.devRef .tc main_v2_1)) := by
  simp only [after_cons, after_nil]
  repeat (first
    | rw [unary_result] | rw [binary_result] | rw [reshape_result] | rw [nary3_result]
    | (rw [unary_result_ne]; rotate_left; decide)
    | (rw [binary_result_ne]; rotate_left; decide)
    | (rw [reshape_result_ne]; rotate_left; decide)
    | (rw [nary_result_ne]; rotate_left; decide))
  rfl

end Term

variable (W : Valuation τ sig (Elt Ideal)) (S : FVec Ideal S2x64x256 .f32) (N : FVec Ideal S2x64 .f32) (c : Fin 64) (d : Fin 256)

-- Half `a` of the stacked sums, read at `(c, d)`, is the stack at `(a, c, d)`; likewise a row of the stacked counts.
theorem half3_apply (a : Fin 2) (h : S2x64x256.Slices ![a.val, 0, 0] S1x64x256) :
    shapeCast S64x256 (extractStridedSlice S1x64x256 ![a.val, 0, 0] S h) shapeCasts_S1x64x256_S64x256 (ix2 c d) = S (ix3 a c d) := by
  rw [shapeCast_1ab_ab_apply]
  exact extractStridedSlice_apply _ _ _ _ (ix3 a c d) fun b => match b with
    | ⟨0, _⟩ => rfl | ⟨1, _⟩ => (Nat.zero_add _).symm | ⟨2, _⟩ => (Nat.zero_add _).symm

theorem half2_apply (a : Fin 2) (h : S2x64.Slices ![a.val, 0] S1x64) :
    shapeCast S64 (extractStridedSlice S1x64 ![a.val, 0] N h) shapeCasts_S1x64_S64 (ix1 c) = N (ix2 a c) := by
  rw [shapeCast_1a_a_apply]
  exact extractStridedSlice_apply _ _ _ _ (ix2 a c) fun b => match b with
    | ⟨0, _⟩ => rfl | ⟨1, _⟩ => (Nat.zero_add _).symm

theorem quot_apply (s : FVec Ideal S64x256 .f32) (n : FVec Ideal S64 .f32) :
    quot s n (ix2 c d) = Ideal.div (s (ix2 c d)) (n (ix1 c)) := by
  unfold quot Host.divf
  rw [Ideal.hostDivf_def]
  congr 1
  rw [broadcastInDim_apply _ _ _ _ (ix2 c (0 : Fin 1)) fun a => match a with | ⟨0, _⟩ => rfl | ⟨1, _⟩ => rfl]
  exact broadcastInDim_apply _ _ _ _ (ix1 c) fun a => match a with | ⟨0, _⟩ => rfl

theorem turned_apply (u : FVec Ideal S64x256 .f32) : turned u (ix2 d c) = u (ix2 c d) :=
  transpose_ix2_apply u _ d c

def sums : FVec Ideal S2x64x256 .f32 := W (Proc.devRef .tc main_v2_0)
def cnts : FVec Ideal S2x64 .f32 := W (Proc.devRef .tc main_v2_1)

-- Band `b` of the stretch's table at class `c`, column `d`: the side-by-side read picks piece `b`, the turn swaps the coordinates, the quotient is pointwise.
theorem host1_tab0 : Cert.Cur.tab (StableHlo.after (hostOps1 (F := Ideal)) W (Proc.devRef .tc main_v26)) 0 c d
    = Ideal.div (sums W (ix3 0 c d)) (cnts W (ix2 0 c)) := by
  rw [host1_val]; unfold Cert.Cur.tab host1Term; rw [truncf_apply]
  refine (Cert.Concat3.concat3_apply (w := 64) _ _ _ _ d 0 c _).trans ?_
  show turned (quot (sumHalf0 _) (cntHalf0 _)) (ix2 d c) = _
  rw [turned_apply, quot_apply]
  exact congrArg₂ Ideal.div (half3_apply _ c d 0 _) (half2_apply _ c 0 _)

theorem host1_tab1 : Cert.Cur.tab (StableHlo.after (hostOps1 (F := Ideal)) W (Proc.devRef .tc main_v26)) 1 c d
    = Ideal.div (sums W (ix3 1 c d)) (cnts W (ix2 1 c)) := by
  rw [host1_val]; unfold Cert.Cur.tab host1Term; rw [truncf_apply]
  refine (Cert.Concat3.concat3_apply (w := 64) _ _ _ _ d 1 c _).trans ?_
  show turned (quot (sumHalf1 _) (cntHalf1 _)) (ix2 d c) = _
  rw [turned_apply, quot_apply]
  exact congrArg₂ Ideal.div (half3_apply _ c d 1 _) (half2_apply _ c 1 _)

theorem host1_tab2 : Cert.Cur.tab (StableHlo.after (hostOps1 (F := Ideal)) W (Proc.devRef .tc main_v26)) 2 c d
    = Ideal.div (sums W (ix3 0 c d) + sums W (ix3 1 c d)) (cnts W (ix2 0 c) + cnts W (ix2 1 c)) := by
  rw [host1_val]; unfold Cert.Cur.tab host1Term; rw [truncf_apply]
  refine (Cert.Concat3.concat3_apply (w := 64) _ _ _ _ d 2 c _).trans ?_
  show turned (quot (addf (sumHalf0 _) (sumHalf1 _)) (addf (cntHalf0 _) (cntHalf1 _))) (ix2 d c) = _
  rw [turned_apply, quot_apply, addf_apply, addf_apply]
  exact congrArg₂ Ideal.div (congrArg₂ (· + ·) (half3_apply _ c d 0 _) (half3_apply _ c d 1 _))
    (congrArg₂ (· + ·) (half2_apply _ c 0 _) (half2_apply _ c 1 _))

end Cert.KernelIdeal.Val

end
-- ==== Proof.Spec.lean ====
import Idealize.ShloMosaic.PureOps.Ideal
import Mathlib.Algebra.BigOperators.Fin

noncomputable section

namespace Cert.Spec

open Idealize.ShloMosaic

def hot (l : BitVec 32) (c : Fin 64) : EReal := if l = BitVec.ofNat 32 c.val then 1 else 0

def segSum (x : Fin 65536 → Fin 256 → EReal) (l : Fin 65536 → BitVec 32) (c : Fin 64) (d : Fin 256) : EReal :=
  ∑ n : Fin 65536, hot (l n) c * x n d

def segCnt (l : Fin 65536 → BitVec 32) (c : Fin 64) : EReal := ∑ n : Fin 65536, hot (l n) c

def mean1 (x : Fin 65536 → Fin 256 → EReal) (l : Fin 65536 → BitVec 32) (c : Fin 64) (d : Fin 256) : EReal :=
  Ideal.div (segSum x l c d) (segCnt l c)

def mean2 (x y : Fin 65536 → Fin 256 → EReal) (l k : Fin 65536 → BitVec 32) (c : Fin 64) (d : Fin 256) : EReal :=
  Ideal.div (segSum x l c d + segSum y k c d) (segCnt l c + segCnt k c)

def logit (x : Fin 256 → EReal) (u : Fin 64 → Fin 256 → EReal) (c : Fin 64) : EReal := ∑ d : Fin 256, x d * u c d

def rmax (z : Fin 64 → EReal) : EReal := (Finset.univ : Finset (Fin 64)).fold max ⊥ z

def ex (z : Fin 64 → EReal) (c : Fin 64) : EReal := Ideal.exp (z c - rmax z)

def se (z : Fin 64 → EReal) : EReal := ∑ c : Fin 64, ex z c

def lsm (z : Fin 64 → EReal) (c : Fin 64) : EReal := (z c - rmax z) - Ideal.log (se z)

def sm (z : Fin 64 → EReal) (c : Fin 64) : EReal := Ideal.div (ex z c) (se z)

def klRow (za zb : Fin 64 → EReal) : EReal := ∑ c : Fin 64, sm zb c * (lsm zb c - lsm za c)

def rowTerm (us ut ust : Fin 64 → Fin 256 → EReal) (x : Fin 256 → EReal) : Fin 6 → EReal
  | ⟨0, _⟩ => klRow (logit x us) (logit x ut)
  | ⟨1, _⟩ => klRow (logit x ut) (logit x us)
  | ⟨2, _⟩ => klRow (logit x us) (logit x ust)
  | ⟨3, _⟩ => klRow (logit x ust) (logit x us)
  | ⟨4, _⟩ => klRow (logit x ut) (logit x ust)
  | ⟨5, _⟩ => klRow (logit x ust) (logit x ut)

def colTotal (us ut ust : Fin 64 → Fin 256 → EReal) (x : Fin 65536 → Fin 256 → EReal) (j : Fin 6) : EReal :=
  ∑ n : Fin 65536, rowTerm us ut ust (x n) j

def tail (T : Fin 6 → EReal) : EReal :=
  let k : EReal := Ideal.ofBits .f32 0x4B000000#32
  let two : EReal := Ideal.ofBits .f32 0x40000000#32
  let three : EReal := Ideal.ofBits .f32 0x40400000#32
  Ideal.div
    (Ideal.div (Ideal.div (T 0) k + Ideal.div (T 1) k) two
      + Ideal.div (Ideal.div (T 2) k + Ideal.div (T 3) k) two
      + Ideal.div (Ideal.div (T 4) k + Ideal.div (T 5) k) two)
    three

def loss (src trg : Fin 65536 → Fin 256 → EReal) (sl tl : Fin 65536 → BitVec 32) : EReal :=
  let us := mean1 src sl
  let ut := mean1 trg tl
  let ust := mean2 src trg sl tl
  tail fun j => colTotal us ut ust src j + colTotal us ut ust trg j

end Cert.Spec

end
-- ==== Proof.KV.Host3.lean ====
import proofs.«417377_j33337536151700_1_alg».proof.Proof.Gen.KernelIdeal.Launch
import proofs.«417377_j33337536151700_1_alg».proof.Proof.Spec
import proofs.«417377_j33337536151700_1_alg».proof.Proof.Cur
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.TcCoe Idealize.ShloMosaic.ValueIdx Idealize.ShloMosaic.StableHlo

-- Entry `k` of the entrywise sum of two [1, 8] arrays, cut out as a scalar: flatten, cut the one entry, drop its axis.
def slot (A B : FVec Ideal S1x8 .f32) (i : S_.Idx) (k : Fin 8) : EReal :=
  shapeCast S_ (extractStridedSlice S1 ![k.val] (fun i => shapeCast S8 (addf A B) shapeCasts_S1x8_S8 i)
    ⟨rfl, fun a => match a with | ⟨0, _⟩ => k.isLt⟩) shapeCasts_S1_S_ i

theorem slot_apply (A B : FVec Ideal S1x8 .f32) (i : S_.Idx) (k : Fin 8) : slot A B i k = A (ix2 0 k) + B (ix2 0 k) := by
  refine (shapeCast_apply _ shapeCasts_S1_S_ i (ix1 (0 : Fin 1)) (by rfl)).trans ?_
  refine (extractStridedSlice_apply _ _ _ (ix1 (0 : Fin 1)) (ix1 k) (fun a => by
    match a with
    | ⟨0, _⟩ => rfl)).trans ?_
  exact (shapeCast_1a_a_apply (addf A B) shapeCasts_S1x8_S8 k).trans rfl

def rd18 (A : FVec Ideal S1x8 .f32) (j : Fin 6) : EReal := A (ix2 0 ⟨j.val, by have := j.isLt; omega⟩)

-- The closing stretch adds the two arrays of totals entry by entry and runs the closing chain on entries 0 … 5.
theorem host3_v57 (W : Valuation τ sig (Elt Ideal)) :
    StableHlo.after (hostOps3 (F := Ideal)) W (Proc.devRef .tc main_v57)
      = fun _ => Cert.Spec.tail fun j => rd18 (W (Proc.devRef .tc main_v27)) j + rd18 (W (Proc.devRef .tc main_v28)) j := by
  after_results_simp
  funext i
  refine Eq.trans ?_ (congrArg Cert.Spec.tail (funext fun j : Fin 6 =>
    slot_apply (W (Proc.devRef .tc main_v27)) (W (Proc.devRef .tc main_v28)) i ⟨j.val, by have := j.isLt; omega⟩))
  rfl

end Cert.KernelIdeal.Val

end
-- ==== Proof.KV.R0Pay.lean ====
import proofs.«417377_j33337536151700_1_alg».proof.Proof.Gen.KernelIdeal.Skeleton
import proofs.«417377_j33337536151700_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Val

open Idealize.ShloMosaic Idealize.ShloMosaic.ValueIdx Idealize.SL.Sem
open Cert.KernelIdeal Cert.KernelIdeal.Gen

theorem ind_eq (x y : BitVec 32) :
    (FloatOps.sitofp (F := Ideal) .f32 ((IntOp.cmpi .eq x y).setWidth 32) : EReal) = if x = y then 1 else 0 := by
  show (((((IntOp.cmpi .eq x y).setWidth 32).toInt : ℝ)) : EReal) = _
  by_cases h : x = y
  · subst h
    simp [IntOp.cmpi]
  · have hb : (x == y) = false := by simpa using h
    simp [IntOp.cmpi, hb, h]

theorem pay6_apply (v : Vec Ideal S4096x1 .i32) (r : Fin 4096) (k : Fin 64) :
    k0_pay6 (F := Ideal) v (ix2 r k) = Spec.hot (v (ix2 r 0)) k := by
  unfold k0_pay6
  dsimp only
  rw [shapeCast_self]
  show FloatOps.sitofp (F := Ideal) .f32 ((IntOp.cmpi .eq (broadcastTo S4096x64 v broadcasts_S4096x1_S4096x64 (ix2 r k))
    (iota .tc S4096x64 32 [1] iota_S4096x64_d1_w32 (ix2 r k))).setWidth 32) = _
  rw [iota_single_apply, broadcastTo_apply v broadcasts_S4096x1_S4096x64 (ix2 r k) (ix2 r 0) (fun a => by
    match a with
    | ⟨0, _⟩ => rfl
    | ⟨1, _⟩ => rfl)]
  exact ind_eq _ _

theorem pay8_apply (v : Vec Ideal S4096x1 .i32) (k : Fin 64) :
    k0_pay8 (F := Ideal) v (ix1 k) = ∑ r : Fin 4096, Spec.hot (v (ix2 r 0)) k := by
  unfold k0_pay8
  dsimp only
  refine (Ideal.multiReduction_add_single (k0_pay6 (F := Ideal) v) 0x00000000#32 reduces_S4096x64_S64 (.inl rfl) rfl (ix1 k)).trans ?_
  show ∑ r : Fin 4096, k0_pay6 (F := Ideal) v (reduces_S4096x64_S64.lift (ix1 k) r) = _
  refine Finset.sum_congr rfl fun r _ => ?_
  have e : reduces_S4096x64_S64.lift (ix1 k) r = ix2 r k := by
    funext a; apply Fin.ext
    match a with
    | ⟨0, _⟩ => rfl
    | ⟨1, _⟩ => rfl
  rw [e, pay6_apply]

theorem pay7_apply (v : Vec Ideal S4096x1 .i32) (r : Fin 4096) (k : Fin 64) :
    k0_pay7 (F := Ideal) v (ix2 r k) = Spec.hot (v (ix2 r 0)) k := pay6_apply v r k

theorem pay9_apply (v : Vec Ideal S4096x1 .i32) (k : Fin 64) :
    k0_pay9 (F := Ideal) v (ix1 k) = ∑ r : Fin 4096, Spec.hot (v (ix2 r 0)) k := pay8_apply v k

abbrev DD : DotDims S4096x64 S4096x256 S64x256 := dot_S4096x64_S4096x256_S64x256_0_0_1_1_n_n

theorem matmul_apply_kd {φ₁ φ₂ : FTy} (A : FVec Ideal S4096x64 φ₁) (B : FVec Ideal S4096x256 φ₂) (k : Fin 64) (d : Fin 256) :
    matmul (F := Ideal) dot_S4096x64_S4096x256_S64x256_0_0_1_1_n_n none A B (constant S64x256 .f32 0x00000000#32) (ix2 k d)
      = ∑ r : Fin 4096, A (ix2 r k) * B (ix2 r d) := by
  show FloatOps.matmul DD none A B (constant S64x256 .f32 0x00000000#32) (ix2 k d) = _
  rw [Ideal.matmul_constant_zero_apply, ← Equiv.sum_comp (contrEquiv1 DD 4096 rfl rfl).symm]
  refine Finset.sum_congr rfl fun r _ => ?_
  have c2 := contrEquiv1_symm_val DD 4096 rfl rfl r
  have l2 : DD.lhsIdx (ix2 k d) ((contrEquiv1 DD 4096 rfl rfl).symm r) = ix2 r k := by
    funext ax; apply Fin.ext
    match ax with
    | ⟨0, _⟩ => simp [DotDims.lhsIdx, DD, dot_S4096x64_S4096x256_S64x256_0_0_1_1_n_n]; exact c2
    | ⟨1, _⟩ => simp [DotDims.lhsIdx, DD, dot_S4096x64_S4096x256_S64x256_0_0_1_1_n_n]; rfl
  have r2 : DD.rhsIdx (ix2 k d) ((contrEquiv1 DD 4096 rfl rfl).symm r) = ix2 r d := by
    funext ax; apply Fin.ext
    match ax with
    | ⟨0, _⟩ => simp [DotDims.rhsIdx, DD, dot_S4096x64_S4096x256_S64x256_0_0_1_1_n_n]; exact c2
    | ⟨1, _⟩ => simp [DotDims.rhsIdx, DD, dot_S4096x64_S4096x256_S64x256_0_0_1_1_n_n]; rfl
  rw [l2, r2]

theorem pay10_apply (x : Vec Ideal S4096x256 .f32) (v : Vec Ideal S4096x1 .i32) (k : Fin 64) (d : Fin 256) :
    k0_pay10 (F := Ideal) x v (ix2 k d) = ∑ r : Fin 4096, Spec.hot (v (ix2 r 0)) k * x (ix2 r d) := by
  unfold k0_pay10
  rw [matmul_apply_kd]
  refine Finset.sum_congr rfl fun r _ => ?_
  rw [truncf_apply, truncf_apply, pay7_apply]

theorem pay11_apply (x : Vec Ideal S4096x256 .f32) (v : Vec Ideal S4096x1 .i32) (o : Vec Ideal S1x64x256 .f32)
    (u : Fin 1) (k : Fin 64) (d : Fin 256) :
    k0_pay11 (F := Ideal) x v o (ix3 u k d) = o (ix3 0 k d) + ∑ r : Fin 4096, Spec.hot (v (ix2 r 0)) k * x (ix2 r d) := by
  unfold k0_pay11
  rw [shapeCast_ab_1ab_apply, addf_apply, shapeCast_1ab_ab_apply, matmul_apply_kd]
  refine congrArg (o (ix3 0 k d) + ·) (Finset.sum_congr rfl fun r _ => ?_)
  rw [truncf_apply, truncf_apply, pay6_apply]

theorem pay12_apply (o : Vec Ideal S1x64x256 .f32) (k : Fin 64) (d : Fin 256) :
    k0_pay12 (F := Ideal) o (ix2 k d) = o (ix3 0 k d) := by
  unfold k0_pay12
  rw [shapeCast_1ab_ab_apply]

theorem pay1_apply (p q : FVec Ideal S64x256 .f32) (u : Fin 1) (k : Fin 64) (d : Fin 256) :
    k0_pay1 (F := Ideal) p q (ix3 u k d) = q (ix2 k d) + p (ix2 k d) := by
  unfold k0_pay1
  rw [shapeCast_ab_1ab_apply, addf_apply]

theorem pay2_apply (s : FVec Ideal S64 .f32) (o : Vec Ideal S1x64 .f32) (u : Fin 1) (k : Fin 64) :
    k0_pay2 (F := Ideal) s o (ix2 u k) = o (ix2 0 k) + s (ix1 k) := by
  unfold k0_pay2
  rw [shapeCast_a_1a_apply, addf_apply, shapeCast_1a_a_apply]

theorem pay3_apply (s : FVec Ideal S64 .f32) (o : Vec Ideal S1x64 .f32) (u : Fin 1) (k : Fin 64) :
    k0_pay3 (F := Ideal) s o (ix2 u k) = o (ix2 0 k) + s (ix1 k) := pay2_apply s o u k

theorem pay4_apply (j : S2x64x256.Idx) : k0_pay4 (F := Ideal) j = 0 := Ideal.ofBits_zero_f32
theorem pay5_apply (j : S2x64.Idx) : k0_pay5 (F := Ideal) j = 0 := Ideal.ofBits_zero_f32

end Cert.KernelIdeal.Val

end
-- ==== Proof.KV.R0Piece.lean ====
import proofs.«417377_j33337536151700_1_alg».proof.Proof.K.R0RunB
import proofs.«417377_j33337536151700_1_alg».proof.Proof.KV.R0Pay
import Idealize.ShloMosaic.Lib.Pipeline.Value
import Idealize.ShloMosaic.Lib.ValueIdx
import Idealize.ShloMosaic.Lib.Tactic

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Fr

def hotSum (x : Vec Ideal S4096x256 .f32) (l : Vec Ideal S4096x1 .i32) (k : Fin 64) (d : Fin 256) : EReal :=
  ∑ r : Fin 4096, Spec.hot (l (ix2 r 0)) k * x (ix2 r d)

def hotCnt (l : Vec Ideal S4096x1 .i32) (k : Fin 64) : EReal := ∑ r : Fin 4096, Spec.hot (l (ix2 r 0)) k

theorem fin2_cases (a : Fin 2) : a = 0 ∨ a = 1 := by
  rcases a with ⟨_ | _ | n, h⟩
  · exact Or.inl rfl
  · exact Or.inr rfl
  · omega

theorem hz3 : (![0, 0, 0] : Fin 3 → Nat) = fun _ => 0 := funext fun a => by fin_cases a <;> rfl
theorem hz2 : (![0, 0] : Fin 2 → Nat) = fun _ => 0 := funext fun a => by fin_cases a <;> rfl

theorem half_emb1 (u : Fin 1) (k : Fin 64) (d : Fin 256) :
    (Rect.unit (s := S2x64x256) ![1, 0, 0] S1x64x256.size inb_S2x64x256_S1x64x256_1_0_0).emb (ix3 u k d) = ix3 (1 : Fin 2) k d := by
  funext a; apply Fin.ext
  have hu : u.val = 0 := by omega
  match a with
  | ⟨0, _⟩ => show 1 + 1 * u.val = 1; omega
  | ⟨1, _⟩ => show 0 + 1 * k.val = k.val; omega
  | ⟨2, _⟩ => show 0 + 1 * d.val = d.val; omega

theorem half_emb0 (u : Fin 1) (k : Fin 64) (d : Fin 256) :
    (Rect.unit (s := S2x64x256) ![0, 0, 0] S1x64x256.size inb_S2x64x256_S1x64x256_0_0_0).emb (ix3 u k d) = ix3 (0 : Fin 2) k d := by
  funext a; apply Fin.ext
  have hu : u.val = 0 := by omega
  match a with
  | ⟨0, _⟩ => show 0 + 1 * u.val = 0; omega
  | ⟨1, _⟩ => show 0 + 1 * k.val = k.val; omega
  | ⟨2, _⟩ => show 0 + 1 * d.val = d.val; omega

theorem row_emb1 (u : Fin 1) (k : Fin 64) :
    (Rect.unit (s := S2x64) ![1, 0] S1x64.size inb_S2x64_S1x64_1_0).emb (ix2 u k) = ix2 (1 : Fin 2) k := by
  funext a; apply Fin.ext
  have hu : u.val = 0 := by omega
  match a with
  | ⟨0, _⟩ => show 1 + 1 * u.val = 1; omega
  | ⟨1, _⟩ => show 0 + 1 * k.val = k.val; omega

theorem row_emb0 (u : Fin 1) (k : Fin 64) :
    (Rect.unit (s := S2x64) ![0, 0] S1x64.size inb_S2x64_S1x64_0_0).emb (ix2 u k) = ix2 (0 : Fin 2) k := by
  funext a; apply Fin.ext
  have hu : u.val = 0 := by omega
  match a with
  | ⟨0, _⟩ => show 0 + 1 * u.val = 0; omega
  | ⟨1, _⟩ => show 0 + 1 * k.val = k.val; omega

theorem half0_not_mem1 (k : Fin 64) (d : Fin 256) :
    (ix3 (0 : Fin 2) k d : S2x64x256.Idx) ∉ (Rect.unit (s := S2x64x256) ![1, 0, 0] S1x64x256.size inb_S2x64x256_S1x64x256_1_0_0).set := by
  rw [Rect.mem_set_unit]
  intro h
  exact Nat.not_succ_le_zero 0 (h 0).1

theorem half1_not_mem0 (k : Fin 64) (d : Fin 256) :
    (ix3 (1 : Fin 2) k d : S2x64x256.Idx) ∉ (Rect.unit (s := S2x64x256) ![0, 0, 0] S1x64x256.size inb_S2x64x256_S1x64x256_0_0_0).set := by
  rw [Rect.mem_set_unit]
  intro h
  exact Nat.lt_irrefl 1 (h 0).2

theorem row0_not_mem1 (k : Fin 64) :
    (ix2 (0 : Fin 2) k : S2x64.Idx) ∉ (Rect.unit (s := S2x64) ![1, 0] S1x64.size inb_S2x64_S1x64_1_0).set := by
  rw [Rect.mem_set_unit]
  intro h
  exact Nat.not_succ_le_zero 0 (h 0).1

theorem row1_not_mem0 (k : Fin 64) :
    (ix2 (1 : Fin 2) k : S2x64.Idx) ∉ (Rect.unit (s := S2x64) ![0, 0] S1x64.size inb_S2x64_S1x64_0_0).set := by
  rw [Rect.mem_set_unit]
  intro h
  exact Nat.lt_irrefl 1 (h 0).2

theorem hotSum_ld (x : Vec Ideal S4096x256 .f32) (l : Vec Ideal S4096x1 .i32) (k : Fin 64) (d : Fin 256) :
    ∑ r : Fin 4096, Spec.hot (View.ld (Val := Elt Ideal) (e' := .i32) l (Rect.unit ![0, 0] S4096x1.size inb_S4096x1_S4096x1_0_0) (ix2 r 0)) k
        * View.ld (Val := Elt Ideal) (e' := .f32) x (Rect.unit ![0, 0] S4096x256.size inb_S4096x256_S4096x256_0_0) (ix2 r d)
      = hotSum x l k d := by
  rw [View.ld_unit_zero (S := S4096x1) hz2, View.ld_unit_zero (S := S4096x256) hz2]; rfl

theorem hotCnt_ld (l : Vec Ideal S4096x1 .i32) (k : Fin 64) :
    ∑ r : Fin 4096, Spec.hot (View.ld (Val := Elt Ideal) (e' := .i32) l (Rect.unit ![0, 0] S4096x1.size inb_S4096x1_S4096x1_0_0) (ix2 r 0)) k
      = hotCnt l k := by
  rw [View.ld_unit_zero (S := S4096x1) hz2]; rfl

theorem canon_z4 (j : S2x64x256.Idx) :
    View.canon [(⟨Rect.unit ![0, 0, 0] S2x64x256.size inb_S2x64x256_S2x64x256_0_0_0, k0_pay4 (F := Ideal)⟩ : View.Piece (Elt Ideal) S2x64x256 .f32)] j = 0 := by
  rw [View.canon_unit_zero hz3]; exact pay4_apply j

theorem canon_h0_z4 (w : S1x64x256.Idx → Elt Ideal .f32) (k : Fin 64) (d : Fin 256) :
    View.canon [(⟨Rect.unit ![0, 0, 0] S1x64x256.size inb_S2x64x256_S1x64x256_0_0_0, w⟩ : View.Piece (Elt Ideal) S2x64x256 .f32),
      ⟨Rect.unit ![0, 0, 0] S2x64x256.size inb_S2x64x256_S2x64x256_0_0_0, k0_pay4 (F := Ideal)⟩] (ix3 (1 : Fin 2) k d) = 0 :=
  Eq.trans (View.canon_cons_of_not_mem _ _ (half1_not_mem0 k d)) (canon_z4 _)

theorem canon_z5 (j : S2x64.Idx) :
    View.canon [(⟨Rect.unit ![0, 0] S2x64.size inb_S2x64_S2x64_0_0, k0_pay5 (F := Ideal)⟩ : View.Piece (Elt Ideal) S2x64 .f32)] j = 0 := by
  rw [View.canon_unit_zero hz2]; exact pay5_apply j

theorem canon_r0_z5 (w : S1x64.Idx → Elt Ideal .f32) (k : Fin 64) :
    View.canon [(⟨Rect.unit ![0, 0] S1x64.size inb_S2x64_S1x64_0_0, w⟩ : View.Piece (Elt Ideal) S2x64 .f32),
      ⟨Rect.unit ![0, 0] S2x64.size inb_S2x64_S2x64_0_0, k0_pay5 (F := Ideal)⟩] (ix2 (1 : Fin 2) k) = 0 :=
  Eq.trans (View.canon_cons_of_not_mem _ _ (row1_not_mem0 k)) (canon_z5 _)

section Run
variable (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x1 .i32) (harg3 : arg3.IsWhole) (arg4 : Memref sig .tc .vmem S4096x1 .i32) (harg4 : arg4.IsWhole) (arg5 : Memref sig .tc .vmem S2x64x256 .f32) (harg5 : arg5.IsWhole) (arg6 : Memref sig .tc .vmem S2x64 .f32) (harg6 : arg6.IsWhole)
  (x0 x1 : Vec Ideal S4096x256 .f32) (x2 x3 : Vec Ideal S4096x1 .i32)

section CaseB
variable (hc0 : ¬cond0 i) (xo4 : Vec Ideal S2x64x256 .f32) (xo5 : Vec Ideal S2x64 .f32)

-- A later point adds, in half `a`, the sums of feature and label pair `a` to the running total (the store into half 1 comes last, so it heads the list of pieces).
theorem canonB4 (a : Fin 2) (k : Fin 64) (d : Fin 256) :
    View.canon (kernelRun0_B (F := Ideal) c i arg1 harg1 arg2 harg2 arg3 harg3 arg4 harg4 arg5 harg5 arg6 harg6 hc0 x0 x1 x2 x3 xo4 xo5).1.1 (ix3 a k d)
      = xo4 (ix3 a k d) + (if a = 0 then hotSum x0 x2 k d else hotSum x1 x3 k d) := by
  unfold kernelRun0_B
  dsimp only
  sl_unfold_words
  rcases fin2_cases a with rfl | rfl
  · rw [if_pos rfl]
    refine Eq.trans (View.canon_cons_of_not_mem _ _ (half0_not_mem1 k d)) ?_
    refine (congrArg (View.canon _) (half_emb0 0 k d).symm).trans ?_
    rw [View.canon_cons_emb, pay11_apply]
    simp only [View.readAt_eq_ld, harg1.read_unread, harg3.read_unread, harg5.read_unread]
    exact congrArg₂ (· + ·) (congrArg xo4 (half_emb0 0 k d)) (hotSum_ld x0 x2 k d)
  · rw [if_neg (by decide)]
    refine (congrArg (View.canon _) (half_emb1 0 k d).symm).trans ?_
    rw [View.canon_cons_emb, pay1_apply, pay12_apply, pay10_apply]
    simp only [View.readAt_eq_ld, harg2.read_unread, harg4.read_unread, harg5.read_unread]
    exact congrArg₂ (· + ·) (congrArg xo4 (half_emb1 0 k d)) (hotSum_ld x1 x3 k d)

-- and, in row `a`, the counts of label block `a`.
theorem canonB5 (a : Fin 2) (k : Fin 64) :
    View.canon (kernelRun0_B (F := Ideal) c i arg1 harg1 arg2 harg2 arg3 harg3 arg4 harg4 arg5 harg5 arg6 harg6 hc0 x0 x1 x2 x3 xo4 xo5).1.2 (ix2 a k)
      = xo5 (ix2 a k) + (if a = 0 then hotCnt x2 k else hotCnt x3 k) := by
  unfold kernelRun0_B
  dsimp only
  sl_unfold_words
  rcases fin2_cases a with rfl | rfl
  · rw [if_pos rfl]
    refine Eq.trans (View.canon_cons_of_not_mem _ _ (row0_not_mem1 k)) ?_
    refine (congrArg (View.canon _) (row_emb0 0 k).symm).trans ?_
    rw [View.canon_cons_emb, pay2_apply, pay8_apply]
    simp only [View.readAt_eq_ld, harg3.read_unread, harg6.read_unread]
    exact congrArg₂ (· + ·) (congrArg xo5 (row_emb0 0 k)) (hotCnt_ld x2 k)
  · rw [if_neg (by decide)]
    refine (congrArg (View.canon _) (row_emb1 0 k).symm).trans ?_
    rw [View.canon_cons_emb, pay3_apply, pay9_apply]
    simp only [View.readAt_eq_ld, harg4.read_unread, harg6.read_unread]
    exact congrArg₂ (· + ·) (congrArg xo5 (row_emb1 0 k)) (hotCnt_ld x3 k)

end CaseB

section CaseA
variable (hc0 : cond0 i)

-- The first point leaves, in half `a`, the sums of pair `a` alone: it adds them to the zeros it has just stored.
theorem canonA4 (a : Fin 2) (k : Fin 64) (d : Fin 256) :
    View.canon (kernelRun0_A (F := Ideal) c i arg1 harg1 arg2 harg2 arg3 harg3 arg4 harg4 arg5 harg5 arg6 harg6 hc0 x0 x1 x2 x3).1.1 (ix3 a k d)
      = if a = 0 then hotSum x0 x2 k d else hotSum x1 x3 k d := by
  unfold kernelRun0_A
  dsimp only
  sl_unfold_words
  rcases fin2_cases a with rfl | rfl
  · rw [if_pos rfl]
    refine Eq.trans (View.canon_cons_of_not_mem _ _ (half0_not_mem1 k d)) ?_
    refine (congrArg (View.canon _) (half_emb0 0 k d).symm).trans ?_
    rw [View.canon_cons_emb, pay11_apply, View.readCov_eq_canon']
    simp only [View.readAt_eq_ld, harg1.read_unread, harg3.read_unread]
    exact (congrArg₂ (· + ·) (canon_z4 _) (hotSum_ld x0 x2 k d)).trans (zero_add _)
  · rw [if_neg (by decide)]
    refine (congrArg (View.canon _) (half_emb1 0 k d).symm).trans ?_
    rw [View.canon_cons_emb, pay1_apply, pay12_apply, pay10_apply, View.readCov_eq_canon']
    simp only [View.readAt_eq_ld, harg2.read_unread, harg4.read_unread]
    exact (congrArg₂ (· + ·) ((congrArg (View.canon _) (half_emb1 0 k d)).trans (canon_h0_z4 _ k d)) (hotSum_ld x1 x3 k d)).trans (zero_add _)

theorem canonA5 (a : Fin 2) (k : Fin 64) :
    View.canon (kernelRun0_A (F := Ideal) c i arg1 harg1 arg2 harg2 arg3 harg3 arg4 harg4 arg5 harg5 arg6 harg6 hc0 x0 x1 x2 x3).1.2 (ix2 a k)
      = if a = 0 then hotCnt x2 k else hotCnt x3 k := by
  unfold kernelRun0_A
  dsimp only
  sl_unfold_words
  rcases fin2_cases a with rfl | rfl
  · rw [if_pos rfl]
    refine Eq.trans (View.canon_cons_of_not_mem _ _ (row0_not_mem1 k)) ?_
    refine (congrArg (View.canon _) (row_emb0 0 k).symm).trans ?_
    rw [View.canon_cons_emb, pay2_apply, pay8_apply, View.readCov_eq_canon']
    simp only [View.readAt_eq_ld, harg3.read_unread]
    exact (congrArg₂ (· + ·) (canon_z5 _) (hotCnt_ld x2 k)).trans (zero_add _)
  · rw [if_neg (by decide)]
    refine (congrArg (View.canon _) (row_emb1 0 k).symm).trans ?_
    rw [View.canon_cons_emb, pay3_apply, pay9_apply, View.readCov_eq_canon']
    simp only [View.readAt_eq_ld, harg4.read_unread]
    exact (congrArg₂ (· + ·) ((congrArg (View.canon _) (row_emb1 0 k)).trans (canon_r0_z5 _ k)) (hotCnt_ld x3 k)).trans (zero_add _)

end CaseA

end Run

end Cert.KernelIdeal.Val

end
-- ==== Proof.KV.R0Blk.lean ====
import proofs.«417377_j33337536151700_1_alg».proof.Proof.Gen.KernelIdeal.Points
import proofs.«417377_j33337536151700_1_alg».proof.Proof.Gen.KernelIdeal.Launch
import Idealize.ShloMosaic.Lib.Pipeline.Value
import Idealize.ShloMosaic.Lib.ValueIdx
import Idealize.ShloMosaic.Lib.Tactic

noncomputable section

namespace Cert.KernelIdeal.Val

open Idealize.ShloMosaic Idealize.ShloMosaic.TcCoe Idealize.ShloMosaic.ValueIdx Idealize.SL.Sem
open Cert.KernelIdeal Cert.KernelIdeal.Gen

variable {F : FTy → Type} [FloatOps F]

theorem idx_in : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem row_lt (t : Fin cfg0.N) (r : Fin 4096) : 4096 * t.val + r.val < 65536 := by
  have h : t.val < 16 := lt_of_lt_of_eq t.isLt N_0
  have := r.isLt
  omega

abbrev row (t : Fin cfg0.N) (r : Fin 4096) : Fin 65536 := ⟨4096 * t.val + r.val, row_lt t r⟩

theorem blk0_apply (c : Dev nD) (A : Buf (Elt F) ((c : Thread nD τ).loc main_arg0)) (t : Fin cfg0.N) (r : Fin 4096) (d : Fin 256) :
    ((cfg0.win 0).blk t).view.read (Elt F) A (ix2 r d) = A (ix2 (row t r) d) := by
  obtain ⟨e0, e1, -⟩ := idx_in t
  rw [View.read_apply]
  show A _ = A _
  congr 1
  funext a
  apply Fin.ext
  match a with
  | ⟨0, _⟩ => show win0_0.index t (0 : Fin 2) * 4096 + 1 * r.val = 4096 * t.val + r.val; rw [e0]; omega
  | ⟨1, _⟩ => show win0_0.index t (1 : Fin 2) * 256 + 1 * d.val = d.val; rw [e1]; omega

theorem blk1_apply (c : Dev nD) (A : Buf (Elt F) ((c : Thread nD τ).loc main_arg1)) (t : Fin cfg0.N) (r : Fin 4096) (d : Fin 256) :
    ((cfg0.win 1).blk t).view.read (Elt F) A (ix2 r d) = A (ix2 (row t r) d) := by
  obtain ⟨-, -, e0, e1, -⟩ := idx_in t
  rw [View.read_apply]
  show A _ = A _
  congr 1
  funext a
  apply Fin.ext
  match a with
  | ⟨0, _⟩ => show win0_1.index t (0 : Fin 2) * 4096 + 1 * r.val = 4096 * t.val + r.val; rw [e0]; omega
  | ⟨1, _⟩ => show win0_1.index t (1 : Fin 2) * 256 + 1 * d.val = d.val; rw [e1]; omega

theorem blk2_apply (c : Dev nD) (A : Buf (Elt F) ((c : Thread nD τ).loc main_v0)) (t : Fin cfg0.N) (r : Fin 4096) :
    ((cfg0.win 2).blk t).view.read (Elt F) A (ix2 r (0 : Fin 1)) = A (ix2 (row t r) (0 : Fin 1)) := by
  obtain ⟨-, -, -, -, e0, e1, -⟩ := idx_in t
  rw [View.read_apply]
  show A _ = A _
  congr 1
  funext a
  apply Fin.ext
  match a with
  | ⟨0, _⟩ => show win0_2.index t (0 : Fin 2) * 4096 + 1 * r.val = 4096 * t.val + r.val; rw [e0]; omega
  | ⟨1, _⟩ => show win0_2.index t (1 : Fin 2) * 1 + 1 * 0 = 0; rw [e1]

theorem blk3_apply (c : Dev nD) (A : Buf (Elt F) ((c : Thread nD τ).loc main_v1)) (t : Fin cfg0.N) (r : Fin 4096) :
    ((cfg0.win 3).blk t).view.read (Elt F) A (ix2 r (0 : Fin 1)) = A (ix2 (row t r) (0 : Fin 1)) := by
  obtain ⟨-, -, -, -, -, -, e0, e1⟩ := idx_in t
  rw [View.read_apply]
  show A _ = A _
  congr 1
  funext a
  apply Fin.ext
  match a with
  | ⟨0, _⟩ => show win0_3.index t (0 : Fin 2) * 4096 + 1 * r.val = 4096 * t.val + r.val; rw [e0]; omega
  | ⟨1, _⟩ => show win0_3.index t (1 : Fin 2) * 1 + 1 * 0 = 0; rw [e1]

theorem off4 (t : Fin cfg0.N) : (fun a => win0_4.index t a * main_v2_0.ty.shape.size a) = fun _ => 0 := by
  have h : ∀ t : Fin cfg0.N, ∀ a, win0_4.index t a * main_v2_0.ty.shape.size a = 0 := (by decide +kernel : ∀ t : Fin grid0.N, _)
  exact funext (h t)
theorem off5 (t : Fin cfg0.N) : (fun a => win0_5.index t a * main_v2_1.ty.shape.size a) = fun _ => 0 := by
  have h : ∀ t : Fin cfg0.N, ∀ a, win0_5.index t a * main_v2_1.ty.shape.size a = 0 := (by decide +kernel : ∀ t : Fin grid0.N, _)
  exact funext (h t)

end Cert.KernelIdeal.Val

end
-- ==== Proof.Math.lean ====
import Mathlib.Algebra.BigOperators.Fin
import Mathlib.Logic.Equiv.Fin.Basic
import proofs.«417377_j33337536151700_1_alg».proof.Proof.Spec

namespace Cert.Math

open Finset

variable {M : Type*} [AddCommMonoid M]

theorem mul_add_lt {a b : ℕ} (t : Fin a) (r : Fin b) : b * t.val + r.val < a * b :=
  calc b * t.val + r.val < b * (t.val + 1) := by rw [Nat.mul_succ]; exact Nat.add_lt_add_left r.isLt _
    _ ≤ a * b := Nat.mul_comm a b ▸ Nat.mul_le_mul_left _ t.isLt

-- A sum over `a * b` positions, block by block: position `b * t + r` is entry `r` of block `t`.
theorem sum_fin_mul (a b : ℕ) (f : Fin (a * b) → M) :
    ∑ n : Fin (a * b), f n = ∑ t : Fin a, ∑ r : Fin b, f ⟨b * t.val + r.val, mul_add_lt t r⟩ := by
  rw [← (finProdFinEquiv (m := a) (n := b)).sum_comp f, Fintype.sum_prod_type]
  refine Finset.sum_congr rfl fun t _ => Finset.sum_congr rfl fun r _ => ?_
  congr 1
  apply Fin.ext
  simp [finProdFinEquiv, Nat.add_comm]

theorem sum_16x4096 (f : Fin 65536 → M) :
    ∑ n, f n = ∑ t : Fin 16, ∑ r : Fin 4096,
      f ⟨4096 * t.val + r.val, by have := t.isLt; have := r.isLt; omega⟩ :=
  sum_fin_mul 16 4096 f

theorem sum_32x2048 (f : Fin 65536 → M) :
    ∑ n, f n = ∑ t : Fin 32, ∑ r : Fin 2048,
      f ⟨2048 * t.val + r.val, by have := t.isLt; have := r.isLt; omega⟩ :=
  sum_fin_mul 32 2048 f

def chain (z : M) (g : ℕ → M) : ℕ → M
  | 0 => z + g 0
  | n + 1 => chain z g n + g (n + 1)

-- A running sum that starts at `z` and adds `g 0, g 1, …, g N` is `z` plus the finite sum.
theorem chain_eq_fin (z : M) (g : ℕ → M) (N : ℕ) : chain z g N = z + ∑ t : Fin (N + 1), g t.val := by
  rw [← Finset.sum_range]
  induction N with
  | zero => simp [chain]
  | succ n ih => rw [chain, ih, Finset.sum_range_succ _ (n + 1), add_assoc]

end Cert.Math
-- ==== Proof.KV.R0Value.lean ====
import proofs.«417377_j33337536151700_1_alg».proof.Proof.K.R0
import proofs.«417377_j33337536151700_1_alg».proof.Proof.KV.R0Piece
import proofs.«417377_j33337536151700_1_alg».proof.Proof.KV.R0Blk
import proofs.«417377_j33337536151700_1_alg».proof.Proof.Math
import proofs.«417377_j33337536151700_1_alg».proof.Proof.Spec
import proofs.«417377_j33337536151700_1_alg».proof.Proof.Cur
import Idealize.ShloMosaic.Lib.Pipeline.Value
import Idealize.ShloMosaic.Lib.ValueIdx
import Idealize.ShloMosaic.Lib.Tactic

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr

section Pieces
variable (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x1 .i32) (harg3 : arg3.IsWhole) (arg4 : Memref sig .tc .vmem S4096x1 .i32) (harg4 : arg4.IsWhole) (arg5 : Memref sig .tc .vmem S2x64x256 .f32) (harg5 : arg5.IsWhole) (arg6 : Memref sig .tc .vmem S2x64 .f32) (harg6 : arg6.IsWhole)
  (x0 x1 : Vec Ideal S4096x256 .f32) (x2 x3 : Vec Ideal S4096x1 .i32)

-- The first point leaves its own sums and counts: half / row `a` takes feature and label pair `a`.
theorem out0_A_4_apply (hc0 : cond0 i) (a : Fin 2) (k : Fin 64) (d : Fin 256) :
    out0_A_4 (F := Ideal) c i arg1 harg1 arg2 harg2 arg3 harg3 arg4 harg4 arg5 harg5 arg6 harg6 hc0 x0 x1 x2 x3 (ix3 a k d)
      = if a = 0 then hotSum x0 x2 k d else hotSum x1 x3 k d := by
  unfold out0_A_4
  rw [View.read_writes_eq_canon _ _ _ fun _ => cover0_A_4 ..]
  exact canonA4 ..

theorem out0_A_5_apply (hc0 : cond0 i) (a : Fin 2) (k : Fin 64) :
    out0_A_5 (F := Ideal) c i arg1 harg1 arg2 harg2 arg3 harg3 arg4 harg4 arg5 harg5 arg6 harg6 hc0 x0 x1 x2 x3 (ix2 a k)
      = if a = 0 then hotCnt x2 k else hotCnt x3 k := by
  unfold out0_A_5
  rw [View.read_writes_eq_canon _ _ _ fun _ => cover0_A_5 ..]
  exact canonA5 ..

variable (xo4 : Vec Ideal S2x64x256 .f32) (xo5 : Vec Ideal S2x64 .f32)

-- A later point adds its sums and counts to the running totals.
theorem out0_B_4_apply (hc0 : ¬cond0 i) (a : Fin 2) (k : Fin 64) (d : Fin 256) :
    out0_B_4 (F := Ideal) c i arg1 harg1 arg2 harg2 arg3 harg3 arg4 harg4 arg5 harg5 arg6 harg6 hc0 x0 x1 x2 x3 xo4 xo5 (ix3 a k d)
      = xo4 (ix3 a k d) + (if a = 0 then hotSum x0 x2 k d else hotSum x1 x3 k d) := by
  unfold out0_B_4
  rw [View.read_writes_eq_canon _ _ _ fun _ => cover0_B_4 ..]
  exact canonB4 ..

theorem out0_B_5_apply (hc0 : ¬cond0 i) (a : Fin 2) (k : Fin 64) :
    out0_B_5 (F := Ideal) c i arg1 harg1 arg2 harg2 arg3 harg3 arg4 harg4 arg5 harg5 arg6 harg6 hc0 x0 x1 x2 x3 xo4 xo5 (ix2 a k)
      = xo5 (ix2 a k) + (if a = 0 then hotCnt x2 k else hotCnt x3 k) := by
  unfold out0_B_5
  rw [View.read_writes_eq_canon _ _ _ fun _ => cover0_B_5 ..]
  exact canonB5 ..

end Pieces

section Region
variable (V : (c : Dev nD) → (b : Ref sig .tc) → Buf (Elt Ideal) ((c : Thread nD τ).loc b))

def add4 (c : Dev nD) (a : Fin 2) (s : ℕ) (k : Fin 64) (d : Fin 256) : EReal :=
  if h : s < cfg0.N then
    (if a = 0 then hotSum (iblk0 V c 0 ⟨s, h⟩) (iblk0 V c 2 ⟨s, h⟩) k d else hotSum (iblk0 V c 1 ⟨s, h⟩) (iblk0 V c 3 ⟨s, h⟩) k d)
  else 0

def add5 (c : Dev nD) (a : Fin 2) (s : ℕ) (k : Fin 64) : EReal :=
  if h : s < cfg0.N then (if a = 0 then hotCnt (iblk0 V c 2 ⟨s, h⟩) k else hotCnt (iblk0 V c 3 ⟨s, h⟩) k) else 0

theorem outsAt_eq (c : Dev nD) : ∀ (n : ℕ) (h : n < cfg0.N),
    (∀ (a : Fin 2) (k : Fin 64) (d : Fin 256), (outsAt0 V c n h).1 (ix3 a k d) = ∑ s ∈ Finset.range (n + 1), add4 V c a s k d)
    ∧ (∀ (a : Fin 2) (k : Fin 64), (outsAt0 V c n h).2 (ix2 a k) = ∑ s ∈ Finset.range (n + 1), add5 V c a s k)
  | 0, h => by
    constructor
    · intro a k d
      refine (congrFun (outsAt0_A_fst V c ⟨0, h⟩ rfl) _).trans ?_
      rw [out0_A_4_apply, Finset.sum_range_one, add4, dif_pos h]
    · intro a k
      refine (congrFun (outsAt0_A_snd V c ⟨0, h⟩ rfl) _).trans ?_
      rw [out0_A_5_apply, Finset.sum_range_one, add5, dif_pos h]
  | n + 1, h => by
    have hN : cfg0.N = 16 := N_0
    have hB : ¬(⟨n + 1, h⟩ : Fin cfg0.N).val % 16 = 0 := by dsimp only; omega
    obtain ⟨ih4, ih5⟩ := outsAt_eq c n (Nat.lt_of_succ_lt h)
    constructor
    · intro a k d
      refine (congrFun (outsAt0_B_fst V c ⟨n + 1, h⟩ hB) _).trans ?_
      rw [out0_B_4_apply, Finset.sum_range_succ _ (n + 1)]
      refine congrArg₂ (· + ·) (ih4 a k d) ?_
      rw [add4, dif_pos h]
    · intro a k
      refine (congrFun (outsAt0_B_snd V c ⟨n + 1, h⟩ hB) _).trans ?_
      rw [out0_B_5_apply, Finset.sum_range_succ _ (n + 1)]
      refine congrArg₂ (· + ·) (ih5 a k) ?_
      rw [add5, dif_pos h]

theorem last_lt : 15 < cfg0.N := by rw [show cfg0.N = 16 from N_0]; decide

abbrev tl : Fin cfg0.N := ⟨15, last_lt⟩

abbrev res4 (c : Dev nD) : Buf (Elt Ideal) ((c : Thread nD τ).loc main_v2_0) := (outsAt0 V c 15 last_lt).1
abbrev res5 (c : Dev nD) : Buf (Elt Ideal) ((c : Thread nD τ).loc main_v2_1) := (outsAt0 V c 15 last_lt).2

-- The last point's block is the whole array: offset zero, the array's own sizes.
theorem arr4 (c : Dev nD) : (dat0 V c).arrAt 4 cfg0.N = res4 V c :=
  (dat0 V c).arrAt_eq_of_cover 4 (res4 V c) (fun t hf => by
      have hN : cfg0.N = 16 := N_0
      have h15 : t.val = 15 := by have := (flush0_4 t).mp hf; have := t.isLt; omega
      obtain rfl : t = tl := Fin.ext h15
      show (cfg0.win 4).cut (grid0.coords tl) ((dat0 V c).after 4 tl) = _
      rw [after0_4]
      exact (Memref.read_access_unit_zero (Elt Ideal) main_v2_0 (off4 tl) (fun a => by rw [congrFun (off4 tl) a]; simp) (res4 V c)).symm)
    fun i => ⟨tl, (flush0_4 tl).mpr rfl, by
      show i ∈ ((View.whole main_v2_0).slice (win0_4.rect tl)).set
      rw [View.set_slice_whole]
      exact View.mem_set_unit_zero (off4 tl) _ i⟩

theorem arr5 (c : Dev nD) : (dat0 V c).arrAt 5 cfg0.N = res5 V c :=
  (dat0 V c).arrAt_eq_of_cover 5 (res5 V c) (fun t hf => by
      have hN : cfg0.N = 16 := N_0
      have h15 : t.val = 15 := by have := (flush0_5 t).mp hf; have := t.isLt; omega
      obtain rfl : t = tl := Fin.ext h15
      show (cfg0.win 5).cut (grid0.coords tl) ((dat0 V c).after 5 tl) = _
      rw [after0_5]
      exact (Memref.read_access_unit_zero (Elt Ideal) main_v2_1 (off5 tl) (fun a => by rw [congrFun (off5 tl) a]; simp) (res5 V c)).symm)
    fun i => ⟨tl, (flush0_5 tl).mpr rfl, by
      show i ∈ ((View.whole main_v2_1).slice (win0_5.rect tl)).set
      rw [View.set_slice_whole]
      exact View.mem_set_unit_zero (off5 tl) _ i⟩

-- The sixteen blocks of 4096 rows are the 65536 rows.
theorem sum_blocks (f : ℕ → EReal) (g : Fin 65536 → EReal)
    (h : ∀ t : Fin cfg0.N, f t.val = ∑ r : Fin 4096, g (row t r)) : ∑ s ∈ Finset.range 16, f s = ∑ n, g n := by
  have hN : cfg0.N = 16 := N_0
  rw [Finset.sum_range, Cert.Math.sum_16x4096]
  exact Finset.sum_congr rfl fun t _ => h ⟨t.val, by have := t.isLt; omega⟩

-- Region 0 leaves, at `(a, k, d)`, entry `d` of the `a`-th feature array summed over its rows labelled `k`,
theorem final0_4 (c : Dev nD) (a : Fin 2) (k : Fin 64) (d : Fin 256) :
    (Fr.dat0 V c).arrAt 4 cfg0.N (ix3 a k d)
      = if a = 0 then Spec.segSum (Cur.cur2 (V c main_arg0)) (Cur.lab2 (V c main_v0)) k d
        else Spec.segSum (Cur.cur2 (V c main_arg1)) (Cur.lab2 (V c main_v1)) k d := by
  refine (congrFun (arr4 V c) _).trans (((outsAt_eq V c 15 last_lt).1 a k d).trans ?_)
  rcases fin2_cases a with rfl | rfl
  · rw [if_pos rfl]
    refine sum_blocks _ _ fun t => ?_
    rw [add4, dif_pos t.isLt, if_pos rfl]
    exact Finset.sum_congr rfl fun r _ =>
      congrArg₂ (fun l x => Spec.hot l k * x) (blk2_apply c (V c main_v0) t r) (blk0_apply c (V c main_arg0) t r d)
  · rw [if_neg (by decide)]
    refine sum_blocks _ _ fun t => ?_
    rw [add4, dif_pos t.isLt, if_neg (by decide)]
    exact Finset.sum_congr rfl fun r _ =>
      congrArg₂ (fun l x => Spec.hot l k * x) (blk3_apply c (V c main_v1) t r) (blk1_apply c (V c main_arg1) t r d)

-- and, at `(a, k)`, how many rows of the `a`-th label column are labelled `k`.
theorem final0_5 (c : Dev nD) (a : Fin 2) (k : Fin 64) :
    (Fr.dat0 V c).arrAt 5 cfg0.N (ix2 a k)
      = if a = 0 then Spec.segCnt (Cur.lab2 (V c main_v0)) k else Spec.segCnt (Cur.lab2 (V c main_v1)) k := by
  refine (congrFun (arr5 V c) _).trans (((outsAt_eq V c 15 last_lt).2 a k).trans ?_)
  rcases fin2_cases a with rfl | rfl
  · rw [if_pos rfl]
    refine sum_blocks _ _ fun t => ?_
    rw [add5, dif_pos t.isLt, if_pos rfl]
    exact Finset.sum_congr rfl fun r _ => congrArg (fun l => Spec.hot l k) (blk2_apply c (V c main_v0) t r)
  · rw [if_neg (by decide)]
    refine sum_blocks _ _ fun t => ?_
    rw [add5, dif_pos t.isLt, if_neg (by decide)]
    exact Finset.sum_congr rfl fun r _ => congrArg (fun l => Spec.hot l k) (blk3_apply c (V c main_v1) t r)

end Region

end Cert.KernelIdeal.Val

end
-- ==== Proof.KV.Band.lean ====
import proofs.«417377_j33337536151700_1_alg».proof.Proof.Gen.KernelIdeal
import proofs.«417377_j33337536151700_1_alg».proof.Proof.Spec
import proofs.«417377_j33337536151700_1_alg».proof.Proof.Cur
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.KL

open Idealize.ShloMosaic Idealize.ShloMosaic.ValueIdx Cert.KernelIdeal

def rowOf (x : Vec Ideal S2048x256 .f32) (r : Fin 2048) : Fin 256 → EReal := fun d => x (ix2 r d)

def sc (x : Vec Ideal S2048x256 .f32) (w : Vec Ideal S256x192 .bf16) (b : Fin 3) (r : Fin 2048) : Fin 64 → EReal :=
  Spec.logit (rowOf x r) (Cur.tab w b)

def tileTot (x : Vec Ideal S2048x256 .f32) (w : Vec Ideal S256x192 .bf16) (j : Fin 8) : EReal :=
  if h : j.val < 6 then ∑ r : Fin 2048, Spec.rowTerm (Cur.tab w 0) (Cur.tab w 1) (Cur.tab w 2) (rowOf x r) ⟨j.val, h⟩ else 0

theorem lhs_row (j : S2048x192.Idx) (k : dot_S2048x256_S256x192_S2048x192_1_0_0_1_n_n.contr.Idx) :
    (dot_S2048x256_S256x192_S2048x192_1_0_0_1_n_n.lhsIdx j k 0).val = (j 0).val := by
  unfold DotDims.lhsIdx
  rw [dif_neg (show ¬(0 : Fin S2048x256.rank) ∈ dot_S2048x256_S256x192_S2048x192_1_0_0_1_n_n.lhsBatch by decide),
    dif_pos (show (0 : Fin S2048x256.rank) ∈ dot_S2048x256_S256x192_S2048x192_1_0_0_1_n_n.lhsNonContracting by decide)]
  rfl

theorem lhs_col (j : S2048x192.Idx) (k : dot_S2048x256_S256x192_S2048x192_1_0_0_1_n_n.contr.Idx) :
    (dot_S2048x256_S256x192_S2048x192_1_0_0_1_n_n.lhsIdx j k 1).val = (k ⟨0, by decide⟩).val :=
  dot_S2048x256_S256x192_S2048x192_1_0_0_1_n_n.lhsIdx_val_of_single (cl := 1) rfl j k

theorem rhs_row (j : S2048x192.Idx) (k : dot_S2048x256_S256x192_S2048x192_1_0_0_1_n_n.contr.Idx) :
    (dot_S2048x256_S256x192_S2048x192_1_0_0_1_n_n.rhsIdx j k 0).val = (k ⟨0, by decide⟩).val :=
  dot_S2048x256_S256x192_S2048x192_1_0_0_1_n_n.rhsIdx_val_of_single (cr := 0) rfl j k

theorem rhs_col (j : S2048x192.Idx) (k : dot_S2048x256_S256x192_S2048x192_1_0_0_1_n_n.contr.Idx) :
    (dot_S2048x256_S256x192_S2048x192_1_0_0_1_n_n.rhsIdx j k 1).val = (j 1).val := by
  unfold DotDims.rhsIdx
  rw [dif_neg (show ¬(1 : Fin S256x192.rank) ∈ dot_S2048x256_S256x192_S2048x192_1_0_0_1_n_n.rhsBatch by decide),
    dif_pos (show (1 : Fin S256x192.rank) ∈ dot_S2048x256_S256x192_S2048x192_1_0_0_1_n_n.rhsNonContracting by decide)]
  rfl

theorem prod_apply (x : FVec Ideal S2048x256 .bf16) (w : FVec Ideal S256x192 .bf16) (r : Fin 2048) (q : Fin 192) :
    matmul dot_S2048x256_S256x192_S2048x192_1_0_0_1_n_n none x w (constant S2048x192 .f32 0x00000000#32) (ix2 r q)
      = ∑ d : Fin 256, x (ix2 r d) * w (ix2 d q) := by
  refine (Ideal.matmul_constant_zero_apply (φ₁ := .bf16) (φ₂ := .bf16) dot_S2048x256_S256x192_S2048x192_1_0_0_1_n_n none
    x w (ix2 r q)).trans ?_
  rw [← Equiv.sum_comp (contrEquiv1 dot_S2048x256_S256x192_S2048x192_1_0_0_1_n_n 256 rfl rfl).symm]
  refine Finset.sum_congr rfl fun d _ => ?_
  have hk := contrEquiv1_symm_val dot_S2048x256_S256x192_S2048x192_1_0_0_1_n_n 256 rfl rfl d
  have hl : dot_S2048x256_S256x192_S2048x192_1_0_0_1_n_n.lhsIdx (ix2 r q)
      ((contrEquiv1 dot_S2048x256_S256x192_S2048x192_1_0_0_1_n_n 256 rfl rfl).symm d) = ix2 r d := by
    funext a; apply Fin.ext
    match a with
    | ⟨0, _⟩ => exact lhs_row _ _
    | ⟨1, _⟩ => exact (lhs_col _ _).trans hk
  have hr : dot_S2048x256_S256x192_S2048x192_1_0_0_1_n_n.rhsIdx (ix2 r q)
      ((contrEquiv1 dot_S2048x256_S256x192_S2048x192_1_0_0_1_n_n 256 rfl rfl).symm d) = ix2 d q := by
    funext a; apply Fin.ext
    match a with
    | ⟨0, _⟩ => exact (rhs_row _ _).trans hk
    | ⟨1, _⟩ => exact rhs_col _ _
  rw [hl, hr]

theorem band_apply (x : Vec Ideal S2048x256 .f32) (w : Vec Ideal S256x192 .bf16) (P : FVec Ideal S2048x192 .f32)
    (hP : ∀ r q, P (ix2 r q) = ∑ d : Fin 256, x (ix2 r d) * w (ix2 d q)) (b : Fin 3) (o : ℕ) (ho : o = 64 * b.val)
    (h : S2048x192.Slices ![0, o] S2048x64) (r : Fin 2048) (c : Fin 64) :
    extractStridedSlice S2048x64 ![0, o] P h (ix2 r c) = sc x w b r c := by
  refine (slice2_axis1_apply o P h r c ⟨64 * b.val + c.val, by have := b.isLt; omega⟩ (by show 64 * b.val + c.val = o + c.val; omega)).trans ?_
  rw [hP]; rfl

theorem ofBits_ninf : Ideal.ofBits .f32 0xFF800000#32 = (⊥ : EReal) := by simp [Ideal.ofBits, Ideal.ieee]

theorem lift_row (h : S2048x64.Reduces [1] S2048) (r : Fin 2048) (c : Fin 64) : h.lift (ix1 r) c = ix2 r c := by
  funext a; apply Fin.ext
  match a with
  | ⟨0, _⟩ => rfl
  | ⟨1, _⟩ => rfl

theorem rowmax_apply (P : FVec Ideal S2048x64 .f32) (h : S2048x64.Reduces [1] S2048) (hφ : FKind.Formats .f32)
    (hacc : (0xFF800000#32 : BitVec 32) = FKind.maximumf.neutral .f32 hφ) (r : Fin 2048) :
    multiReduction .maximumf [1] S2048 P 0xFF800000#32 h hφ hacc (ix1 r)
      = (Finset.univ : Finset (Fin 64)).fold max ⊥ (fun c => P (ix2 r c)) := by
  refine (Ideal.multiReduction_maximumf_single P _ h hφ hacc (ix1 r)).trans ?_
  show (Finset.univ : Finset (Fin 64)).fold max (Ideal.ofBits .f32 0xFF800000#32) (fun c : Fin 64 => P (h.lift (ix1 r) c)) = _
  rw [ofBits_ninf]
  exact congrArg (fun f => (Finset.univ : Finset (Fin 64)).fold max ⊥ f) (funext fun c => by rw [lift_row])

theorem rowsum_apply (P : FVec Ideal S2048x64 .f32) (h : S2048x64.Reduces [1] S2048) (hφ : FKind.Formats .f32)
    (hacc : (0x00000000#32 : BitVec 32) = FKind.add.neutral .f32 hφ) (r : Fin 2048) :
    multiReduction .add [1] S2048 P 0x00000000#32 h hφ hacc (ix1 r) = ∑ c : Fin 64, P (ix2 r c) := by
  refine (Ideal.multiReduction_add_single P _ h hφ hacc (ix1 r)).trans ?_
  show ∑ c : Fin 64, P (h.lift (ix1 r) c) = _
  exact Finset.sum_congr rfl fun c _ => by rw [lift_row]

theorem cast_col_apply {α : Type} (v : S2048.Idx → α) (h : S2048.ShapeCasts S2048x1) (r : Fin 2048) (u : Fin 1) :
    shapeCast S2048x1 v h (ix2 r u) = v (ix1 r) :=
  shapeCast_apply v h _ _ (by
    have hu : u.val = 0 := by omega
    rw [Shape.rowMajor_val_two, Shape.rowMajor_val_one]
    show r.val = r.val * 1 + u.val
    omega)

theorem bcast_col_apply {α : Type} (v : S2048x1.Idx → α) (h : S2048x1.Broadcasts S2048x64) (r : Fin 2048) (c : Fin 64) :
    broadcastTo S2048x64 v h (ix2 r c) = v (ix2 r 0) :=
  broadcastTo_apply v h _ _ (fun a => by
    match a with
    | ⟨0, _⟩ => exact (if_neg (show ¬ (2048 : ℕ) = 1 by decide)).symm
    | ⟨1, _⟩ => exact (if_pos rfl).symm)

section Norm
variable (Z : FVec Ideal S2048x64 .f32) (r : Fin 2048) (z : Fin 64 → EReal) (hz : ∀ c, Z (ix2 r c) = z c)
include hz

theorem mx_apply (h : S2048x64.Reduces [1] S2048) (hφ : FKind.Formats .f32)
    (hacc : (0xFF800000#32 : BitVec 32) = FKind.maximumf.neutral .f32 hφ) (hc : S2048.ShapeCasts S2048x1) (u : Fin 1) :
    shapeCast S2048x1 (multiReduction .maximumf [1] S2048 Z 0xFF800000#32 h hφ hacc) hc (ix2 r u) = Spec.rmax z := by
  refine (cast_col_apply _ hc r u).trans ((rowmax_apply Z h hφ hacc r).trans ?_)
  unfold Spec.rmax
  exact congrArg (fun f => (Finset.univ : Finset (Fin 64)).fold max ⊥ f) (funext hz)

theorem ex_apply (M : FVec Ideal S2048x1 .f32) (hM : M (ix2 r 0) = Spec.rmax z) (hb : S2048x1.Broadcasts S2048x64)
    (c : Fin 64) : exp (subf Z (broadcastTo S2048x64 M hb)) (ix2 r c) = Spec.ex z c := by
  show Ideal.exp (Z (ix2 r c) - broadcastTo S2048x64 M hb (ix2 r c)) = _
  rw [bcast_col_apply, hz, hM]; rfl

theorem lsm_apply (M S : FVec Ideal S2048x1 .f32) (hM : M (ix2 r 0) = Spec.rmax z) (hS : S (ix2 r 0) = Spec.se z)
    (hb : S2048x1.Broadcasts S2048x64) (c : Fin 64) :
    subf (subf Z (broadcastTo S2048x64 M hb)) (broadcastTo S2048x64 (log S) hb) (ix2 r c) = Spec.lsm z c := by
  show (Z (ix2 r c) - broadcastTo S2048x64 M hb (ix2 r c)) - broadcastTo S2048x64 (log S) hb (ix2 r c) = _
  rw [bcast_col_apply, bcast_col_apply, hz, hM]
  show (z c - Spec.rmax z) - Ideal.log (S (ix2 r 0)) = _
  rw [hS]; rfl

end Norm

section Norm2
variable (E : FVec Ideal S2048x64 .f32) (r : Fin 2048) (z : Fin 64 → EReal) (hE : ∀ c, E (ix2 r c) = Spec.ex z c)
include hE

theorem ssum_apply (h : S2048x64.Reduces [1] S2048) (hφ : FKind.Formats .f32)
    (hacc : (0x00000000#32 : BitVec 32) = FKind.add.neutral .f32 hφ) :
    multiReduction .add [1] S2048 E 0x00000000#32 h hφ hacc (ix1 r) = Spec.se z := by
  refine (rowsum_apply E h hφ hacc r).trans ?_
  unfold Spec.se
  exact Finset.sum_congr rfl fun c _ => hE c

theorem se_apply (h : S2048x64.Reduces [1] S2048) (hφ : FKind.Formats .f32)
    (hacc : (0x00000000#32 : BitVec 32) = FKind.add.neutral .f32 hφ) (hc : S2048.ShapeCasts S2048x1) (u : Fin 1) :
    shapeCast S2048x1 (multiReduction .add [1] S2048 E 0x00000000#32 h hφ hacc) hc (ix2 r u) = Spec.se z :=
  (cast_col_apply _ hc r u).trans (ssum_apply E r z hE h hφ hacc)

theorem sm_apply (S : FVec Ideal S2048x1 .f32) (hS : S (ix2 r 0) = Spec.se z) (hb : S2048x1.Broadcasts S2048x64) (c : Fin 64) :
    divf E (broadcastTo S2048x64 S hb) (ix2 r c) = Spec.sm z c := by
  show Ideal.div (E (ix2 r c)) (broadcastTo S2048x64 S hb (ix2 r c)) = _
  rw [bcast_col_apply, hE, hS]; rfl

end Norm2

theorem tot_sum (P : S2048x64.Idx → EReal) (h : S2048x64.ShapeCasts S1x2048x64) :
    ∑ i : S1x2048x64.Idx, shapeCast S1x2048x64 P h i = ∑ r : Fin 2048, ∑ c : Fin 64, P (ix2 r c) := by
  unfold shapeCast
  rw [Equiv.sum_comp (Shape.reshapeEquiv h) P]
  exact sum_idx2 P

theorem tot_apply (P : FVec Ideal S2048x64 .f32) (hcast : S2048x64.ShapeCasts S1x2048x64) (hred : S1x2048x64.Reduces [1, 2] S1)
    (hφ : FKind.Formats .f32) (hacc : (0x00000000#32 : BitVec 32) = FKind.add.neutral .f32 hφ) (hunit : S1.ShapeCasts S1x1x1)
    (hpos : ∀ a, (![0, 0, 0] : Fin 3 → ℕ) a < S1x1x1.size a) (i : S1.Idx) :
    broadcast S1 (extractAt ![0, 0, 0] (shapeCast S1x1x1
        (multiReduction .add [1, 2] S1 (shapeCast S1x2048x64 P hcast) 0x00000000#32 hred hφ hacc) hunit) hpos) i
      = ∑ r : Fin 2048, ∑ c : Fin 64, P (ix2 r c) := by
  show (multiReduction .add [1, 2] S1 (shapeCast S1x2048x64 P hcast) 0x00000000#32 hred hφ hacc)
      (Shape.reshapeEquiv hunit _) = _
  refine (Ideal.multiReduction_add_total _ _ hred (fun b => ?_) hφ hacc _).trans (tot_sum P hcast)
  match b with
  | ⟨0, _⟩ => rfl

theorem pair_apply (SM LB LA : FVec Ideal S2048x64 .f32) (za zb : Fin 2048 → Fin 64 → EReal)
    (hSM : ∀ r c, SM (ix2 r c) = Spec.sm (zb r) c) (hLB : ∀ r c, LB (ix2 r c) = Spec.lsm (zb r) c)
    (hLA : ∀ r c, LA (ix2 r c) = Spec.lsm (za r) c)
    (hcast : S2048x64.ShapeCasts S1x2048x64) (hred : S1x2048x64.Reduces [1, 2] S1)
    (hφ : FKind.Formats .f32) (hacc : (0x00000000#32 : BitVec 32) = FKind.add.neutral .f32 hφ) (hunit : S1.ShapeCasts S1x1x1)
    (hpos : ∀ a, (![0, 0, 0] : Fin 3 → ℕ) a < S1x1x1.size a) (i : S1.Idx) :
    broadcast S1 (extractAt ![0, 0, 0] (shapeCast S1x1x1
        (multiReduction .add [1, 2] S1 (shapeCast S1x2048x64 (mulf SM (subf LB LA)) hcast) 0x00000000#32 hred hφ hacc) hunit) hpos) i
      = ∑ r : Fin 2048, Spec.klRow (za r) (zb r) := by
  refine (tot_apply (mulf SM (subf LB LA)) hcast hred hφ hacc hunit hpos i).trans ?_
  refine Finset.sum_congr rfl fun r _ => ?_
  unfold Spec.klRow
  refine Finset.sum_congr rfl fun c _ => ?_
  show SM (ix2 r c) * (LB (ix2 r c) - LA (ix2 r c)) = _
  rw [hSM, hLB, hLA]

-- Eight one-entry pieces laid end to end: entry `j` is piece `j`.
theorem cat8_apply {α : Type} (p0 p1 p2 p3 p4 p5 p6 p7 : S1.Idx → α)
    (h : Shape.Concatenates ([(⟨S1, p0⟩ : (s : Shape) × (s.Idx → α)), ⟨S1, p1⟩, ⟨S1, p2⟩, ⟨S1, p3⟩, ⟨S1, p4⟩, ⟨S1, p5⟩, ⟨S1, p6⟩, ⟨S1, p7⟩].map (·.1)) S8 0)
    (j : Fin 8) :
    concatenate S8 0 [⟨S1, p0⟩, ⟨S1, p1⟩, ⟨S1, p2⟩, ⟨S1, p3⟩, ⟨S1, p4⟩, ⟨S1, p5⟩, ⟨S1, p6⟩, ⟨S1, p7⟩] h (ix1 j)
      = (match j with
          | ⟨0, _⟩ => p0 | ⟨1, _⟩ => p1 | ⟨2, _⟩ => p2 | ⟨3, _⟩ => p3
          | ⟨4, _⟩ => p4 | ⟨5, _⟩ => p5 | ⟨6, _⟩ => p6 | ⟨_ + 7, _⟩ => p7) (ix1 0) := by
  refine (concatenate_ofFn_unit_apply (t := S8) (s₁ := S1) 0 ![p0, p1, p2, p3, p4, p5, p6, p7] h rfl rfl (ix1 j) j rfl (ix1 0)
    fun b hb => absurd (Fin.ext (Nat.lt_one_iff.mp b.isLt)) hb).trans ?_
  match j with
  | ⟨0, _⟩ => rfl | ⟨1, _⟩ => rfl | ⟨2, _⟩ => rfl | ⟨3, _⟩ => rfl
  | ⟨4, _⟩ => rfl | ⟨5, _⟩ => rfl | ⟨6, _⟩ => rfl | ⟨7, _⟩ => rfl

end Cert.KernelIdeal.KL

end
-- ==== Proof.KV.R1Pay.lean ====
import proofs.«417377_j33337536151700_1_alg».proof.Proof.KV.Band
import proofs.«417377_j33337536151700_1_alg».proof.Proof.Gen.KernelIdeal.Skeleton

noncomputable section

namespace Cert.KernelIdeal.Val

open Idealize.ShloMosaic Idealize.ShloMosaic.ValueIdx Cert.KernelIdeal Cert.KernelIdeal.Gen Cert.KernelIdeal.KL

theorem k1_pay3_apply (x : Vec Ideal S2048x256 .f32) (w : Vec Ideal S256x192 .bf16) (r : Fin 2048) (q : Fin 192) :
    k1_pay3 x w (ix2 r q) = ∑ d : Fin 256, x (ix2 r d) * w (ix2 d q) := by
  unfold k1_pay3
  simp only [shapeCast_self]
  exact prod_apply (truncf .bf16 x bitsLt_bf16_f32) w r q

theorem k1_pay4_apply (x : Vec Ideal S2048x256 .f32) (w : Vec Ideal S256x192 .bf16) (r : Fin 2048) (c : Fin 64) : k1_pay4 x w (ix2 r c) = sc x w 0 r c := by
  unfold k1_pay4
  exact band_apply x w (k1_pay3 x w) (k1_pay3_apply x w) 0 0 rfl _ r c

theorem k1_pay5_apply (x : Vec Ideal S2048x256 .f32) (w : Vec Ideal S256x192 .bf16) (r : Fin 2048) (c : Fin 64) : k1_pay5 x w (ix2 r c) = sc x w 1 r c := by
  unfold k1_pay5
  exact band_apply x w (k1_pay3 x w) (k1_pay3_apply x w) 1 64 rfl _ r c

theorem k1_pay6_apply (x : Vec Ideal S2048x256 .f32) (w : Vec Ideal S256x192 .bf16) (r : Fin 2048) (c : Fin 64) : k1_pay6 x w (ix2 r c) = sc x w 2 r c := by
  unfold k1_pay6
  exact band_apply x w (k1_pay3 x w) (k1_pay3_apply x w) 2 128 rfl _ r c

theorem k1_pay7_apply (x : Vec Ideal S2048x256 .f32) (w : Vec Ideal S256x192 .bf16) (r : Fin 2048) (u : Fin 1) :
    k1_pay7 x w (ix2 r u) = Spec.rmax (sc x w 0 r) := by
  unfold k1_pay7
  exact mx_apply (k1_pay4 x w) r _ (k1_pay4_apply x w r) _ _ _ _ u

theorem k1_pay8_apply (x : Vec Ideal S2048x256 .f32) (w : Vec Ideal S256x192 .bf16) (r : Fin 2048) (c : Fin 64) :
    k1_pay8 x w (ix2 r c) = Spec.ex (sc x w 0 r) c := by
  unfold k1_pay8
  exact ex_apply (k1_pay4 x w) r _ (k1_pay4_apply x w r) (k1_pay7 x w) (k1_pay7_apply x w r 0) _ c

theorem k1_pay9_apply (x : Vec Ideal S2048x256 .f32) (w : Vec Ideal S256x192 .bf16) (r : Fin 2048) (u : Fin 1) :
    k1_pay9 x w (ix2 r u) = Spec.se (sc x w 0 r) := by
  unfold k1_pay9
  exact se_apply (k1_pay8 x w) r _ (k1_pay8_apply x w r) _ _ _ _ u

theorem k1_pay10_apply (x : Vec Ideal S2048x256 .f32) (w : Vec Ideal S256x192 .bf16) (r : Fin 2048) (c : Fin 64) :
    k1_pay10 x w (ix2 r c) = Spec.lsm (sc x w 0 r) c := by
  unfold k1_pay10
  exact lsm_apply (k1_pay4 x w) r _ (k1_pay4_apply x w r) (k1_pay7 x w) (k1_pay9 x w)
    (k1_pay7_apply x w r 0) (k1_pay9_apply x w r 0) _ c

theorem k1_pay11_apply (x : Vec Ideal S2048x256 .f32) (w : Vec Ideal S256x192 .bf16) (r : Fin 2048) (c : Fin 64) :
    k1_pay11 x w (ix2 r c) = Spec.sm (sc x w 0 r) c := by
  unfold k1_pay11
  exact sm_apply (k1_pay8 x w) r _ (k1_pay8_apply x w r) (k1_pay9 x w) (k1_pay9_apply x w r 0) _ c

theorem k1_pay12_apply (x : Vec Ideal S2048x256 .f32) (w : Vec Ideal S256x192 .bf16) (r : Fin 2048) (u : Fin 1) :
    k1_pay12 x w (ix2 r u) = Spec.rmax (sc x w 1 r) := by
  unfold k1_pay12
  exact mx_apply (k1_pay5 x w) r _ (k1_pay5_apply x w r) _ _ _ _ u

theorem k1_pay13_apply (x : Vec Ideal S2048x256 .f32) (w : Vec Ideal S256x192 .bf16) (r : Fin 2048) (c : Fin 64) :
    k1_pay13 x w (ix2 r c) = Spec.ex (sc x w 1 r) c := by
  unfold k1_pay13
  exact ex_apply (k1_pay5 x w) r _ (k1_pay5_apply x w r) (k1_pay12 x w) (k1_pay12_apply x w r 0) _ c

theorem k1_pay14_apply (x : Vec Ideal S2048x256 .f32) (w : Vec Ideal S256x192 .bf16) (r : Fin 2048) (u : Fin 1) :
    k1_pay14 x w (ix2 r u) = Spec.se (sc x w 1 r) := by
  unfold k1_pay14
  exact se_apply (k1_pay13 x w) r _ (k1_pay13_apply x w r) _ _ _ _ u

theorem k1_pay15_apply (x : Vec Ideal S2048x256 .f32) (w : Vec Ideal S256x192 .bf16) (r : Fin 2048) (c : Fin 64) :
    k1_pay15 x w (ix2 r c) = Spec.lsm (sc x w 1 r) c := by
  unfold k1_pay15
  exact lsm_apply (k1_pay5 x w) r _ (k1_pay5_apply x w r) (k1_pay12 x w) (k1_pay14 x w)
    (k1_pay12_apply x w r 0) (k1_pay14_apply x w r 0) _ c

theorem k1_pay16_apply (x : Vec Ideal S2048x256 .f32) (w : Vec Ideal S256x192 .bf16) (r : Fin 2048) (c : Fin 64) :
    k1_pay16 x w (ix2 r c) = Spec.sm (sc x w 1 r) c := by
  unfold k1_pay16
  exact sm_apply (k1_pay13 x w) r _ (k1_pay13_apply x w r) (k1_pay14 x w) (k1_pay14_apply x w r 0) _ c

theorem k1_pay17_apply (x : Vec Ideal S2048x256 .f32) (w : Vec Ideal S256x192 .bf16) (r : Fin 2048) (u : Fin 1) :
    k1_pay17 x w (ix2 r u) = Spec.rmax (sc x w 2 r) := by
  unfold k1_pay17
  exact mx_apply (k1_pay6 x w) r _ (k1_pay6_apply x w r) _ _ _ _ u

theorem k1_pay18_apply (x : Vec Ideal S2048x256 .f32) (w : Vec Ideal S256x192 .bf16) (r : Fin 2048) (c : Fin 64) :
    k1_pay18 x w (ix2 r c) = Spec.ex (sc x w 2 r) c := by
  unfold k1_pay18
  exact ex_apply (k1_pay6 x w) r _ (k1_pay6_apply x w r) (k1_pay17 x w) (k1_pay17_apply x w r 0) _ c

theorem k1_pay19_apply (x : Vec Ideal S2048x256 .f32) (w : Vec Ideal S256x192 .bf16) (r : Fin 2048) : k1_pay19 x w (ix1 r) = Spec.se (sc x w 2 r) := by
  unfold k1_pay19
  exact ssum_apply (k1_pay18 x w) r _ (k1_pay18_apply x w r) _ _ _

theorem k1_pay20_apply (x : Vec Ideal S2048x256 .f32) (w : Vec Ideal S256x192 .bf16) (r : Fin 2048) (u : Fin 1) :
    k1_pay20 (k1_pay19 x w) (ix2 r u) = Spec.se (sc x w 2 r) := by
  unfold k1_pay20
  exact (cast_col_apply _ _ r u).trans (k1_pay19_apply x w r)

theorem k1_pay21_apply (x : Vec Ideal S2048x256 .f32) (w : Vec Ideal S256x192 .bf16) (r : Fin 2048) (c : Fin 64) :
    k1_pay21 (k1_pay6 x w) (k1_pay17 x w) (k1_pay19 x w) (ix2 r c) = Spec.lsm (sc x w 2 r) c := by
  unfold k1_pay21
  exact lsm_apply (k1_pay6 x w) r _ (k1_pay6_apply x w r) (k1_pay17 x w) (k1_pay20 (k1_pay19 x w))
    (k1_pay17_apply x w r 0) (k1_pay20_apply x w r 0) _ c

theorem k1_pay22_apply (x : Vec Ideal S2048x256 .f32) (w : Vec Ideal S256x192 .bf16) (r : Fin 2048) (c : Fin 64) :
    k1_pay22 (k1_pay18 x w) (k1_pay19 x w) (ix2 r c) = Spec.sm (sc x w 2 r) c := by
  unfold k1_pay22
  exact sm_apply (k1_pay18 x w) r _ (k1_pay18_apply x w r) (k1_pay20 (k1_pay19 x w)) (k1_pay20_apply x w r 0) _ c

theorem k1_pay23_apply (x : Vec Ideal S2048x256 .f32) (w : Vec Ideal S256x192 .bf16) (i : S1.Idx) :
    k1_pay23 (k1_pay10 x w) (k1_pay15 x w) (k1_pay16 x w) i = ∑ r : Fin 2048, Spec.klRow (sc x w 0 r) (sc x w 1 r) := by
  unfold k1_pay23
  exact pair_apply (k1_pay16 x w) (k1_pay15 x w) (k1_pay10 x w) (sc x w 0) (sc x w 1) (k1_pay16_apply x w) (k1_pay15_apply x w) (k1_pay10_apply x w) _ _ _ _ _ _ i

theorem k1_pay24_apply (x : Vec Ideal S2048x256 .f32) (w : Vec Ideal S256x192 .bf16) (i : S1.Idx) :
    k1_pay24 (k1_pay10 x w) (k1_pay11 x w) (k1_pay15 x w) i = ∑ r : Fin 2048, Spec.klRow (sc x w 1 r) (sc x w 0 r) := by
  unfold k1_pay24
  exact pair_apply (k1_pay11 x w) (k1_pay10 x w) (k1_pay15 x w) (sc x w 1) (sc x w 0) (k1_pay11_apply x w) (k1_pay10_apply x w) (k1_pay15_apply x w) _ _ _ _ _ _ i

theorem k1_pay25_apply (x : Vec Ideal S2048x256 .f32) (w : Vec Ideal S256x192 .bf16) (i : S1.Idx) :
    k1_pay25 (k1_pay6 x w) (k1_pay10 x w) (k1_pay17 x w) (k1_pay18 x w) (k1_pay19 x w) i = ∑ r : Fin 2048, Spec.klRow (sc x w 0 r) (sc x w 2 r) := by
  unfold k1_pay25
  exact pair_apply (k1_pay22 (k1_pay18 x w) (k1_pay19 x w)) (k1_pay21 (k1_pay6 x w) (k1_pay17 x w) (k1_pay19 x w)) (k1_pay10 x w) (sc x w 0) (sc x w 2) (k1_pay22_apply x w) (k1_pay21_apply x w) (k1_pay10_apply x w) _ _ _ _ _ _ i

theorem k1_pay26_apply (x : Vec Ideal S2048x256 .f32) (w : Vec Ideal S256x192 .bf16) (i : S1.Idx) :
    k1_pay26 (k1_pay6 x w) (k1_pay10 x w) (k1_pay11 x w) (k1_pay17 x w) (k1_pay19 x w) i = ∑ r : Fin 2048, Spec.klRow (sc x w 2 r) (sc x w 0 r) := by
  unfold k1_pay26
  exact pair_apply (k1_pay11 x w) (k1_pay10 x w) (k1_pay21 (k1_pay6 x w) (k1_pay17 x w) (k1_pay19 x w)) (sc x w 2) (sc x w 0) (k1_pay11_apply x w) (k1_pay10_apply x w) (k1_pay21_apply x w) _ _ _ _ _ _ i

theorem k1_pay27_apply (x : Vec Ideal S2048x256 .f32) (w : Vec Ideal S256x192 .bf16) (i : S1.Idx) :
    k1_pay27 (k1_pay6 x w) (k1_pay15 x w) (k1_pay17 x w) (k1_pay18 x w) (k1_pay19 x w) i = ∑ r : Fin 2048, Spec.klRow (sc x w 1 r) (sc x w 2 r) := by
  unfold k1_pay27
  exact pair_apply (k1_pay22 (k1_pay18 x w) (k1_pay19 x w)) (k1_pay21 (k1_pay6 x w) (k1_pay17 x w) (k1_pay19 x w)) (k1_pay15 x w) (sc x w 1) (sc x w 2) (k1_pay22_apply x w) (k1_pay21_apply x w) (k1_pay15_apply x w) _ _ _ _ _ _ i

theorem k1_pay28_apply (x : Vec Ideal S2048x256 .f32) (w : Vec Ideal S256x192 .bf16) (i : S1.Idx) :
    k1_pay28 (k1_pay6 x w) (k1_pay15 x w) (k1_pay16 x w) (k1_pay17 x w) (k1_pay19 x w) i = ∑ r : Fin 2048, Spec.klRow (sc x w 2 r) (sc x w 1 r) := by
  unfold k1_pay28
  exact pair_apply (k1_pay16 x w) (k1_pay15 x w) (k1_pay21 (k1_pay6 x w) (k1_pay17 x w) (k1_pay19 x w)) (sc x w 2) (sc x w 1) (k1_pay16_apply x w) (k1_pay15_apply x w) (k1_pay21_apply x w) _ _ _ _ _ _ i

def k1_vec (x : Vec Ideal S2048x256 .f32) (w : Vec Ideal S256x192 .bf16) (acc : Vec Ideal S1x8 .f32) : FVec Ideal S1x8 .f32 :=
  k1_pay1 (k1_pay23 (k1_pay10 x w) (k1_pay15 x w) (k1_pay16 x w)) (k1_pay24 (k1_pay10 x w) (k1_pay11 x w) (k1_pay15 x w))
    (k1_pay25 (k1_pay6 x w) (k1_pay10 x w) (k1_pay17 x w) (k1_pay18 x w) (k1_pay19 x w)) (k1_pay26 (k1_pay6 x w) (k1_pay10 x w) (k1_pay11 x w) (k1_pay17 x w) (k1_pay19 x w))
    (k1_pay27 (k1_pay6 x w) (k1_pay15 x w) (k1_pay17 x w) (k1_pay18 x w) (k1_pay19 x w)) (k1_pay28 (k1_pay6 x w) (k1_pay15 x w) (k1_pay16 x w) (k1_pay17 x w) (k1_pay19 x w))
    k1_pay29 k1_pay30 acc

theorem k1_vec_apply (x : Vec Ideal S2048x256 .f32) (w : Vec Ideal S256x192 .bf16) (acc : Vec Ideal S1x8 .f32) (u : Fin 1) (j : Fin 8) :
    k1_vec x w acc (ix2 u j) = acc (ix2 u j) + tileTot x w j := by
  unfold k1_vec k1_pay1
  simp only [shapeCast_self]
  refine congrArg (acc (ix2 u j) + ·) ?_
  refine (shapeCast_a_1a_apply _ _ u j).trans ((cat8_apply _ _ _ _ _ _ _ _ _ j).trans ?_)
  unfold tileTot
  match j with
  | ⟨0, _⟩ => rw [dif_pos (by simp)]; exact k1_pay23_apply x w _
  | ⟨1, _⟩ => rw [dif_pos (by simp)]; exact k1_pay24_apply x w _
  | ⟨2, _⟩ => rw [dif_pos (by simp)]; exact k1_pay25_apply x w _
  | ⟨3, _⟩ => rw [dif_pos (by simp)]; exact k1_pay26_apply x w _
  | ⟨4, _⟩ => rw [dif_pos (by simp)]; exact k1_pay27_apply x w _
  | ⟨5, _⟩ => rw [dif_pos (by simp)]; exact k1_pay28_apply x w _
  | ⟨6, _⟩ => rw [dif_neg (by simp)]; exact Ideal.ofBits_zero_f32
  | ⟨7, _⟩ => rw [dif_neg (by simp)]; exact Ideal.ofBits_zero_f32

theorem k1_pay2_apply (i : S1x8.Idx) : k1_pay2 (F := Ideal) i = 0 := Ideal.ofBits_zero_f32

end Cert.KernelIdeal.Val

end
-- ==== Proof.KV.R1Value.lean ====
import proofs.«417377_j33337536151700_1_alg».proof.Proof.K.R1
import proofs.«417377_j33337536151700_1_alg».proof.Proof.KV.R1Pay
import proofs.«417377_j33337536151700_1_alg».proof.Proof.Math
import Idealize.ShloMosaic.Lib.Pipeline.Value
import Idealize.ShloMosaic.Lib.Tactic

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.KL

theorem hzero : (![0, 0] : Fin 2 → Nat) = fun _ => 0 := funext fun a => by fin_cases a <;> rfl

theorem out1_B_2_eq (c : Dev nD) (i : grid1.Coords) (aA : Memref sig .tc .vmem S2048x256 .f32) (haA : aA.IsWhole)
    (aB : Memref sig .tc .vmem S256x192 .bf16) (haB : aB.IsWhole) (aC : Memref sig .tc .vmem S1x8 .f32) (haC : aC.IsWhole)
    (hc0 : ¬Fr.cond1 i) (x0 : Vec Ideal S2048x256 .f32) (xA : Vec Ideal S256x192 .bf16) (xo : Vec Ideal S1x8 .f32) :
    Fr.out1_B_2 c i aA haA aB haB aC haC hc0 x0 xA xo = k1_vec x0 xA xo := by
  unfold Fr.out1_B_2
  rw [View.read_writes_eq_canon _ _ _ (Fr.cover1_B_2 c i aA haA aB haB aC haC hc0 x0 xA xo)]
  unfold Fr.kernelRun1_B
  dsimp only
  sl_unfold_words
  rw [View.canon_unit_zero hzero]
  unfold k1_vec
  simp only [View.readAt_eq_ld, haA.read_unread, haB.read_unread, haC.read_unread, View.ld_unit_zero (S := S2048x256) hzero,
    View.ld_unit_zero (S := S256x192) hzero, View.ld_unit_zero (S := S1x8) hzero]

theorem out1_A_2_eq (c : Dev nD) (i : grid1.Coords) (aA : Memref sig .tc .vmem S2048x256 .f32) (haA : aA.IsWhole)
    (aB : Memref sig .tc .vmem S256x192 .bf16) (haB : aB.IsWhole) (aC : Memref sig .tc .vmem S1x8 .f32) (haC : aC.IsWhole)
    (hc0 : Fr.cond1 i) (x0 : Vec Ideal S2048x256 .f32) (xA : Vec Ideal S256x192 .bf16) :
    Fr.out1_A_2 c i aA haA aB haB aC haC hc0 x0 xA = k1_vec x0 xA (k1_pay2 (F := Ideal)) := by
  unfold Fr.out1_A_2
  rw [View.read_writes_eq_canon _ _ _ (Fr.cover1_A_2 c i aA haA aB haB aC haC hc0 x0 xA)]
  unfold Fr.kernelRun1_A
  dsimp only
  sl_unfold_words
  rw [View.canon_cons_unit_zero (S := S1x8) hzero, View.readCov_unit_zero (S := S1x8) _ hzero]
  unfold k1_vec
  simp only [View.readAt_eq_ld, haA.read_unread, haB.read_unread, View.ld_unit_zero (S := S2048x256) hzero,
    View.ld_unit_zero (S := S256x192) hzero, View.ld_unit_zero (S := S1x8) hzero]

section Region
variable (V : (c : Dev nD) → (b : Ref sig .tc) → Buf (Elt Ideal) ((c : Thread nD τ).loc b))

theorem k1_index_feat : ∀ t : Fin cfg1.N, win1_0.index t 0 = t.val ∧ win1_0.index t 1 = 0 :=
  (by decide +kernel : ∀ t : Fin grid1.N, win1_0.index t 0 = t.val ∧ win1_0.index t 1 = 0)

theorem k1_index_tab : ∀ t : Fin cfg1.N, win1_1.index t 0 = 0 ∧ win1_1.index t 1 = 0 :=
  (by decide +kernel : ∀ t : Fin grid1.N, win1_1.index t 0 = 0 ∧ win1_1.index t 1 = 0)

theorem k1_feat_apply (c : Dev nD) (t : Fin cfg1.N) (r : Fin 2048) (d : Fin 256) :
    (Fr.iblk1 V c 0 t : Vec Ideal S2048x256 .f32) (ix2 r d)
      = Cur.cur2 (V c main_arg0) ⟨2048 * t.val + r.val, by have := lt_of_lt_of_eq t.isLt (show cfg1.N = 32 from N_1); omega⟩ d := by
  unfold Fr.iblk1
  rw [View.read_apply]
  show V c main_arg0 _ = V c main_arg0 (ix2 _ d)
  congr 1
  funext a; apply Fin.ext
  match a with
  | ⟨0, _⟩ => show win1_0.index t 0 * 2048 + 1 * r.val = 2048 * t.val + r.val; rw [(k1_index_feat t).1]; omega
  | ⟨1, _⟩ => show win1_0.index t 1 * 256 + 1 * d.val = d.val; rw [(k1_index_feat t).2]; omega

theorem k1_tab_apply (c : Dev nD) (t : Fin cfg1.N) (d : Fin 256) (q : Fin 192) :
    (Fr.iblk1 V c 1 t : Vec Ideal S256x192 .bf16) (ix2 d q) = V c main_v26 (ix2 d q) := by
  unfold Fr.iblk1
  rw [View.read_apply]
  show V c main_v26 _ = V c main_v26 (ix2 d q)
  congr 1
  funext a; apply Fin.ext
  match a with
  | ⟨0, _⟩ => show win1_1.index t 0 * 256 + 1 * d.val = d.val; rw [(k1_index_tab t).1]; omega
  | ⟨1, _⟩ => show win1_1.index t 1 * 192 + 1 * q.val = q.val; rw [(k1_index_tab t).2]; omega

def k1_step (c : Dev nD) (j : Fin 8) (t : ℕ) : EReal :=
  if h : t < cfg1.N then tileTot (Fr.iblk1 V c 0 ⟨t, h⟩) (Fr.iblk1 V c 1 ⟨t, h⟩) j else 0

theorem outsAt1_eq (c : Dev nD) (u : Fin 1) (j : Fin 8) : ∀ (n : ℕ) (hn : n < cfg1.N),
    Fr.outsAt1 V c n hn (ix2 u j) = Math.chain 0 (k1_step V c j) n
  | 0, hn => by
    rw [Fr.outsAt1_A V c ⟨0, hn⟩ rfl, out1_A_2_eq, k1_vec_apply, k1_pay2_apply]
    show 0 + tileTot _ _ j = 0 + k1_step V c j 0
    unfold k1_step
    rw [dif_pos hn]
  | n + 1, hn => by
    have hN : cfg1.N = 32 := N_1
    have hB : ¬(⟨n + 1, hn⟩ : Fin cfg1.N).val % 32 = 0 := by dsimp only; omega
    rw [Fr.outsAt1_B V c ⟨n + 1, hn⟩ hB, out1_B_2_eq, k1_vec_apply]
    show Fr.outsAt1 V c n _ (ix2 u j) + tileTot _ _ j = Math.chain 0 (k1_step V c j) n + k1_step V c j (n + 1)
    rw [outsAt1_eq c u j n]
    refine congrArg (Math.chain 0 (k1_step V c j) n + ·) ?_
    unfold k1_step
    rw [dif_pos hn]

theorem k1_tile_eq (c : Dev nD) (t : Fin cfg1.N) (j : Fin 8) :
    tileTot (Fr.iblk1 V c 0 t) (Fr.iblk1 V c 1 t) j
      = if h : j.val < 6 then ∑ r : Fin 2048, Spec.rowTerm (Cur.tab (V c main_v26) 0) (Cur.tab (V c main_v26) 1) (Cur.tab (V c main_v26) 2)
          (Cur.cur2 (V c main_arg0) ⟨2048 * t.val + r.val, by have := lt_of_lt_of_eq t.isLt (show cfg1.N = 32 from N_1); omega⟩) ⟨j.val, h⟩
        else 0 := by
  unfold tileTot
  have hr : ∀ r : Fin 2048, rowOf (Fr.iblk1 V c 0 t) r
      = Cur.cur2 (V c main_arg0) ⟨2048 * t.val + r.val, by have := lt_of_lt_of_eq t.isLt (show cfg1.N = 32 from N_1); omega⟩ :=
    fun r => funext fun d => k1_feat_apply V c t r d
  have ht : ∀ b : Fin 3, Cur.tab (Fr.iblk1 V c 1 t : Vec Ideal S256x192 .bf16) b = Cur.tab (V c main_v26) b :=
    fun b => funext fun cc => funext fun d => k1_tab_apply V c t d _
  simp only [hr, ht]

def k1_result (c : Dev nD) : S1x8.Idx → EReal := fun i =>
  if h : (i 1).val < 6 then
    Spec.colTotal (Cur.tab (V c main_v26) 0) (Cur.tab (V c main_v26) 1) (Cur.tab (V c main_v26) 2) (Cur.cur2 (V c main_arg0)) ⟨(i 1).val, h⟩
  else 0

theorem k1_last_eq (c : Dev nD) (hl : 31 < cfg1.N) (u : Fin 1) (j : Fin 8) :
    Fr.outsAt1 V c 31 hl (ix2 u j) = k1_result V c (ix2 u j) := by
  rw [outsAt1_eq V c u j 31 hl, Math.chain_eq_fin, zero_add]
  have hN : cfg1.N = 32 := N_1
  have hg : ∀ t : Fin (31 + 1), k1_step V c j t.val
      = if h : j.val < 6 then ∑ r : Fin 2048, Spec.rowTerm (Cur.tab (V c main_v26) 0) (Cur.tab (V c main_v26) 1) (Cur.tab (V c main_v26) 2)
          (Cur.cur2 (V c main_arg0) ⟨2048 * t.val + r.val, by have := t.isLt; have := r.isLt; omega⟩) ⟨j.val, h⟩
        else 0 := fun t => by
    unfold k1_step
    rw [dif_pos (by have := t.isLt; omega)]
    exact k1_tile_eq V c ⟨t.val, _⟩ j
  rw [Finset.sum_congr rfl fun t _ => hg t]
  unfold k1_result
  show _ = if h : j.val < 6 then _ else 0
  by_cases h : j.val < 6
  · simp only [dif_pos h]
    unfold Spec.colTotal
    exact (Math.sum_32x2048 (fun n => Spec.rowTerm (Cur.tab (V c main_v26) 0) (Cur.tab (V c main_v26) 1) (Cur.tab (V c main_v26) 2)
      (Cur.cur2 (V c main_arg0) n) ⟨j.val, h⟩)).symm
  · simp only [dif_neg h, Finset.sum_const_zero]

theorem k1_index_out : ∀ t : Fin cfg1.N, win1_2.index t 0 = 0 ∧ win1_2.index t 1 = 0 :=
  (by decide +kernel : ∀ t : Fin grid1.N, win1_2.index t 0 = 0 ∧ win1_2.index t 1 = 0)

theorem k1_xsize_out : ∀ t : Fin cfg1.N, win1_2.xsize (grid1.coords t) 0 = 1 ∧ win1_2.xsize (grid1.coords t) 1 = 8 :=
  (by decide +kernel : ∀ t : Fin grid1.N, win1_2.xsize (grid1.coords t) 0 = 1 ∧ win1_2.xsize (grid1.coords t) 1 = 8)

theorem k1_flushed_eq (c : Dev nD) (t : Fin cfg1.N) (hf : (cfg1.win 2).flush t = true) :
    (Fr.dat1 V c).flushed 2 t = ((cfg1.win 2).blk t).view.read (Elt Ideal) (k1_result V c) := by
  have hN : cfg1.N = 32 := N_1
  have hlast : 31 < cfg1.N := hN ▸ (by decide : 31 < 32)
  have hl : t.val = 31 := by have := (flush1_2 t).mp hf; have := t.isLt; omega
  obtain rfl : t = ⟨31, hlast⟩ := Fin.ext hl
  show (cfg1.win 2).cut (grid1.coords ⟨31, hlast⟩) ((Fr.dat1 V c).after 2 ⟨31, hlast⟩) = _
  rw [Fr.after1_2]
  have hz' : (fun a => win1_2.index ⟨31, hlast⟩ a * main_v27.ty.shape.size a) = fun _ => 0 :=
    funext fun a => by
      match a with
      | ⟨0, _⟩ => show win1_2.index ⟨31, hlast⟩ 0 * _ = 0; rw [(k1_index_out _).1, Nat.zero_mul]
      | ⟨1, _⟩ => show win1_2.index ⟨31, hlast⟩ 1 * _ = 0; rw [(k1_index_out _).2, Nat.zero_mul]
  refine Eq.trans ?_ (Memref.read_access_unit_zero (Elt Ideal) main_v27 hz' (fun a => by rw [congrFun hz' a]; simp) (k1_result V c)).symm
  funext i
  obtain ⟨u, j, rfl⟩ : ∃ (u : Fin 1) (j : Fin 8), i = ix2 u j := ⟨i 0, i 1, eq_ix2 i⟩
  exact k1_last_eq V c _ u j

theorem k1_cover (i : S1x8.Idx) : ∃ t : Fin cfg1.N, (cfg1.win 2).flush t = true ∧ i ∈ ((cfg1.win 2).blk t).view.set := by
  have hN : cfg1.N = 32 := N_1
  have h0 : (i 0 : Nat) < 1 := (i 0).isLt
  have h1 : (i 1 : Nat) < 8 := (i 1).isLt
  have hlast : 31 < cfg1.N := hN ▸ (by decide : 31 < 32)
  refine ⟨⟨31, hlast⟩, (flush1_2 _).mpr rfl, ?_⟩
  show i ∈ ((View.whole main_v27).slice (win1_2.rect ⟨31, hlast⟩)).set
  rw [View.set_slice_whole, Rect.mem_set_unit]
  intro a
  match a with
  | ⟨0, _⟩ =>
    show win1_2.index ⟨31, hlast⟩ 0 * win1_2.size 0 ≤ (i 0 : Nat) ∧ (i 0 : Nat) < win1_2.index ⟨31, hlast⟩ 0 * win1_2.size 0 + win1_2.xsize (grid1.coords ⟨31, hlast⟩) 0
    rw [(k1_index_out _).1, (k1_xsize_out _).1, Nat.zero_mul]; omega
  | ⟨1, _⟩ =>
    show win1_2.index ⟨31, hlast⟩ 1 * win1_2.size 1 ≤ (i 1 : Nat) ∧ (i 1 : Nat) < win1_2.index ⟨31, hlast⟩ 1 * win1_2.size 1 + win1_2.xsize (grid1.coords ⟨31, hlast⟩) 1
    rw [(k1_index_out _).2, (k1_xsize_out _).2, Nat.zero_mul]; omega

theorem final1_2 (c : Dev nD) (j : Fin 8) : (Fr.dat1 V c).arrAt 2 cfg1.N (ix2 0 j)
    = if h : j.val < 6 then Spec.colTotal (Cur.tab (V c main_v26) 0) (Cur.tab (V c main_v26) 1) (Cur.tab (V c main_v26) 2) (Cur.cur2 (V c main_arg0)) ⟨j.val, h⟩ else 0 := by
  rw [(Fr.dat1 V c).arrAt_eq_of_cover 2 (k1_result V c) (k1_flushed_eq V c) k1_cover]
  rfl

end Region

end Cert.KernelIdeal.Val

end
-- ==== Proof.KV.R2Pay.lean ====
/-
  Region 2's payloads read at an index, at the ideal values: the product, its three bands, each band normalised
  (maximum, shifted exponentials, normaliser, log-softmax, softmax), the six whole-tile totals, and the eight-vector
  added to the running buffer.  Band `b` at row `r` is the score row of the block's row `r` against table `b`; the six
  totals are, in the printed order, the row contributions of `Cert.Spec.rowTerm` summed over the tile's rows.
-/
import proofs.«417377_j33337536151700_1_alg».proof.Proof.KV.Band
import proofs.«417377_j33337536151700_1_alg».proof.Proof.Gen.KernelIdeal.Skeleton

noncomputable section

namespace Cert.KernelIdeal.Val

open Idealize.ShloMosaic Idealize.ShloMosaic.ValueIdx Cert.KernelIdeal Cert.KernelIdeal.Gen Cert.KernelIdeal.KL

/-! ## The product and its bands -/

theorem k2_pay3_apply (x : Vec Ideal S2048x256 .f32) (w : Vec Ideal S256x192 .bf16) (r : Fin 2048) (q : Fin 192) :
    k2_pay3 x w (ix2 r q) = ∑ d : Fin 256, x (ix2 r d) * w (ix2 d q) := by
  unfold k2_pay3
  simp only [shapeCast_self]
  exact prod_apply (truncf .bf16 x bitsLt_bf16_f32) w r q

theorem k2_pay4_apply (x : Vec Ideal S2048x256 .f32) (w : Vec Ideal S256x192 .bf16) (r : Fin 2048) (c : Fin 64) : k2_pay4 x w (ix2 r c) = sc x w 0 r c := by
  unfold k2_pay4
  exact band_apply x w (k2_pay3 x w) (k2_pay3_apply x w) 0 0 rfl _ r c

theorem k2_pay5_apply (x : Vec Ideal S2048x256 .f32) (w : Vec Ideal S256x192 .bf16) (r : Fin 2048) (c : Fin 64) : k2_pay5 x w (ix2 r c) = sc x w 1 r c := by
  unfold k2_pay5
  exact band_apply x w (k2_pay3 x w) (k2_pay3_apply x w) 1 64 rfl _ r c

theorem k2_pay6_apply (x : Vec Ideal S2048x256 .f32) (w : Vec Ideal S256x192 .bf16) (r : Fin 2048) (c : Fin 64) : k2_pay6 x w (ix2 r c) = sc x w 2 r c := by
  unfold k2_pay6
  exact band_apply x w (k2_pay3 x w) (k2_pay3_apply x w) 2 128 rfl _ r c

/-! ## Each band normalised -/

/-! ### Band 0 -/

theorem k2_pay7_apply (x : Vec Ideal S2048x256 .f32) (w : Vec Ideal S256x192 .bf16) (r : Fin 2048) (u : Fin 1) :
    k2_pay7 x w (ix2 r u) = Spec.rmax (sc x w 0 r) := by
  unfold k2_pay7
  exact mx_apply (k2_pay4 x w) r _ (k2_pay4_apply x w r) _ _ _ _ u

theorem k2_pay8_apply (x : Vec Ideal S2048x256 .f32) (w : Vec Ideal S256x192 .bf16) (r : Fin 2048) (c : Fin 64) :
    k2_pay8 x w (ix2 r c) = Spec.ex (sc x w 0 r) c := by
  unfold k2_pay8
  exact ex_apply (k2_pay4 x w) r _ (k2_pay4_apply x w r) (k2_pay7 x w) (k2_pay7_apply x w r 0) _ c

theorem k2_pay9_apply (x : Vec Ideal S2048x256 .f32) (w : Vec Ideal S256x192 .bf16) (r : Fin 2048) (u : Fin 1) :
    k2_pay9 x w (ix2 r u) = Spec.se (sc x w 0 r) := by
  unfold k2_pay9
  exact se_apply (k2_pay8 x w) r _ (k2_pay8_apply x w r) _ _ _ _ u

theorem k2_pay10_apply (x : Vec Ideal S2048x256 .f32) (w : Vec Ideal S256x192 .bf16) (r : Fin 2048) (c : Fin 64) :
    k2_pay10 x w (ix2 r c) = Spec.lsm (sc x w 0 r) c := by
  unfold k2_pay10
  exact lsm_apply (k2_pay4 x w) r _ (k2_pay4_apply x w r) (k2_pay7 x w) (k2_pay9 x w)
    (k2_pay7_apply x w r 0) (k2_pay9_apply x w r 0) _ c

theorem k2_pay11_apply (x : Vec Ideal S2048x256 .f32) (w : Vec Ideal S256x192 .bf16) (r : Fin 2048) (c : Fin 64) :
    k2_pay11 x w (ix2 r c) = Spec.sm (sc x w 0 r) c := by
  unfold k2_pay11
  exact sm_apply (k2_pay8 x w) r _ (k2_pay8_apply x w r) (k2_pay9 x w) (k2_pay9_apply x w r 0) _ c

/-! ### Band 1 -/

theorem k2_pay12_apply (x : Vec Ideal S2048x256 .f32) (w : Vec Ideal S256x192 .bf16) (r : Fin 2048) (u : Fin 1) :
    k2_pay12 x w (ix2 r u) = Spec.rmax (sc x w 1 r) := by
  unfold k2_pay12
  exact mx_apply (k2_pay5 x w) r _ (k2_pay5_apply x w r) _ _ _ _ u

theorem k2_pay13_apply (x : Vec Ideal S2048x256 .f32) (w : Vec Ideal S256x192 .bf16) (r : Fin 2048) (c : Fin 64) :
    k2_pay13 x w (ix2 r c) = Spec.ex (sc x w 1 r) c := by
  unfold k2_pay13
  exact ex_apply (k2_pay5 x w) r _ (k2_pay5_apply x w r) (k2_pay12 x w) (k2_pay12_apply x w r 0) _ c

theorem k2_pay14_apply (x : Vec Ideal S2048x256 .f32) (w : Vec Ideal S256x192 .bf16) (r : Fin 2048) (u : Fin 1) :
    k2_pay14 x w (ix2 r u) = Spec.se (sc x w 1 r) := by
  unfold k2_pay14
  exact se_apply (k2_pay13 x w) r _ (k2_pay13_apply x w r) _ _ _ _ u

theorem k2_pay15_apply (x : Vec Ideal S2048x256 .f32) (w : Vec Ideal S256x192 .bf16) (r : Fin 2048) (c : Fin 64) :
    k2_pay15 x w (ix2 r c) = Spec.lsm (sc x w 1 r) c := by
  unfold k2_pay15
  exact lsm_apply (k2_pay5 x w) r _ (k2_pay5_apply x w r) (k2_pay12 x w) (k2_pay14 x w)
    (k2_pay12_apply x w r 0) (k2_pay14_apply x w r 0) _ c

theorem k2_pay16_apply (x : Vec Ideal S2048x256 .f32) (w : Vec Ideal S256x192 .bf16) (r : Fin 2048) (c : Fin 64) :
    k2_pay16 x w (ix2 r c) = Spec.sm (sc x w 1 r) c := by
  unfold k2_pay16
  exact sm_apply (k2_pay13 x w) r _ (k2_pay13_apply x w r) (k2_pay14 x w) (k2_pay14_apply x w r 0) _ c

/-! ### Band 2 -/

theorem k2_pay17_apply (x : Vec Ideal S2048x256 .f32) (w : Vec Ideal S256x192 .bf16) (r : Fin 2048) (u : Fin 1) :
    k2_pay17 x w (ix2 r u) = Spec.rmax (sc x w 2 r) := by
  unfold k2_pay17
  exact mx_apply (k2_pay6 x w) r _ (k2_pay6_apply x w r) _ _ _ _ u

theorem k2_pay18_apply (x : Vec Ideal S2048x256 .f32) (w : Vec Ideal S256x192 .bf16) (r : Fin 2048) (c : Fin 64) :
    k2_pay18 x w (ix2 r c) = Spec.ex (sc x w 2 r) c := by
  unfold k2_pay18
  exact ex_apply (k2_pay6 x w) r _ (k2_pay6_apply x w r) (k2_pay17 x w) (k2_pay17_apply x w r 0) _ c

theorem k2_pay19_apply (x : Vec Ideal S2048x256 .f32) (w : Vec Ideal S256x192 .bf16) (r : Fin 2048) : k2_pay19 x w (ix1 r) = Spec.se (sc x w 2 r) := by
  unfold k2_pay19
  exact ssum_apply (k2_pay18 x w) r _ (k2_pay18_apply x w r) _ _ _

theorem k2_pay20_apply (x : Vec Ideal S2048x256 .f32) (w : Vec Ideal S256x192 .bf16) (r : Fin 2048) (u : Fin 1) :
    k2_pay20 (k2_pay19 x w) (ix2 r u) = Spec.se (sc x w 2 r) := by
  unfold k2_pay20
  exact (cast_col_apply _ _ r u).trans (k2_pay19_apply x w r)

theorem k2_pay21_apply (x : Vec Ideal S2048x256 .f32) (w : Vec Ideal S256x192 .bf16) (r : Fin 2048) (c : Fin 64) :
    k2_pay21 (k2_pay6 x w) (k2_pay17 x w) (k2_pay19 x w) (ix2 r c) = Spec.lsm (sc x w 2 r) c := by
  unfold k2_pay21
  exact lsm_apply (k2_pay6 x w) r _ (k2_pay6_apply x w r) (k2_pay17 x w) (k2_pay20 (k2_pay19 x w))
    (k2_pay17_apply x w r 0) (k2_pay20_apply x w r 0) _ c

theorem k2_pay22_apply (x : Vec Ideal S2048x256 .f32) (w : Vec Ideal S256x192 .bf16) (r : Fin 2048) (c : Fin 64) :
    k2_pay22 (k2_pay18 x w) (k2_pay19 x w) (ix2 r c) = Spec.sm (sc x w 2 r) c := by
  unfold k2_pay22
  exact sm_apply (k2_pay18 x w) r _ (k2_pay18_apply x w r) (k2_pay20 (k2_pay19 x w)) (k2_pay20_apply x w r 0) _ c

/-! ## The six totals of a tile, in the printed order -/

theorem k2_pay23_apply (x : Vec Ideal S2048x256 .f32) (w : Vec Ideal S256x192 .bf16) (i : S1.Idx) :
    k2_pay23 (k2_pay10 x w) (k2_pay15 x w) (k2_pay16 x w) i = ∑ r : Fin 2048, Spec.klRow (sc x w 0 r) (sc x w 1 r) := by
  unfold k2_pay23
  exact pair_apply (k2_pay16 x w) (k2_pay15 x w) (k2_pay10 x w) (sc x w 0) (sc x w 1) (k2_pay16_apply x w) (k2_pay15_apply x w) (k2_pay10_apply x w) _ _ _ _ _ _ i

theorem k2_pay24_apply (x : Vec Ideal S2048x256 .f32) (w : Vec Ideal S256x192 .bf16) (i : S1.Idx) :
    k2_pay24 (k2_pay10 x w) (k2_pay11 x w) (k2_pay15 x w) i = ∑ r : Fin 2048, Spec.klRow (sc x w 1 r) (sc x w 0 r) := by
  unfold k2_pay24
  exact pair_apply (k2_pay11 x w) (k2_pay10 x w) (k2_pay15 x w) (sc x w 1) (sc x w 0) (k2_pay11_apply x w) (k2_pay10_apply x w) (k2_pay15_apply x w) _ _ _ _ _ _ i

theorem k2_pay25_apply (x : Vec Ideal S2048x256 .f32) (w : Vec Ideal S256x192 .bf16) (i : S1.Idx) :
    k2_pay25 (k2_pay6 x w) (k2_pay10 x w) (k2_pay17 x w) (k2_pay18 x w) (k2_pay19 x w) i = ∑ r : Fin 2048, Spec.klRow (sc x w 0 r) (sc x w 2 r) := by
  unfold k2_pay25
  exact pair_apply (k2_pay22 (k2_pay18 x w) (k2_pay19 x w)) (k2_pay21 (k2_pay6 x w) (k2_pay17 x w) (k2_pay19 x w)) (k2_pay10 x w) (sc x w 0) (sc x w 2) (k2_pay22_apply x w) (k2_pay21_apply x w) (k2_pay10_apply x w) _ _ _ _ _ _ i

theorem k2_pay26_apply (x : Vec Ideal S2048x256 .f32) (w : Vec Ideal S256x192 .bf16) (i : S1.Idx) :
    k2_pay26 (k2_pay6 x w) (k2_pay10 x w) (k2_pay11 x w) (k2_pay17 x w) (k2_pay19 x w) i = ∑ r : Fin 2048, Spec.klRow (sc x w 2 r) (sc x w 0 r) := by
  unfold k2_pay26
  exact pair_apply (k2_pay11 x w) (k2_pay10 x w) (k2_pay21 (k2_pay6 x w) (k2_pay17 x w) (k2_pay19 x w)) (sc x w 2) (sc x w 0) (k2_pay11_apply x w) (k2_pay10_apply x w) (k2_pay21_apply x w) _ _ _ _ _ _ i

theorem k2_pay27_apply (x : Vec Ideal S2048x256 .f32) (w : Vec Ideal S256x192 .bf16) (i : S1.Idx) :
    k2_pay27 (k2_pay6 x w) (k2_pay15 x w) (k2_pay17 x w) (k2_pay18 x w) (k2_pay19 x w) i = ∑ r : Fin 2048, Spec.klRow (sc x w 1 r) (sc x w 2 r) := by
  unfold k2_pay27
  exact pair_apply (k2_pay22 (k2_pay18 x w) (k2_pay19 x w)) (k2_pay21 (k2_pay6 x w) (k2_pay17 x w) (k2_pay19 x w)) (k2_pay15 x w) (sc x w 1) (sc x w 2) (k2_pay22_apply x w) (k2_pay21_apply x w) (k2_pay15_apply x w) _ _ _ _ _ _ i

theorem k2_pay28_apply (x : Vec Ideal S2048x256 .f32) (w : Vec Ideal S256x192 .bf16) (i : S1.Idx) :
    k2_pay28 (k2_pay6 x w) (k2_pay15 x w) (k2_pay16 x w) (k2_pay17 x w) (k2_pay19 x w) i = ∑ r : Fin 2048, Spec.klRow (sc x w 2 r) (sc x w 1 r) := by
  unfold k2_pay28
  exact pair_apply (k2_pay16 x w) (k2_pay15 x w) (k2_pay21 (k2_pay6 x w) (k2_pay17 x w) (k2_pay19 x w)) (sc x w 2) (sc x w 1) (k2_pay16_apply x w) (k2_pay15_apply x w) (k2_pay21_apply x w) _ _ _ _ _ _ i

/-! ## The eight-vector added to the running buffer -/

/-- What the body stores over running contents `acc`: `acc` plus the eight-vector of the tile's totals. -/
def k2_vec (x : Vec Ideal S2048x256 .f32) (w : Vec Ideal S256x192 .bf16) (acc : Vec Ideal S1x8 .f32) : FVec Ideal S1x8 .f32 :=
  k2_pay1 (k2_pay23 (k2_pay10 x w) (k2_pay15 x w) (k2_pay16 x w)) (k2_pay24 (k2_pay10 x w) (k2_pay11 x w) (k2_pay15 x w))
    (k2_pay25 (k2_pay6 x w) (k2_pay10 x w) (k2_pay17 x w) (k2_pay18 x w) (k2_pay19 x w)) (k2_pay26 (k2_pay6 x w) (k2_pay10 x w) (k2_pay11 x w) (k2_pay17 x w) (k2_pay19 x w))
    (k2_pay27 (k2_pay6 x w) (k2_pay15 x w) (k2_pay17 x w) (k2_pay18 x w) (k2_pay19 x w)) (k2_pay28 (k2_pay6 x w) (k2_pay15 x w) (k2_pay16 x w) (k2_pay17 x w) (k2_pay19 x w))
    k2_pay29 k2_pay30 acc

theorem k2_vec_apply (x : Vec Ideal S2048x256 .f32) (w : Vec Ideal S256x192 .bf16) (acc : Vec Ideal S1x8 .f32) (u : Fin 1) (j : Fin 8) :
    k2_vec x w acc (ix2 u j) = acc (ix2 u j) + tileTot x w j := by
  unfold k2_vec k2_pay1
  simp only [shapeCast_self]
  refine congrArg (acc (ix2 u j) + ·) ?_
  refine (shapeCast_a_1a_apply _ _ u j).trans ((cat8_apply _ _ _ _ _ _ _ _ _ j).trans ?_)
  unfold tileTot
  match j with
  | ⟨0, _⟩ => rw [dif_pos (by simp)]; exact k2_pay23_apply x w _
  | ⟨1, _⟩ => rw [dif_pos (by simp)]; exact k2_pay24_apply x w _
  | ⟨2, _⟩ => rw [dif_pos (by simp)]; exact k2_pay25_apply x w _
  | ⟨3, _⟩ => rw [dif_pos (by simp)]; exact k2_pay26_apply x w _
  | ⟨4, _⟩ => rw [dif_pos (by simp)]; exact k2_pay27_apply x w _
  | ⟨5, _⟩ => rw [dif_pos (by simp)]; exact k2_pay28_apply x w _
  | ⟨6, _⟩ => rw [dif_neg (by simp)]; exact Ideal.ofBits_zero_f32
  | ⟨7, _⟩ => rw [dif_neg (by simp)]; exact Ideal.ofBits_zero_f32

/-- The reset block is zero. -/
theorem k2_pay2_apply (i : S1x8.Idx) : k2_pay2 (F := Ideal) i = 0 := Ideal.ofBits_zero_f32

end Cert.KernelIdeal.Val

end
-- ==== Proof.KV.R2Value.lean ====
/-
  What region 2 leaves in its output array, at the ideal values, for any contents of the arrays when the region is
  entered.

  At each of the 32 grid points the body scores the point's 2048 feature rows against the three class tables,
  normalises the three score rows of every feature row, and adds to a running [1,8] buffer the eight-vector whose
  first six slots are the six ordered-pair contributions summed over the tile's rows and whose last two slots are
  zero; the first point first resets the buffer to zero.  So after point `n` slot `j` holds zero plus the tiles'
  totals of points `0 … n` (induction on the point), and after the last point the total over all
  32 × 2048 = 65536 rows, which the one write-back puts into the whole output array.
-/
import proofs.«417377_j33337536151700_1_alg».proof.Proof.K.R2
import proofs.«417377_j33337536151700_1_alg».proof.Proof.KV.R2Pay
import proofs.«417377_j33337536151700_1_alg».proof.Proof.Math
import Idealize.ShloMosaic.Lib.Pipeline.Value
import Idealize.ShloMosaic.Lib.Tactic

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.KL

theorem hzero : (![0, 0] : Fin 2 → Nat) = fun _ => 0 := funext fun a => by fin_cases a <;> rfl

/-! ## What each case of the body leaves in the running buffer -/

/-- A later point: the running contents plus the tile's eight-vector. -/
theorem out2_B_2_eq (c : Dev nD) (i : grid2.Coords) (aA : Memref sig .tc .vmem S2048x256 .f32) (haA : aA.IsWhole)
    (aB : Memref sig .tc .vmem S256x192 .bf16) (haB : aB.IsWhole) (aC : Memref sig .tc .vmem S1x8 .f32) (haC : aC.IsWhole)
    (hc0 : ¬Fr.cond2 i) (x0 : Vec Ideal S2048x256 .f32) (xA : Vec Ideal S256x192 .bf16) (xo : Vec Ideal S1x8 .f32) :
    Fr.out2_B_2 c i aA haA aB haB aC haC hc0 x0 xA xo = k2_vec x0 xA xo := by
  unfold Fr.out2_B_2
  rw [View.read_writes_eq_canon _ _ _ (Fr.cover2_B_2 c i aA haA aB haB aC haC hc0 x0 xA xo)]
  unfold Fr.kernelRun2_B
  dsimp only
  sl_unfold_words
  rw [View.canon_unit_zero hzero]
  unfold k2_vec
  simp only [View.readAt_eq_ld, haA.read_unread, haB.read_unread, haC.read_unread, View.ld_unit_zero (S := S2048x256) hzero,
    View.ld_unit_zero (S := S256x192) hzero, View.ld_unit_zero (S := S1x8) hzero]

/-- The first point: the reset block (read back from the reset store) plus the tile's eight-vector. -/
theorem out2_A_2_eq (c : Dev nD) (i : grid2.Coords) (aA : Memref sig .tc .vmem S2048x256 .f32) (haA : aA.IsWhole)
    (aB : Memref sig .tc .vmem S256x192 .bf16) (haB : aB.IsWhole) (aC : Memref sig .tc .vmem S1x8 .f32) (haC : aC.IsWhole)
    (hc0 : Fr.cond2 i) (x0 : Vec Ideal S2048x256 .f32) (xA : Vec Ideal S256x192 .bf16) :
    Fr.out2_A_2 c i aA haA aB haB aC haC hc0 x0 xA = k2_vec x0 xA (k2_pay2 (F := Ideal)) := by
  unfold Fr.out2_A_2
  rw [View.read_writes_eq_canon _ _ _ (Fr.cover2_A_2 c i aA haA aB haB aC haC hc0 x0 xA)]
  unfold Fr.kernelRun2_A
  dsimp only
  sl_unfold_words
  rw [View.canon_cons_unit_zero (S := S1x8) hzero, View.readCov_unit_zero (S := S1x8) _ hzero]
  unfold k2_vec
  simp only [View.readAt_eq_ld, haA.read_unread, haB.read_unread, View.ld_unit_zero (S := S2048x256) hzero,
    View.ld_unit_zero (S := S256x192) hzero, View.ld_unit_zero (S := S1x8) hzero]

/-! ## The windows' blocks, read off the region-entry arrays -/

section Region
variable (V : (c : Dev nD) → (b : Ref sig .tc) → Buf (Elt Ideal) ((c : Thread nD τ).loc b))

/-- Point `t` reads rows `2048 t … 2048 t + 2047` of the feature array, and the whole table. -/
theorem k2_index_feat : ∀ t : Fin cfg2.N, win2_0.index t 0 = t.val ∧ win2_0.index t 1 = 0 :=
  (by decide +kernel : ∀ t : Fin grid2.N, win2_0.index t 0 = t.val ∧ win2_0.index t 1 = 0)

theorem k2_index_tab : ∀ t : Fin cfg2.N, win2_1.index t 0 = 0 ∧ win2_1.index t 1 = 0 :=
  (by decide +kernel : ∀ t : Fin grid2.N, win2_1.index t 0 = 0 ∧ win2_1.index t 1 = 0)

theorem k2_feat_apply (c : Dev nD) (t : Fin cfg2.N) (r : Fin 2048) (d : Fin 256) :
    (Fr.iblk2 V c 0 t : Vec Ideal S2048x256 .f32) (ix2 r d)
      = Cur.cur2 (V c main_arg1) ⟨2048 * t.val + r.val, by have := lt_of_lt_of_eq t.isLt (show cfg2.N = 32 from N_2); omega⟩ d := by
  unfold Fr.iblk2
  rw [View.read_apply]
  show V c main_arg1 _ = V c main_arg1 (ix2 _ d)
  congr 1
  funext a; apply Fin.ext
  match a with
  | ⟨0, _⟩ => show win2_0.index t 0 * 2048 + 1 * r.val = 2048 * t.val + r.val; rw [(k2_index_feat t).1]; omega
  | ⟨1, _⟩ => show win2_0.index t 1 * 256 + 1 * d.val = d.val; rw [(k2_index_feat t).2]; omega

theorem k2_tab_apply (c : Dev nD) (t : Fin cfg2.N) (d : Fin 256) (q : Fin 192) :
    (Fr.iblk2 V c 1 t : Vec Ideal S256x192 .bf16) (ix2 d q) = V c main_v26 (ix2 d q) := by
  unfold Fr.iblk2
  rw [View.read_apply]
  show V c main_v26 _ = V c main_v26 (ix2 d q)
  congr 1
  funext a; apply Fin.ext
  match a with
  | ⟨0, _⟩ => show win2_1.index t 0 * 256 + 1 * d.val = d.val; rw [(k2_index_tab t).1]; omega
  | ⟨1, _⟩ => show win2_1.index t 1 * 192 + 1 * q.val = q.val; rw [(k2_index_tab t).2]; omega

/-! ## The running buffer after each point -/

/-- The tile's totals at point `t` (zero past the grid). -/
def k2_step (c : Dev nD) (j : Fin 8) (t : ℕ) : EReal :=
  if h : t < cfg2.N then tileTot (Fr.iblk2 V c 0 ⟨t, h⟩) (Fr.iblk2 V c 1 ⟨t, h⟩) j else 0

/-- After point `n` the running buffer holds, in slot `j`, zero plus the tiles' totals of points `0 … n`: the
    first point resets and adds, every later point adds. By induction on the point. -/
theorem outsAt2_eq (c : Dev nD) (u : Fin 1) (j : Fin 8) : ∀ (n : ℕ) (hn : n < cfg2.N),
    Fr.outsAt2 V c n hn (ix2 u j) = Math.chain 0 (k2_step V c j) n
  | 0, hn => by
    rw [Fr.outsAt2_A V c ⟨0, hn⟩ rfl, out2_A_2_eq, k2_vec_apply, k2_pay2_apply]
    show 0 + tileTot _ _ j = 0 + k2_step V c j 0
    unfold k2_step
    rw [dif_pos hn]
  | n + 1, hn => by
    have hN : cfg2.N = 32 := N_2
    have hB : ¬(⟨n + 1, hn⟩ : Fin cfg2.N).val % 32 = 0 := by dsimp only; omega
    rw [Fr.outsAt2_B V c ⟨n + 1, hn⟩ hB, out2_B_2_eq, k2_vec_apply]
    show Fr.outsAt2 V c n _ (ix2 u j) + tileTot _ _ j = Math.chain 0 (k2_step V c j) n + k2_step V c j (n + 1)
    rw [outsAt2_eq c u j n]
    refine congrArg (Math.chain 0 (k2_step V c j) n + ·) ?_
    unfold k2_step
    rw [dif_pos hn]

/-- A tile's totals over the region-entry arrays: the rows of the tile are rows `2048 t + r` of the feature array. -/
theorem k2_tile_eq (c : Dev nD) (t : Fin cfg2.N) (j : Fin 8) :
    tileTot (Fr.iblk2 V c 0 t) (Fr.iblk2 V c 1 t) j
      = if h : j.val < 6 then ∑ r : Fin 2048, Spec.rowTerm (Cur.tab (V c main_v26) 0) (Cur.tab (V c main_v26) 1) (Cur.tab (V c main_v26) 2)
          (Cur.cur2 (V c main_arg1) ⟨2048 * t.val + r.val, by have := lt_of_lt_of_eq t.isLt (show cfg2.N = 32 from N_2); omega⟩) ⟨j.val, h⟩
        else 0 := by
  unfold tileTot
  have hr : ∀ r : Fin 2048, rowOf (Fr.iblk2 V c 0 t) r
      = Cur.cur2 (V c main_arg1) ⟨2048 * t.val + r.val, by have := lt_of_lt_of_eq t.isLt (show cfg2.N = 32 from N_2); omega⟩ :=
    fun r => funext fun d => k2_feat_apply V c t r d
  have ht : ∀ b : Fin 3, Cur.tab (Fr.iblk2 V c 1 t : Vec Ideal S256x192 .bf16) b = Cur.tab (V c main_v26) b :=
    fun b => funext fun cc => funext fun d => k2_tab_apply V c t d _
  simp only [hr, ht]

/-! ## The array the region leaves -/

/-- Slot `j < 6` holds the contribution summed over all 65536 rows; the last two slots hold zero. -/
def k2_result (c : Dev nD) : S1x8.Idx → EReal := fun i =>
  if h : (i 1).val < 6 then
    Spec.colTotal (Cur.tab (V c main_v26) 0) (Cur.tab (V c main_v26) 1) (Cur.tab (V c main_v26) 2) (Cur.cur2 (V c main_arg1)) ⟨(i 1).val, h⟩
  else 0

/-- After the last point the running buffer is that: 32 tiles of 2048 rows are the 65536 rows. -/
theorem k2_last_eq (c : Dev nD) (hl : 31 < cfg2.N) (u : Fin 1) (j : Fin 8) :
    Fr.outsAt2 V c 31 hl (ix2 u j) = k2_result V c (ix2 u j) := by
  rw [outsAt2_eq V c u j 31 hl, Math.chain_eq_fin, zero_add]
  have hN : cfg2.N = 32 := N_2
  have hg : ∀ t : Fin (31 + 1), k2_step V c j t.val
      = if h : j.val < 6 then ∑ r : Fin 2048, Spec.rowTerm (Cur.tab (V c main_v26) 0) (Cur.tab (V c main_v26) 1) (Cur.tab (V c main_v26) 2)
          (Cur.cur2 (V c main_arg1) ⟨2048 * t.val + r.val, by have := t.isLt; have := r.isLt; omega⟩) ⟨j.val, h⟩
        else 0 := fun t => by
    unfold k2_step
    rw [dif_pos (by have := t.isLt; omega)]
    exact k2_tile_eq V c ⟨t.val, _⟩ j
  rw [Finset.sum_congr rfl fun t _ => hg t]
  unfold k2_result
  show _ = if h : j.val < 6 then _ else 0
  by_cases h : j.val < 6
  · simp only [dif_pos h]
    unfold Spec.colTotal
    exact (Math.sum_32x2048 (fun n => Spec.rowTerm (Cur.tab (V c main_v26) 0) (Cur.tab (V c main_v26) 1) (Cur.tab (V c main_v26) 2)
      (Cur.cur2 (V c main_arg1) n) ⟨j.val, h⟩)).symm
  · simp only [dif_neg h, Finset.sum_const_zero]

/-- The output's block never moves and is the whole [1,8] array. -/
theorem k2_index_out : ∀ t : Fin cfg2.N, win2_2.index t 0 = 0 ∧ win2_2.index t 1 = 0 :=
  (by decide +kernel : ∀ t : Fin grid2.N, win2_2.index t 0 = 0 ∧ win2_2.index t 1 = 0)

theorem k2_xsize_out : ∀ t : Fin cfg2.N, win2_2.xsize (grid2.coords t) 0 = 1 ∧ win2_2.xsize (grid2.coords t) 1 = 8 :=
  (by decide +kernel : ∀ t : Fin grid2.N, win2_2.xsize (grid2.coords t) 0 = 1 ∧ win2_2.xsize (grid2.coords t) 1 = 8)

/-- The one write-back, after the last point, writes it: the block is the whole [1,8] array. -/
theorem k2_flushed_eq (c : Dev nD) (t : Fin cfg2.N) (hf : (cfg2.win 2).flush t = true) :
    (Fr.dat2 V c).flushed 2 t = ((cfg2.win 2).blk t).view.read (Elt Ideal) (k2_result V c) := by
  have hN : cfg2.N = 32 := N_2
  have hlast : 31 < cfg2.N := hN ▸ (by decide : 31 < 32)
  have hl : t.val = 31 := by have := (flush2_2 t).mp hf; have := t.isLt; omega
  obtain rfl : t = ⟨31, hlast⟩ := Fin.ext hl
  show (cfg2.win 2).cut (grid2.coords ⟨31, hlast⟩) ((Fr.dat2 V c).after 2 ⟨31, hlast⟩) = _
  rw [Fr.after2_2]
  have hz' : (fun a => win2_2.index ⟨31, hlast⟩ a * main_v28.ty.shape.size a) = fun _ => 0 :=
    funext fun a => by
      match a with
      | ⟨0, _⟩ => show win2_2.index ⟨31, hlast⟩ 0 * _ = 0; rw [(k2_index_out _).1, Nat.zero_mul]
      | ⟨1, _⟩ => show win2_2.index ⟨31, hlast⟩ 1 * _ = 0; rw [(k2_index_out _).2, Nat.zero_mul]
  refine Eq.trans ?_ (Memref.read_access_unit_zero (Elt Ideal) main_v28 hz' (fun a => by rw [congrFun hz' a]; simp) (k2_result V c)).symm
  funext i
  obtain ⟨u, j, rfl⟩ : ∃ (u : Fin 1) (j : Fin 8), i = ix2 u j := ⟨i 0, i 1, eq_ix2 i⟩
  exact k2_last_eq V c _ u j

theorem k2_cover (i : S1x8.Idx) : ∃ t : Fin cfg2.N, (cfg2.win 2).flush t = true ∧ i ∈ ((cfg2.win 2).blk t).view.set := by
  have hN : cfg2.N = 32 := N_2
  have h0 : (i 0 : Nat) < 1 := (i 0).isLt
  have h1 : (i 1 : Nat) < 8 := (i 1).isLt
  have hlast : 31 < cfg2.N := hN ▸ (by decide : 31 < 32)
  refine ⟨⟨31, hlast⟩, (flush2_2 _).mpr rfl, ?_⟩
  show i ∈ ((View.whole main_v28).slice (win2_2.rect ⟨31, hlast⟩)).set
  rw [View.set_slice_whole, Rect.mem_set_unit]
  intro a
  match a with
  | ⟨0, _⟩ =>
    show win2_2.index ⟨31, hlast⟩ 0 * win2_2.size 0 ≤ (i 0 : Nat) ∧ (i 0 : Nat) < win2_2.index ⟨31, hlast⟩ 0 * win2_2.size 0 + win2_2.xsize (grid2.coords ⟨31, hlast⟩) 0
    rw [(k2_index_out _).1, (k2_xsize_out _).1, Nat.zero_mul]; omega
  | ⟨1, _⟩ =>
    show win2_2.index ⟨31, hlast⟩ 1 * win2_2.size 1 ≤ (i 1 : Nat) ∧ (i 1 : Nat) < win2_2.index ⟨31, hlast⟩ 1 * win2_2.size 1 + win2_2.xsize (grid2.coords ⟨31, hlast⟩) 1
    rw [(k2_index_out _).2, (k2_xsize_out _).2, Nat.zero_mul]; omega

/-- What region 2 leaves in its output array, for any region-entry contents. -/
theorem final2_2 (c : Dev nD) (j : Fin 8) : (Fr.dat2 V c).arrAt 2 cfg2.N (ix2 0 j)
    = if h : j.val < 6 then Spec.colTotal (Cur.tab (V c main_v26) 0) (Cur.tab (V c main_v26) 1) (Cur.tab (V c main_v26) 2) (Cur.cur2 (V c main_arg1)) ⟨j.val, h⟩ else 0 := by
  rw [(Fr.dat2 V c).arrAt_eq_of_cover 2 (k2_result V c) (k2_flushed_eq V c) k2_cover]
  rfl

end Region

end Cert.KernelIdeal.Val

end
-- ==== Proof.KV.Value.lean ====
import proofs.«417377_j33337536151700_1_alg».proof.Proof.K.Frame
import proofs.«417377_j33337536151700_1_alg».proof.Proof.KV.Host0
import proofs.«417377_j33337536151700_1_alg».proof.Proof.KV.Host1
import proofs.«417377_j33337536151700_1_alg».proof.Proof.KV.Host3
import proofs.«417377_j33337536151700_1_alg».proof.Proof.KV.R0Value
import proofs.«417377_j33337536151700_1_alg».proof.Proof.KV.R1Value
import proofs.«417377_j33337536151700_1_alg».proof.Proof.KV.R2Value

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ) (ρ : Dev nD → PrngReg)

abbrev srcOf (c : Dev nD) : Fin 65536 → Fin 256 → EReal := Cert.Cur.cur2 (m ((c.tc : Thread nD τ).loc main_arg0))
abbrev trgOf (c : Dev nD) : Fin 65536 → Fin 256 → EReal := Cert.Cur.cur2 (m ((c.tc : Thread nD τ).loc main_arg1))
abbrev slOf (c : Dev nD) : Fin 65536 → BitVec 32 := Cert.Cur.lab1 (m ((c.tc : Thread nD τ).loc main_arg2))
abbrev tlOf (c : Dev nD) : Fin 65536 → BitVec 32 := Cert.Cur.lab1 (m ((c.tc : Thread nD τ).loc main_arg3))

theorem En0_arg0 (c : Dev nD) : En0 m ρ c main_arg0 = m ((c.tc : Thread nD τ).loc main_arg0) :=
  (W1_of m ρ c main_arg0 (by decide)).trans rfl
theorem En0_arg1 (c : Dev nD) : En0 m ρ c main_arg1 = m ((c.tc : Thread nD τ).loc main_arg1) :=
  (W1_of m ρ c main_arg1 (by decide)).trans rfl
theorem En0_v0 (c : Dev nD) : Cert.Cur.lab2 (En0 m ρ c main_v0) = slOf m c := host0_v0 (W0 m ρ c)
theorem En0_v1 (c : Dev nD) : Cert.Cur.lab2 (En0 m ρ c main_v1) = tlOf m c := host0_v1 (W0 m ρ c)

theorem sums_apply (c : Dev nD) (a : Fin 2) (k : Fin 64) (d : Fin 256) :
    sums (W2 m ρ c) (ix3 a k d)
      = if a = 0 then Cert.Spec.segSum (srcOf m c) (slOf m c) k d else Cert.Spec.segSum (trgOf m c) (tlOf m c) k d := by
  refine (congrFun (W2_arr m ρ c 4) _).trans ?_
  rw [final0_4, En0_arg0, En0_arg1, En0_v0, En0_v1]

theorem cnts_apply (c : Dev nD) (a : Fin 2) (k : Fin 64) :
    cnts (W2 m ρ c) (ix2 a k)
      = if a = 0 then Cert.Spec.segCnt (slOf m c) k else Cert.Spec.segCnt (tlOf m c) k := by
  refine (congrFun (W2_arr m ρ c 5) _).trans ?_
  rw [final0_5, En0_v0, En0_v1]

theorem tab0_eq (c : Dev nD) : Cert.Cur.tab (W3 m ρ c (Proc.devRef .tc main_v26)) 0 = Cert.Spec.mean1 (srcOf m c) (slOf m c) := by
  funext k d
  rw [W3_def, host1_tab0, sums_apply, cnts_apply]
  rfl
theorem tab1_eq (c : Dev nD) : Cert.Cur.tab (W3 m ρ c (Proc.devRef .tc main_v26)) 1 = Cert.Spec.mean1 (trgOf m c) (tlOf m c) := by
  funext k d
  rw [W3_def, host1_tab1, sums_apply, cnts_apply]
  rfl
theorem tab2_eq (c : Dev nD) :
    Cert.Cur.tab (W3 m ρ c (Proc.devRef .tc main_v26)) 2 = Cert.Spec.mean2 (srcOf m c) (trgOf m c) (slOf m c) (tlOf m c) := by
  funext k d
  rw [W3_def, host1_tab2, sums_apply, sums_apply, cnts_apply, cnts_apply]
  rfl

theorem W2_arg0 (c : Dev nD) : W2 m ρ c (Proc.devRef .tc main_arg0) = W1 m ρ c (Proc.devRef .tc main_arg0) :=
  (W2_arr m ρ c 0).trans (((dat0 (En0 m ρ) c).arrAt_in 0 rfl _).trans (A_eq0 (En0 m ρ) c 0))
theorem W2_arg1 (c : Dev nD) : W2 m ρ c (Proc.devRef .tc main_arg1) = W1 m ρ c (Proc.devRef .tc main_arg1) :=
  (W2_arr m ρ c 1).trans (((dat0 (En0 m ρ) c).arrAt_in 1 rfl _).trans (A_eq0 (En0 m ρ) c 1))
theorem En1_arg0 (c : Dev nD) : En1 m ρ c main_arg0 = m ((c.tc : Thread nD τ).loc main_arg0) :=
  (W3_of m ρ c main_arg0 (by decide)).trans ((W2_arg0 m ρ c).trans (En0_arg0 m ρ c))
theorem En2_arg1 (c : Dev nD) : En2 m ρ c main_arg1 = m ((c.tc : Thread nD τ).loc main_arg1) :=
  (W4_of_ne m ρ c main_arg1 (by decide)).trans
    ((W3_of m ρ c main_arg1 (by decide)).trans ((W2_arg1 m ρ c).trans (En0_arg1 m ρ c)))

theorem En2_v26 (c : Dev nD) : En2 m ρ c main_v26 = En1 m ρ c main_v26 :=
  (W4_arr m ρ c 1).trans (((dat1 (En1 m ρ) c).arrAt_in 1 rfl _).trans (A_eq1 (En1 m ρ) c 1))

theorem tot1_apply (c : Dev nD) (j : Fin 6) :
    rd18 (W5 m ρ c (Proc.devRef .tc main_v27)) j
      = Cert.Spec.colTotal (Cert.Spec.mean1 (srcOf m c) (slOf m c)) (Cert.Spec.mean1 (trgOf m c) (tlOf m c))
          (Cert.Spec.mean2 (srcOf m c) (trgOf m c) (slOf m c) (tlOf m c)) (srcOf m c) j := by
  unfold rd18
  refine (congrFun ((W5_of_ne m ρ c main_v27 (by decide)).trans (W4_arr m ρ c 2)) _).trans ?_
  rw [final1_2, dif_pos j.isLt, En1_arg0, ← tab0_eq m ρ c, ← tab1_eq m ρ c, ← tab2_eq m ρ c]

theorem tot2_apply (c : Dev nD) (j : Fin 6) :
    rd18 (W5 m ρ c (Proc.devRef .tc main_v28)) j
      = Cert.Spec.colTotal (Cert.Spec.mean1 (srcOf m c) (slOf m c)) (Cert.Spec.mean1 (trgOf m c) (tlOf m c))
          (Cert.Spec.mean2 (srcOf m c) (trgOf m c) (slOf m c) (tlOf m c)) (trgOf m c) j := by
  unfold rd18
  refine (congrFun (W5_arr m ρ c 2) _).trans ?_
  rw [final2_2, dif_pos j.isLt, En2_arg1, En2_v26, ← tab0_eq m ρ c, ← tab1_eq m ρ c, ← tab2_eq m ρ c]

theorem W6_v57 (c : Dev nD) :
    W6 m ρ c (Proc.devRef .tc main_v57) = fun _ => Cert.Spec.loss (srcOf m c) (trgOf m c) (slOf m c) (tlOf m c) := by
  rw [W6_def, host3_v57]
  funext _
  unfold Cert.Spec.loss
  exact congrArg Cert.Spec.tail (funext fun j => by rw [tot1_apply, tot2_apply])

theorem run : θ_run defs (onTc (τ := τ) (main (F := Ideal))) ⟨m, fun _ => 0, ρ⟩ (fun r => ∀ c : Dev nD,
      r.2.mem ((c.tc : Thread nD τ).loc main_v57) = (fun _ => Cert.Spec.loss (srcOf m c) (trgOf m c) (slOf m c) (tlOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_gen m ρ fun s h c =>
    ⟨(h c _ (mem_uc main_v57 (by decide))).trans (W6_v57 m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c)⟩

end Cert.KernelIdeal.Val

end
-- ==== Proof.R.Stages.lean ====
import proofs.«417377_j33337536151700_1_alg».proof.Proof.Gen.ReferenceIdeal

noncomputable section

namespace Cert.ReferenceIdeal.Hand

open Cert.ReferenceIdeal Cert.ReferenceIdeal.Gen Idealize.ShloMosaic Idealize.ShloMosaic.TcCoe

variable {F : FTy → Type} [FloatOps F]

def segSum (x : FVec F S65536x256 .f32) (l : IVec S65536 32) : FVec F S64x256 .f32 :=
  Host.scatterAdd scatter_S64x256_S65536x1_S65536x256_1_0_0_1 (broadcastInDim S64x256 ![] bcast_S_S64x256 (constant S_ .f32 0x00000000#32))
    (broadcastInDim S65536x1 ![0] bcast_S65536_S65536x1_0 l) x

def segCnt (l : IVec S65536 32) : FVec F S64 .f32 :=
  Host.scatterAdd scatter_S64_S65536x1_S65536_n_0_0_1 (broadcastInDim S64 ![] bcast_S_S64 (constant S_ .f32 0x00000000#32))
    (broadcastInDim S65536x1 ![0] bcast_S65536_S65536x1_0 l) (broadcastInDim S65536 ![] bcast_S_S65536 (constant S_ .f32 0x3F800000#32))

def mean (s : FVec F S64x256 .f32) (n : FVec F S64 .f32) : FVec F S64x256 .f32 :=
  Host.divf s (broadcastInDim S64x256 ![0, 1] bcast_S64x1_S64x256_0_1 (broadcastInDim S64x1 ![0] bcast_S64_S64x1_0 n))

def feats (x y : FVec F S65536x256 .f32) : FVec F S131072x256 .f32 :=
  concatenate S131072x256 0 [⟨S65536x256, x⟩, ⟨S65536x256, y⟩] concatenates_S65536x256_S65536x256_S131072x256_d0

def logits (f : FVec F S131072x256 .f32) (u : FVec F S64x256 .f32) : FVec F S131072x64 .f32 :=
  Host.dotGeneral dot_S131072x256_S256x64_S131072x64_1_0_0_1_n_n none f (transpose S256x64 [1, 0] u transposes_S64x256_S256x64_1_0)

def shifted (z : FVec F S131072x64 .f32) : FVec F S131072x64 .f32 :=
  subf z (broadcastInDim S131072x64 ![0, 1] bcast_S131072x1_S131072x64_0_1 (broadcastInDim S131072x1 ![0] bcast_S131072_S131072x1_0
    (maximumf (broadcastInDim S131072 ![] bcast_S_S131072 (constant S_ .f32 0xFF800000#32))
      (Host.reduce FloatOps.maximumf z (constant S_ .f32 0xFF800000#32) reducesTo_S131072x64_S131072_d1 h_S_))))

def rowSums (e : FVec F S131072x64 .f32) : FVec F S131072x1 .f32 :=
  broadcastInDim S131072x1 ![0] bcast_S131072_S131072x1_0 (Host.reduceAdd e (constant S_ .f32 0x00000000#32) reducesTo_S131072x64_S131072_d1 h_S_)

def softmax (z : FVec F S131072x64 .f32) : FVec F S131072x64 .f32 :=
  Host.divf (Host.exp (shifted z)) (broadcastInDim S131072x64 ![0, 1] bcast_S131072x1_S131072x64_0_1 (rowSums (Host.exp (shifted z))))

def logSoftmax (z : FVec F S131072x64 .f32) : FVec F S131072x64 .f32 :=
  subf (shifted z) (broadcastInDim S131072x64 ![0, 1] bcast_S131072x1_S131072x64_0_1 (Host.log (rowSums (Host.exp (shifted z)))))

def klMean (za zb : FVec F S131072x64 .f32) : FVec F S_ .f32 :=
  Host.divf (Host.reduceAdd (mulf (softmax zb) (subf (logSoftmax zb) (logSoftmax za))) (constant S_ .f32 0x00000000#32) reducesTo_S131072x64_S_d0_1 h_S_)
    (constant S_ .f32 0x4B000000#32)

def half (a b : FVec F S_ .f32) : FVec F S_ .f32 := Host.divf (addf a b) (constant S_ .f32 0x40000000#32)

def result (x y : FVec F S65536x256 .f32) (l k : IVec S65536 32) : FVec F S_ .f32 :=
  let us := mean (segSum x l) (segCnt l)
  let ut := mean (segSum y k) (segCnt k)
  let ust := mean (addf (segSum x l) (segSum y k)) (addf (segCnt l) (segCnt k))
  let ps := logits (feats x y) us
  let pt := logits (feats x y) ut
  let pst := logits (feats x y) ust
  Host.divf (addf (addf (half (klMean ps pt) (klMean pt ps)) (half (klMean ps pst) (klMean pst ps))) (half (klMean pt pst) (klMean pst pt)))
    (constant S_ .f32 0x40400000#32)

end Cert.ReferenceIdeal.Hand

end
-- ==== Proof.R.RunA.lean ====
import proofs.«417377_j33337536151700_1_alg».proof.Proof.R.Stages
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev opsA : List (HloOp τ sig (Elt F)) :=
  [ nullary main_cst (constant S_ .f32 0x3F800000#32),
    unary main_cst main_v0 (broadcastInDim S65536 ![] bcast_S_S65536),
    nullary main_cst_0 (constant S_ .f32 0x3F800000#32),
    unary main_cst_0 main_v1 (broadcastInDim S65536 ![] bcast_S_S65536),
    nullary main_cst_1 (constant S_ .f32 0x00000000#32),
    unary main_cst_1 main_v2 (broadcastInDim S64x256 ![] bcast_S_S64x256),
    unary main_arg2 main_v3 (broadcastInDim S65536x1 ![0] bcast_S65536_S65536x1_0),
    ternary main_v2 main_v3 main_arg0 main_v4 ((fun x i u => Host.scatterAdd scatter_S64x256_S65536x1_S65536x256_1_0_0_1 x i u)),
    nullary main_cst_2 (constant S_ .f32 0x00000000#32),
    unary main_cst_2 main_v5 (broadcastInDim S64x256 ![] bcast_S_S64x256),
    unary main_arg3 main_v6 (broadcastInDim S65536x1 ![0] bcast_S65536_S65536x1_0),
    ternary main_v5 main_v6 main_arg1 main_v7 ((fun x i u => Host.scatterAdd scatter_S64x256_S65536x1_S65536x256_1_0_0_1 x i u)),
    nullary main_cst_3 (constant S_ .f32 0x00000000#32),
    unary main_cst_3 main_v8 (broadcastInDim S64 ![] bcast_S_S64),
    unary main_arg2 main_v9 (broadcastInDim S65536x1 ![0] bcast_S65536_S65536x1_0),
    ternary main_v8 main_v9 main_v0 main_v10 ((fun x i u => Host.scatterAdd scatter_S64_S65536x1_S65536_n_0_0_1 x i u)),
    nullary main_cst_4 (constant S_ .f32 0x00000000#32),
    unary main_cst_4 main_v11 (broadcastInDim S64 ![] bcast_S_S64),
    unary main_arg3 main_v12 (broadcastInDim S65536x1 ![0] bcast_S65536_S65536x1_0),
    ternary main_v11 main_v12 main_v1 main_v13 ((fun x i u => Host.scatterAdd scatter_S64_S65536x1_S65536_n_0_0_1 x i u)),
    unary main_v10 main_v14 (broadcastInDim S64x1 ![0] bcast_S64_S64x1_0),
    unary main_v14 main_v15 (broadcastInDim S64x256 ![0, 1] bcast_S64x1_S64x256_0_1),
    binary main_v4 main_v15 main_v16 Host.divf,
    unary main_v13 main_v17 (broadcastInDim S64x1 ![0] bcast_S64_S64x1_0),
    unary main_v17 main_v18 (broadcastInDim S64x256 ![0, 1] bcast_S64x1_S64x256_0_1),
    binary main_v7 main_v18 main_v19 Host.divf,
    binary main_v4 main_v7 main_v20 addf,
    binary main_v10 main_v13 main_v21 addf,
    unary main_v21 main_v22 (broadcastInDim S64x1 ![0] bcast_S64_S64x1_0),
    unary main_v22 main_v23 (broadcastInDim S64x256 ![0, 1] bcast_S64x1_S64x256_0_1),
    binary main_v20 main_v23 main_v24 Host.divf,
    binary main_arg0 main_arg1 main_v25 ((fun a b => concatenate S131072x256 0 [⟨S65536x256, a⟩, ⟨S65536x256, b⟩] concatenates_S65536x256_S65536x256_S131072x256_d0)),
    unary main_v16 main_v26 ((transpose S256x64 [1, 0] · transposes_S64x256_S256x64_1_0)),
    binary main_v25 main_v26 main_v27 ((fun l r => Host.dotGeneral dot_S131072x256_S256x64_S131072x64_1_0_0_1_n_n none l r)),
    unary main_v19 main_v28 ((transpose S256x64 [1, 0] · transposes_S64x256_S256x64_1_0)),
    binary main_v25 main_v28 main_v29 ((fun l r => Host.dotGeneral dot_S131072x256_S256x64_S131072x64_1_0_0_1_n_n none l r)),
    unary main_v24 main_v30 ((transpose S256x64 [1, 0] · transposes_S64x256_S256x64_1_0)),
    binary main_v25 main_v30 main_v31 ((fun l r => Host.dotGeneral dot_S131072x256_S256x64_S131072x64_1_0_0_1_n_n none l r)) ]

theorem opsA_sub : (opsA : List (HloOp τ sig (Elt F))).Forall fun op => op.bufs ⊆ tcRefs τ sig :=
  ⟨nullary_bufs_sub .., unary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., ternary_bufs_sub .., unary_bufs_sub .., unary_bufs_sub .., binary_bufs_sub .., unary_bufs_sub .., unary_bufs_sub .., binary_bufs_sub .., binary_bufs_sub .., binary_bufs_sub .., unary_bufs_sub .., unary_bufs_sub .., binary_bufs_sub .., binary_bufs_sub .., unary_bufs_sub .., binary_bufs_sub .., unary_bufs_sub .., binary_bufs_sub .., unary_bufs_sub .., binary_bufs_sub ..⟩

theorem opsA_fresh : (opsA : List (HloOp τ sig (Elt F))).Forall fun op => op.fresh = ∅ := by
  repeat' apply And.intro
  all_goals rfl

abbrev opsA_W : List (Ref sig .tc) := [main_cst, main_v0, main_cst_0, main_v1, main_cst_1, main_v2, main_v3, main_v4, main_cst_2, main_v5, main_v6, main_v7, main_cst_3, main_v8, main_v9, main_v10, main_cst_4, main_v11, main_v12, main_v13, main_v14, main_v15, main_v16, main_v17, main_v18, main_v19, main_v20, main_v21, main_v22, main_v23, main_v24, main_v25, main_v26, main_v27, main_v28, main_v29, main_v30, main_v31]

theorem opsA_writes : (opsA : List (HloOp τ sig (Elt F))).Forall fun op => op.writes ⊆ (opsA_W.map (Proc.devRef (τ := τ) .tc)).toFinset := by
  repeat' apply And.intro
  all_goals exact Finset.singleton_subset_iff.2 (List.mem_toFinset.2 (List.mem_map_of_mem (by decide)))

theorem opsA_keep (W : Valuation τ sig (Elt F)) (r : Ref sig .tc) (h : r ∉ opsA_W) :
    after opsA W (Proc.devRef .tc r) = W (Proc.devRef .tc r) :=
  after_of_writes_sub opsA _ opsA_writes h

set_option maxRecDepth 8192 in
set_option maxHeartbeats 4000000 in
theorem opsA_v27 (W : Valuation τ sig (Elt F)) :
    after opsA W (Proc.devRef .tc main_v27)
      = logits (feats (W (Proc.devRef .tc main_arg0)) (W (Proc.devRef .tc main_arg1)))
          (mean (segSum (W (Proc.devRef .tc main_arg0)) (W (Proc.devRef .tc main_arg2))) (segCnt (W (Proc.devRef .tc main_arg2)))) := by
  simp only [opsA]
  after_results_simp <;> rfl

set_option maxRecDepth 8192 in
set_option maxHeartbeats 4000000 in
theorem opsA_v29 (W : Valuation τ sig (Elt F)) :
    after opsA W (Proc.devRef .tc main_v29)
      = logits (feats (W (Proc.devRef .tc main_arg0)) (W (Proc.devRef .tc main_arg1)))
          (mean (segSum (W (Proc.devRef .tc main_arg1)) (W (Proc.devRef .tc main_arg3))) (segCnt (W (Proc.devRef .tc main_arg3)))) := by
  simp only [opsA]
  after_results_simp <;> rfl

set_option maxRecDepth 8192 in
set_option maxHeartbeats 4000000 in
theorem opsA_v31 (W : Valuation τ sig (Elt F)) :
    after opsA W (Proc.devRef .tc main_v31)
      = logits (feats (W (Proc.devRef .tc main_arg0)) (W (Proc.devRef .tc main_arg1)))
          (mean (addf (segSum (W (Proc.devRef .tc main_arg0)) (W (Proc.devRef .tc main_arg2))) (segSum (W (Proc.devRef .tc main_arg1)) (W (Proc.devRef .tc main_arg3))))
            (addf (segCnt (W (Proc.devRef .tc main_arg2))) (segCnt (W (Proc.devRef .tc main_arg3))))) := by
  simp only [opsA]
  after_results_simp <;> rfl

end Cert.ReferenceIdeal.Hand

end
-- ==== Proof.R.RunK.lean ====
import proofs.«417377_j33337536151700_1_alg».proof.Proof.R.Stages
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev opsK1 : List (HloOp τ sig (Elt F)) :=
  [ binary main_v48 main_v65 main_v66 addf,
    nullary main_cst_15 (constant S_ .f32 0x40000000#32),
    binary main_v66 main_cst_15 main_v67 Host.divf ]

theorem opsK1_sub : (opsK1 : List (HloOp τ sig (Elt F))).Forall fun op => op.bufs ⊆ tcRefs τ sig :=
  ⟨binary_bufs_sub .., nullary_bufs_sub .., binary_bufs_sub ..⟩

theorem opsK1_fresh : (opsK1 : List (HloOp τ sig (Elt F))).Forall fun op => op.fresh = ∅ := by
  repeat' apply And.intro
  all_goals rfl

abbrev opsK1_W : List (Ref sig .tc) := [main_v66, main_cst_15, main_v67]

theorem opsK1_writes : (opsK1 : List (HloOp τ sig (Elt F))).Forall fun op => op.writes ⊆ (opsK1_W.map (Proc.devRef (τ := τ) .tc)).toFinset := by
  repeat' apply And.intro
  all_goals exact Finset.singleton_subset_iff.2 (List.mem_toFinset.2 (List.mem_map_of_mem (by decide)))

theorem opsK1_keep (W : Valuation τ sig (Elt F)) (r : Ref sig .tc) (h : r ∉ opsK1_W) :
    after opsK1 W (Proc.devRef .tc r) = W (Proc.devRef .tc r) :=
  after_of_writes_sub opsK1 _ opsK1_writes h

theorem opsK1_val (W : Valuation τ sig (Elt F)) :
    after opsK1 W (Proc.devRef .tc main_v67) = half (W (Proc.devRef .tc main_v48)) (W (Proc.devRef .tc main_v65)) := by
  simp only [opsK1]
  after_results_simp <;> rfl

abbrev opsK2 : List (HloOp τ sig (Elt F)) :=
  [ binary main_v84 main_v101 main_v102 addf,
    nullary main_cst_26 (constant S_ .f32 0x40000000#32),
    binary main_v102 main_cst_26 main_v103 Host.divf ]

theorem opsK2_sub : (opsK2 : List (HloOp τ sig (Elt F))).Forall fun op => op.bufs ⊆ tcRefs τ sig :=
  ⟨binary_bufs_sub .., nullary_bufs_sub .., binary_bufs_sub ..⟩

theorem opsK2_fresh : (opsK2 : List (HloOp τ sig (Elt F))).Forall fun op => op.fresh = ∅ := by
  repeat' apply And.intro
  all_goals rfl

abbrev opsK2_W : List (Ref sig .tc) := [main_v102, main_cst_26, main_v103]

theorem opsK2_writes : (opsK2 : List (HloOp τ sig (Elt F))).Forall fun op => op.writes ⊆ (opsK2_W.map (Proc.devRef (τ := τ) .tc)).toFinset := by
  repeat' apply And.intro
  all_goals exact Finset.singleton_subset_iff.2 (List.mem_toFinset.2 (List.mem_map_of_mem (by decide)))

theorem opsK2_keep (W : Valuation τ sig (Elt F)) (r : Ref sig .tc) (h : r ∉ opsK2_W) :
    after opsK2 W (Proc.devRef .tc r) = W (Proc.devRef .tc r) :=
  after_of_writes_sub opsK2 _ opsK2_writes h

theorem opsK2_val (W : Valuation τ sig (Elt F)) :
    after opsK2 W (Proc.devRef .tc main_v103) = half (W (Proc.devRef .tc main_v84)) (W (Proc.devRef .tc main_v101)) := by
  simp only [opsK2]
  after_results_simp <;> rfl

abbrev opsK3 : List (HloOp τ sig (Elt F)) :=
  [ binary main_v120 main_v137 main_v138 addf,
    nullary main_cst_37 (constant S_ .f32 0x40000000#32),
    binary main_v138 main_cst_37 main_v139 Host.divf ]

theorem opsK3_sub : (opsK3 : List (HloOp τ sig (Elt F))).Forall fun op => op.bufs ⊆ tcRefs τ sig :=
  ⟨binary_bufs_sub .., nullary_bufs_sub .., binary_bufs_sub ..⟩

theorem opsK3_fresh : (opsK3 : List (HloOp τ sig (Elt F))).Forall fun op => op.fresh = ∅ := by
  repeat' apply And.intro
  all_goals rfl

abbrev opsK3_W : List (Ref sig .tc) := [main_v138, main_cst_37, main_v139]

theorem opsK3_writes : (opsK3 : List (HloOp τ sig (Elt F))).Forall fun op => op.writes ⊆ (opsK3_W.map (Proc.devRef (τ := τ) .tc)).toFinset := by
  repeat' apply And.intro
  all_goals exact Finset.singleton_subset_iff.2 (List.mem_toFinset.2 (List.mem_map_of_mem (by decide)))

theorem opsK3_keep (W : Valuation τ sig (Elt F)) (r : Ref sig .tc) (h : r ∉ opsK3_W) :
    after opsK3 W (Proc.devRef .tc r) = W (Proc.devRef .tc r) :=
  after_of_writes_sub opsK3 _ opsK3_writes h

theorem opsK3_val (W : Valuation τ sig (Elt F)) :
    after opsK3 W (Proc.devRef .tc main_v139) = half (W (Proc.devRef .tc main_v120)) (W (Proc.devRef .tc main_v137)) := by
  simp only [opsK3]
  after_results_simp <;> rfl

abbrev opsFa : List (HloOp τ sig (Elt F)) :=
  [ binary main_v67 main_v103 main_v140 addf ]

theorem opsFa_sub : (opsFa : List (HloOp τ sig (Elt F))).Forall fun op => op.bufs ⊆ tcRefs τ sig :=
  binary_bufs_sub ..

theorem opsFa_fresh : (opsFa : List (HloOp τ sig (Elt F))).Forall fun op => op.fresh = ∅ := by
  repeat' apply And.intro
  all_goals rfl

abbrev opsFa_W : List (Ref sig .tc) := [main_v140]

theorem opsFa_writes : (opsFa : List (HloOp τ sig (Elt F))).Forall fun op => op.writes ⊆ (opsFa_W.map (Proc.devRef (τ := τ) .tc)).toFinset := by
  repeat' apply And.intro
  all_goals exact Finset.singleton_subset_iff.2 (List.mem_toFinset.2 (List.mem_map_of_mem (by decide)))

theorem opsFa_keep (W : Valuation τ sig (Elt F)) (r : Ref sig .tc) (h : r ∉ opsFa_W) :
    after opsFa W (Proc.devRef .tc r) = W (Proc.devRef .tc r) :=
  after_of_writes_sub opsFa _ opsFa_writes h

abbrev opsFb : List (HloOp τ sig (Elt F)) :=
  [ binary main_v140 main_v139 main_v141 addf,
    nullary main_cst_38 (constant S_ .f32 0x40400000#32),
    binary main_v141 main_cst_38 main_v142 Host.divf ]

theorem opsFb_sub : (opsFb : List (HloOp τ sig (Elt F))).Forall fun op => op.bufs ⊆ tcRefs τ sig :=
  ⟨binary_bufs_sub .., nullary_bufs_sub .., binary_bufs_sub ..⟩

theorem opsFb_fresh : (opsFb : List (HloOp τ sig (Elt F))).Forall fun op => op.fresh = ∅ := by
  repeat' apply And.intro
  all_goals rfl

abbrev opsFb_W : List (Ref sig .tc) := [main_v141, main_cst_38, main_v142]

theorem opsFb_writes : (opsFb : List (HloOp τ sig (Elt F))).Forall fun op => op.writes ⊆ (opsFb_W.map (Proc.devRef (τ := τ) .tc)).toFinset := by
  repeat' apply And.intro
  all_goals exact Finset.singleton_subset_iff.2 (List.mem_toFinset.2 (List.mem_map_of_mem (by decide)))

theorem opsFb_keep (W : Valuation τ sig (Elt F)) (r : Ref sig .tc) (h : r ∉ opsFb_W) :
    after opsFb W (Proc.devRef .tc r) = W (Proc.devRef .tc r) :=
  after_of_writes_sub opsFb _ opsFb_writes h

theorem opsF_val (W : Valuation τ sig (Elt F)) :
    after opsFb (after opsFa W) (Proc.devRef .tc main_v142)
      = Host.divf (addf (addf (W (Proc.devRef .tc main_v67)) (W (Proc.devRef .tc main_v103))) (W (Proc.devRef .tc main_v139)))
          (constant S_ .f32 0x40400000#32) := by
  simp only [opsFa, opsFb]
  after_results_simp <;> rfl

end Cert.ReferenceIdeal.Hand

end
-- ==== Proof.R.RunC1.lean ====
import proofs.«417377_j33337536151700_1_alg».proof.Proof.R.Stages
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev opsC1 : List (HloOp τ sig (Elt F)) :=
  [ nullary main_cst_5 (constant S_ .f32 0xFF800000#32),
    binary main_v29 main_cst_5 main_v32 ((fun x v => Host.reduce FloatOps.maximumf x v reducesTo_S131072x64_S131072_d1 h_S_)),
    nullary main_cst_6 (constant S_ .f32 0xFF800000#32),
    unary main_cst_6 main_v33 (broadcastInDim S131072 ![] bcast_S_S131072),
    binary main_v33 main_v32 main_v34 maximumf,
    unary main_v34 main_v35 (broadcastInDim S131072x1 ![0] bcast_S131072_S131072x1_0),
    unary main_v35 main_v36 (broadcastInDim S131072x64 ![0, 1] bcast_S131072x1_S131072x64_0_1),
    binary main_v29 main_v36 main_v37 subf,
    unary main_v37 main_v38 Host.exp,
    nullary main_cst_7 (constant S_ .f32 0x00000000#32),
    binary main_v38 main_cst_7 main_v39 ((fun x v => Host.reduceAdd x v reducesTo_S131072x64_S131072_d1 h_S_)),
    unary main_v39 main_v40 (broadcastInDim S131072x1 ![0] bcast_S131072_S131072x1_0),
    unary main_v40 main_v41 (broadcastInDim S131072x64 ![0, 1] bcast_S131072x1_S131072x64_0_1),
    binary main_v38 main_v41 main_v42 Host.divf,
    TRef.nullary (TRef.of (T := ⟨S_, .f32⟩) main_call0_cst) (constant S_ .f32 0xFF800000#32),
    TRef.binary (TRef.of (T := ⟨S131072x64, .f32⟩) main_v29) (TRef.of (T := ⟨S_, .f32⟩) main_call0_cst) (TRef.of (T := ⟨S131072, .f32⟩) main_call0_v0) (fun x v => Host.reduce FloatOps.maximumf x v reducesTo_S131072x64_S131072_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S131072, .f32⟩) main_call0_v1) (broadcastInDim S131072 ![] bcast_S_S131072),
    TRef.binary (TRef.of (T := ⟨S131072, .f32⟩) main_call0_v1) (TRef.of (T := ⟨S131072, .f32⟩) main_call0_v0) (TRef.of (T := ⟨S131072, .f32⟩) main_call0_v2) maximumf,
    TRef.unary (TRef.of (T := ⟨S131072, .f32⟩) main_call0_v2) (TRef.of (T := ⟨S131072x1, .f32⟩) main_call0_v3) (broadcastInDim S131072x1 ![0] bcast_S131072_S131072x1_0),
    TRef.unary (TRef.of (T := ⟨S131072x1, .f32⟩) main_call0_v3) (TRef.of (T := ⟨S131072x64, .f32⟩) main_call0_v4) (broadcastInDim S131072x64 ![0, 1] bcast_S131072x1_S131072x64_0_1),
    TRef.binary (TRef.of (T := ⟨S131072x64, .f32⟩) main_v29) (TRef.of (T := ⟨S131072x64, .f32⟩) main_call0_v4) (TRef.of (T := ⟨S131072x64, .f32⟩) main_call0_v5) subf,
    TRef.unary (TRef.of (T := ⟨S131072x64, .f32⟩) main_call0_v5) (TRef.of (T := ⟨S131072x64, .f32⟩) main_call0_v6) Host.exp,
    TRef.nullary (TRef.of (T := ⟨S_, .f32⟩) main_call0_cst_1) (constant S_ .f32 0x00000000#32),
    TRef.binary (TRef.of (T := ⟨S131072x64, .f32⟩) main_call0_v6) (TRef.of (T := ⟨S_, .f32⟩) main_call0_cst_1) (TRef.of (T := ⟨S131072, .f32⟩) main_call0_v7) (fun x v => Host.reduceAdd x v reducesTo_S131072x64_S131072_d1 h_S_),
    TRef.unary (TRef.of (T := ⟨S131072, .f32⟩) main_call0_v7) (TRef.of (T := ⟨S131072x1, .f32⟩) main_call0_v8) (broadcastInDim S131072x1 ![0] bcast_S131072_S131072x1_0),
    TRef.unary (TRef.of (T := ⟨S131072x1, .f32⟩) main_call0_v8) (TRef.of (T := ⟨S131072x1, .f32⟩) main_call0_v9) Host.log,
    TRef.unary (TRef.of (T := ⟨S131072x1, .f32⟩) main_call0_v9) (TRef.of (T := ⟨S131072x64, .f32⟩) main_call0_v10) (broadcastInDim S131072x64 ![0, 1] bcast_S131072x1_S131072x64_0_1),
    TRef.binary (TRef.of (T := ⟨S131072x64, .f32⟩) main_call0_v5) (TRef.of (T := ⟨S131072x64, .f32⟩) main_call0_v10) (TRef.of (T := ⟨S131072x64, .f32⟩) main_v43) subf,
    TRef.nullary (TRef.of (T := ⟨S_, .f32⟩) main_call1_cst) (constant S_ .f32 0xFF800000#32),
    TRef.binary (TRef.of (T := ⟨S131072x64, .f32⟩) main_v27) (TRef.of (T := ⟨S_, .f32⟩) main_call1_cst) (TRef.of (T := ⟨S131072, .f32⟩) main_call1_v0) (fun x v => Host.reduce FloatOps.maximumf x v reducesTo_S131072x64_S131072_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S131072, .f32⟩) main_call1_v1) (broadcastInDim S131072 ![] bcast_S_S131072),
    TRef.binary (TRef.of (T := ⟨S131072, .f32⟩) main_call1_v1) (TRef.of (T := ⟨S131072, .f32⟩) main_call1_v0) (TRef.of (T := ⟨S131072, .f32⟩) main_call1_v2) maximumf,
    TRef.unary (TRef.of (T := ⟨S131072, .f32⟩) main_call1_v2) (TRef.of (T := ⟨S131072x1, .f32⟩) main_call1_v3) (broadcastInDim S131072x1 ![0] bcast_S131072_S131072x1_0),
    TRef.unary (TRef.of (T := ⟨S131072x1, .f32⟩) main_call1_v3) (TRef.of (T := ⟨S131072x64, .f32⟩) main_call1_v4) (broadcastInDim S131072x64 ![0, 1] bcast_S131072x1_S131072x64_0_1),
    TRef.binary (TRef.of (T := ⟨S131072x64, .f32⟩) main_v27) (TRef.of (T := ⟨S131072x64, .f32⟩) main_call1_v4) (TRef.of (T := ⟨S131072x64, .f32⟩) main_call1_v5) subf,
    TRef.unary (TRef.of (T := ⟨S131072x64, .f32⟩) main_call1_v5) (TRef.of (T := ⟨S131072x64, .f32⟩) main_call1_v6) Host.exp,
    TRef.nullary (TRef.of (T := ⟨S_, .f32⟩) main_call1_cst_1) (constant S_ .f32 0x00000000#32),
    TRef.binary (TRef.of (T := ⟨S131072x64, .f32⟩) main_call1_v6) (TRef.of (T := ⟨S_, .f32⟩) main_call1_cst_1) (TRef.of (T := ⟨S131072, .f32⟩) main_call1_v7) (fun x v => Host.reduceAdd x v reducesTo_S131072x64_S131072_d1 h_S_),
    TRef.unary (TRef.of (T := ⟨S131072, .f32⟩) main_call1_v7) (TRef.of (T := ⟨S131072x1, .f32⟩) main_call1_v8) (broadcastInDim S131072x1 ![0] bcast_S131072_S131072x1_0),
    TRef.unary (TRef.of (T := ⟨S131072x1, .f32⟩) main_call1_v8) (TRef.of (T := ⟨S131072x1, .f32⟩) main_call1_v9) Host.log,
    TRef.unary (TRef.of (T := ⟨S131072x1, .f32⟩) main_call1_v9) (TRef.of (T := ⟨S131072x64, .f32⟩) main_call1_v10) (broadcastInDim S131072x64 ![0, 1] bcast_S131072x1_S131072x64_0_1),
    TRef.binary (TRef.of (T := ⟨S131072x64, .f32⟩) main_call1_v5) (TRef.of (T := ⟨S131072x64, .f32⟩) main_call1_v10) (TRef.of (T := ⟨S131072x64, .f32⟩) main_v44) subf,
    binary main_v43 main_v44 main_v45 subf,
    binary main_v42 main_v45 main_v46 mulf,
    nullary main_cst_8 (constant S_ .f32 0x00000000#32),
    binary main_v46 main_cst_8 main_v47 ((fun x v => Host.reduceAdd x v reducesTo_S131072x64_S_d0_1 h_S_)),
    nullary main_cst_9 (constant S_ .f32 0x4B000000#32),
    binary main_v47 main_cst_9 main_v48 Host.divf ]

theorem opsC1_sub : (opsC1 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., binary_bufs_sub .., binary_bufs_sub .., nullary_bufs_sub .., binary_bufs_sub .., nullary_bufs_sub .., binary_bufs_sub ..⟩

theorem opsC1_fresh : (opsC1 : List (HloOp τ sig (Elt F))).Forall fun op => op.fresh = ∅ := by
  repeat' apply And.intro
  all_goals rfl

abbrev opsC1_W : List (Ref sig .tc) := [main_cst_5, main_v32, main_cst_6, main_v33, main_v34, main_v35, main_v36, main_v37, main_v38, main_cst_7, main_v39, main_v40, main_v41, main_v42, main_call0_cst, main_call0_v0, main_call0_cst_0, main_call0_v1, main_call0_v2, main_call0_v3, main_call0_v4, main_call0_v5, main_call0_v6, main_call0_cst_1, main_call0_v7, main_call0_v8, main_call0_v9, main_call0_v10, main_v43, main_call1_cst, main_call1_v0, main_call1_cst_0, main_call1_v1, main_call1_v2, main_call1_v3, main_call1_v4, main_call1_v5, main_call1_v6, main_call1_cst_1, main_call1_v7, main_call1_v8, main_call1_v9, main_call1_v10, main_v44, main_v45, main_v46, main_cst_8, main_v47, main_cst_9, main_v48]

theorem opsC1_writes : (opsC1 : List (HloOp τ sig (Elt F))).Forall fun op => op.writes ⊆ (opsC1_W.map (Proc.devRef (τ := τ) .tc)).toFinset := by
  repeat' apply And.intro
  all_goals exact Finset.singleton_subset_iff.2 (List.mem_toFinset.2 (List.mem_map_of_mem (by decide)))

theorem opsC1_keep (W : Valuation τ sig (Elt F)) (r : Ref sig .tc) (h : r ∉ opsC1_W) :
    after opsC1 W (Proc.devRef .tc r) = W (Proc.devRef .tc r) :=
  after_of_writes_sub opsC1 _ opsC1_writes h

end Cert.ReferenceIdeal.Hand

end
-- ==== Proof.R.Cast.lean ====
import proofs.«417377_j33337536151700_1_alg».proof.Proof.R.Stages
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem ofBuf_toBuf {Val : EltTy → Type} {T : BufTy} (x : TRef sig T) (v : T.Contents Val) : x.ofBuf (x.toBuf v) = v := by
  obtain ⟨ref, h, _, _⟩ := x
  subst h
  rfl

theorem ofBuf_main_v27 (h1 : main_v27.ty = ⟨S131072x64, .f32⟩) (h2) (h3) (w : main_v27.ty.Contents (Elt F)) :
    (TRef.of (T := ⟨S131072x64, .f32⟩) main_v27 h1 h2 h3).ofBuf w = w := rfl

theorem ofBuf_main_v29 (h1 : main_v29.ty = ⟨S131072x64, .f32⟩) (h2) (h3) (w : main_v29.ty.Contents (Elt F)) :
    (TRef.of (T := ⟨S131072x64, .f32⟩) main_v29 h1 h2 h3).ofBuf w = w := rfl

theorem ofBuf_main_v31 (h1 : main_v31.ty = ⟨S131072x64, .f32⟩) (h2) (h3) (w : main_v31.ty.Contents (Elt F)) :
    (TRef.of (T := ⟨S131072x64, .f32⟩) main_v31 h1 h2 h3).ofBuf w = w := rfl

theorem toBuf_main_v43 (h1 : main_v43.ty = ⟨S131072x64, .f32⟩) (h2) (h3) (w : (⟨S131072x64, .f32⟩ : BufTy).Contents (Elt F)) :
    (TRef.of (T := ⟨S131072x64, .f32⟩) main_v43 h1 h2 h3).toBuf w = w := rfl

theorem toBuf_main_v44 (h1 : main_v44.ty = ⟨S131072x64, .f32⟩) (h2) (h3) (w : (⟨S131072x64, .f32⟩ : BufTy).Contents (Elt F)) :
    (TRef.of (T := ⟨S131072x64, .f32⟩) main_v44 h1 h2 h3).toBuf w = w := rfl

theorem toBuf_main_v60 (h1 : main_v60.ty = ⟨S131072x64, .f32⟩) (h2) (h3) (w : (⟨S131072x64, .f32⟩ : BufTy).Contents (Elt F)) :
    (TRef.of (T := ⟨S131072x64, .f32⟩) main_v60 h1 h2 h3).toBuf w = w := rfl

theorem toBuf_main_v61 (h1 : main_v61.ty = ⟨S131072x64, .f32⟩) (h2) (h3) (w : (⟨S131072x64, .f32⟩ : BufTy).Contents (Elt F)) :
    (TRef.of (T := ⟨S131072x64, .f32⟩) main_v61 h1 h2 h3).toBuf w = w := rfl

theorem toBuf_main_v79 (h1 : main_v79.ty = ⟨S131072x64, .f32⟩) (h2) (h3) (w : (⟨S131072x64, .f32⟩ : BufTy).Contents (Elt F)) :
    (TRef.of (T := ⟨S131072x64, .f32⟩) main_v79 h1 h2 h3).toBuf w = w := rfl

theorem toBuf_main_v80 (h1 : main_v80.ty = ⟨S131072x64, .f32⟩) (h2) (h3) (w : (⟨S131072x64, .f32⟩ : BufTy).Contents (Elt F)) :
    (TRef.of (T := ⟨S131072x64, .f32⟩) main_v80 h1 h2 h3).toBuf w = w := rfl

theorem toBuf_main_v96 (h1 : main_v96.ty = ⟨S131072x64, .f32⟩) (h2) (h3) (w : (⟨S131072x64, .f32⟩ : BufTy).Contents (Elt F)) :
    (TRef.of (T := ⟨S131072x64, .f32⟩) main_v96 h1 h2 h3).toBuf w = w := rfl

theorem toBuf_main_v97 (h1 : main_v97.ty = ⟨S131072x64, .f32⟩) (h2) (h3) (w : (⟨S131072x64, .f32⟩ : BufTy).Contents (Elt F)) :
    (TRef.of (T := ⟨S131072x64, .f32⟩) main_v97 h1 h2 h3).toBuf w = w := rfl

theorem toBuf_main_v115 (h1 : main_v115.ty = ⟨S131072x64, .f32⟩) (h2) (h3) (w : (⟨S131072x64, .f32⟩ : BufTy).Contents (Elt F)) :
    (TRef.of (T := ⟨S131072x64, .f32⟩) main_v115 h1 h2 h3).toBuf w = w := rfl

theorem toBuf_main_v116 (h1 : main_v116.ty = ⟨S131072x64, .f32⟩) (h2) (h3) (w : (⟨S131072x64, .f32⟩ : BufTy).Contents (Elt F)) :
    (TRef.of (T := ⟨S131072x64, .f32⟩) main_v116 h1 h2 h3).toBuf w = w := rfl

theorem toBuf_main_v132 (h1 : main_v132.ty = ⟨S131072x64, .f32⟩) (h2) (h3) (w : (⟨S131072x64, .f32⟩ : BufTy).Contents (Elt F)) :
    (TRef.of (T := ⟨S131072x64, .f32⟩) main_v132 h1 h2 h3).toBuf w = w := rfl

theorem toBuf_main_v133 (h1 : main_v133.ty = ⟨S131072x64, .f32⟩) (h2) (h3) (w : (⟨S131072x64, .f32⟩ : BufTy).Contents (Elt F)) :
    (TRef.of (T := ⟨S131072x64, .f32⟩) main_v133 h1 h2 h3).toBuf w = w := rfl

end Cert.ReferenceIdeal.Hand

end
-- ==== Proof.R.RunC1V.lean ====
import proofs.«417377_j33337536151700_1_alg».proof.Proof.R.RunC1
import proofs.«417377_j33337536151700_1_alg».proof.Proof.R.Cast

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem opsC1_val (W : Valuation τ sig (Elt F)) :
    after opsC1 W (Proc.devRef .tc main_v48)
      = klMean (W (Proc.devRef .tc main_v27)) (W (Proc.devRef .tc main_v29)) := by
  simp only [opsC1]
  after_results_simp
  simp only [ofBuf_toBuf, ofBuf_main_v27, ofBuf_main_v29, toBuf_main_v43, toBuf_main_v44]
  rfl

end Cert.ReferenceIdeal.Hand

end
-- ==== Proof.R.RunC2.lean ====
import proofs.«417377_j33337536151700_1_alg».proof.Proof.R.Stages
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev opsC2 : List (HloOp τ sig (Elt F)) :=
  [ nullary main_cst_10 (constant S_ .f32 0xFF800000#32),
    binary main_v27 main_cst_10 main_v49 ((fun x v => Host.reduce FloatOps.maximumf x v reducesTo_S131072x64_S131072_d1 h_S_)),
    nullary main_cst_11 (constant S_ .f32 0xFF800000#32),
    unary main_cst_11 main_v50 (broadcastInDim S131072 ![] bcast_S_S131072),
    binary main_v50 main_v49 main_v51 maximumf,
    unary main_v51 main_v52 (broadcastInDim S131072x1 ![0] bcast_S131072_S131072x1_0),
    unary main_v52 main_v53 (broadcastInDim S131072x64 ![0, 1] bcast_S131072x1_S131072x64_0_1),
    binary main_v27 main_v53 main_v54 subf,
    unary main_v54 main_v55 Host.exp,
    nullary main_cst_12 (constant S_ .f32 0x00000000#32),
    binary main_v55 main_cst_12 main_v56 ((fun x v => Host.reduceAdd x v reducesTo_S131072x64_S131072_d1 h_S_)),
    unary main_v56 main_v57 (broadcastInDim S131072x1 ![0] bcast_S131072_S131072x1_0),
    unary main_v57 main_v58 (broadcastInDim S131072x64 ![0, 1] bcast_S131072x1_S131072x64_0_1),
    binary main_v55 main_v58 main_v59 Host.divf,
    TRef.nullary (TRef.of (T := ⟨S_, .f32⟩) main_call2_cst) (constant S_ .f32 0xFF800000#32),
    TRef.binary (TRef.of (T := ⟨S131072x64, .f32⟩) main_v27) (TRef.of (T := ⟨S_, .f32⟩) main_call2_cst) (TRef.of (T := ⟨S131072, .f32⟩) main_call2_v0) (fun x v => Host.reduce FloatOps.maximumf x v reducesTo_S131072x64_S131072_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S131072, .f32⟩) main_call2_v1) (broadcastInDim S131072 ![] bcast_S_S131072),
    TRef.binary (TRef.of (T := ⟨S131072, .f32⟩) main_call2_v1) (TRef.of (T := ⟨S131072, .f32⟩) main_call2_v0) (TRef.of (T := ⟨S131072, .f32⟩) main_call2_v2) maximumf,
    TRef.unary (TRef.of (T := ⟨S131072, .f32⟩) main_call2_v2) (TRef.of (T := ⟨S131072x1, .f32⟩) main_call2_v3) (broadcastInDim S131072x1 ![0] bcast_S131072_S131072x1_0),
    TRef.unary (TRef.of (T := ⟨S131072x1, .f32⟩) main_call2_v3) (TRef.of (T := ⟨S131072x64, .f32⟩) main_call2_v4) (broadcastInDim S131072x64 ![0, 1] bcast_S131072x1_S131072x64_0_1),
    TRef.binary (TRef.of (T := ⟨S131072x64, .f32⟩) main_v27) (TRef.of (T := ⟨S131072x64, .f32⟩) main_call2_v4) (TRef.of (T := ⟨S131072x64, .f32⟩) main_call2_v5) subf,
    TRef.unary (TRef.of (T := ⟨S131072x64, .f32⟩) main_call2_v5) (TRef.of (T := ⟨S131072x64, .f32⟩) main_call2_v6) Host.exp,
    TRef.nullary (TRef.of (T := ⟨S_, .f32⟩) main_call2_cst_1) (constant S_ .f32 0x00000000#32),
    TRef.binary (TRef.of (T := ⟨S131072x64, .f32⟩) main_call2_v6) (TRef.of (T := ⟨S_, .f32⟩) main_call2_cst_1) (TRef.of (T := ⟨S131072, .f32⟩) main_call2_v7) (fun x v => Host.reduceAdd x v reducesTo_S131072x64_S131072_d1 h_S_),
    TRef.unary (TRef.of (T := ⟨S131072, .f32⟩) main_call2_v7) (TRef.of (T := ⟨S131072x1, .f32⟩) main_call2_v8) (broadcastInDim S131072x1 ![0] bcast_S131072_S131072x1_0),
    TRef.unary (TRef.of (T := ⟨S131072x1, .f32⟩) main_call2_v8) (TRef.of (T := ⟨S131072x1, .f32⟩) main_call2_v9) Host.log,
    TRef.unary (TRef.of (T := ⟨S131072x1, .f32⟩) main_call2_v9) (TRef.of (T := ⟨S131072x64, .f32⟩) main_call2_v10) (broadcastInDim S131072x64 ![0, 1] bcast_S131072x1_S131072x64_0_1),
    TRef.binary (TRef.of (T := ⟨S131072x64, .f32⟩) main_call2_v5) (TRef.of (T := ⟨S131072x64, .f32⟩) main_call2_v10) (TRef.of (T := ⟨S131072x64, .f32⟩) main_v60) subf,
    TRef.nullary (TRef.of (T := ⟨S_, .f32⟩) main_call3_cst) (constant S_ .f32 0xFF800000#32),
    TRef.binary (TRef.of (T := ⟨S131072x64, .f32⟩) main_v29) (TRef.of (T := ⟨S_, .f32⟩) main_call3_cst) (TRef.of (T := ⟨S131072, .f32⟩) main_call3_v0) (fun x v => Host.reduce FloatOps.maximumf x v reducesTo_S131072x64_S131072_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S131072, .f32⟩) main_call3_v1) (broadcastInDim S131072 ![] bcast_S_S131072),
    TRef.binary (TRef.of (T := ⟨S131072, .f32⟩) main_call3_v1) (TRef.of (T := ⟨S131072, .f32⟩) main_call3_v0) (TRef.of (T := ⟨S131072, .f32⟩) main_call3_v2) maximumf,
    TRef.unary (TRef.of (T := ⟨S131072, .f32⟩) main_call3_v2) (TRef.of (T := ⟨S131072x1, .f32⟩) main_call3_v3) (broadcastInDim S131072x1 ![0] bcast_S131072_S131072x1_0),
    TRef.unary (TRef.of (T := ⟨S131072x1, .f32⟩) main_call3_v3) (TRef.of (T := ⟨S131072x64, .f32⟩) main_call3_v4) (broadcastInDim S131072x64 ![0, 1] bcast_S131072x1_S131072x64_0_1),
    TRef.binary (TRef.of (T := ⟨S131072x64, .f32⟩) main_v29) (TRef.of (T := ⟨S131072x64, .f32⟩) main_call3_v4) (TRef.of (T := ⟨S131072x64, .f32⟩) main_call3_v5) subf,
    TRef.unary (TRef.of (T := ⟨S131072x64, .f32⟩) main_call3_v5) (TRef.of (T := ⟨S131072x64, .f32⟩) main_call3_v6) Host.exp,
    TRef.nullary (TRef.of (T := ⟨S_, .f32⟩) main_call3_cst_1) (constant S_ .f32 0x00000000#32),
    TRef.binary (TRef.of (T := ⟨S131072x64, .f32⟩) main_call3_v6) (TRef.of (T := ⟨S_, .f32⟩) main_call3_cst_1) (TRef.of (T := ⟨S131072, .f32⟩) main_call3_v7) (fun x v => Host.reduceAdd x v reducesTo_S131072x64_S131072_d1 h_S_),
    TRef.unary (TRef.of (T := ⟨S131072, .f32⟩) main_call3_v7) (TRef.of (T := ⟨S131072x1, .f32⟩) main_call3_v8) (broadcastInDim S131072x1 ![0] bcast_S131072_S131072x1_0),
    TRef.unary (TRef.of (T := ⟨S131072x1, .f32⟩) main_call3_v8) (TRef.of (T := ⟨S131072x1, .f32⟩) main_call3_v9) Host.log,
    TRef.unary (TRef.of (T := ⟨S131072x1, .f32⟩) main_call3_v9) (TRef.of (T := ⟨S131072x64, .f32⟩) main_call3_v10) (broadcastInDim S131072x64 ![0, 1] bcast_S131072x1_S131072x64_0_1),
    TRef.binary (TRef.of (T := ⟨S131072x64, .f32⟩) main_call3_v5) (TRef.of (T := ⟨S131072x64, .f32⟩) main_call3_v10) (TRef.of (T := ⟨S131072x64, .f32⟩) main_v61) subf,
    binary main_v60 main_v61 main_v62 subf,
    binary main_v59 main_v62 main_v63 mulf,
    nullary main_cst_13 (constant S_ .f32 0x00000000#32),
    binary main_v63 main_cst_13 main_v64 ((fun x v => Host.reduceAdd x v reducesTo_S131072x64_S_d0_1 h_S_)),
    nullary main_cst_14 (constant S_ .f32 0x4B000000#32),
    binary main_v64 main_cst_14 main_v65 Host.divf ]

theorem opsC2_sub : (opsC2 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., binary_bufs_sub .., binary_bufs_sub .., nullary_bufs_sub .., binary_bufs_sub .., nullary_bufs_sub .., binary_bufs_sub ..⟩

theorem opsC2_fresh : (opsC2 : List (HloOp τ sig (Elt F))).Forall fun op => op.fresh = ∅ := by
  repeat' apply And.intro
  all_goals rfl

abbrev opsC2_W : List (Ref sig .tc) := [main_cst_10, main_v49, main_cst_11, main_v50, main_v51, main_v52, main_v53, main_v54, main_v55, main_cst_12, main_v56, main_v57, main_v58, main_v59, main_call2_cst, main_call2_v0, main_call2_cst_0, main_call2_v1, main_call2_v2, main_call2_v3, main_call2_v4, main_call2_v5, main_call2_v6, main_call2_cst_1, main_call2_v7, main_call2_v8, main_call2_v9, main_call2_v10, main_v60, main_call3_cst, main_call3_v0, main_call3_cst_0, main_call3_v1, main_call3_v2, main_call3_v3, main_call3_v4, main_call3_v5, main_call3_v6, main_call3_cst_1, main_call3_v7, main_call3_v8, main_call3_v9, main_call3_v10, main_v61, main_v62, main_v63, main_cst_13, main_v64, main_cst_14, main_v65]

theorem opsC2_writes : (opsC2 : List (HloOp τ sig (Elt F))).Forall fun op => op.writes ⊆ (opsC2_W.map (Proc.devRef (τ := τ) .tc)).toFinset := by
  repeat' apply And.intro
  all_goals exact Finset.singleton_subset_iff.2 (List.mem_toFinset.2 (List.mem_map_of_mem (by decide)))

theorem opsC2_keep (W : Valuation τ sig (Elt F)) (r : Ref sig .tc) (h : r ∉ opsC2_W) :
    after opsC2 W (Proc.devRef .tc r) = W (Proc.devRef .tc r) :=
  after_of_writes_sub opsC2 _ opsC2_writes h

end Cert.ReferenceIdeal.Hand

end
-- ==== Proof.R.RunC2V.lean ====
import proofs.«417377_j33337536151700_1_alg».proof.Proof.R.RunC2
import proofs.«417377_j33337536151700_1_alg».proof.Proof.R.Cast

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem opsC2_val (W : Valuation τ sig (Elt F)) :
    after opsC2 W (Proc.devRef .tc main_v65)
      = klMean (W (Proc.devRef .tc main_v29)) (W (Proc.devRef .tc main_v27)) := by
  simp only [opsC2]
  after_results_simp
  simp only [ofBuf_toBuf, ofBuf_main_v29, ofBuf_main_v27, toBuf_main_v60, toBuf_main_v61]
  rfl

end Cert.ReferenceIdeal.Hand

end
-- ==== Proof.R.RunC3.lean ====
import proofs.«417377_j33337536151700_1_alg».proof.Proof.R.Stages
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev opsC3 : List (HloOp τ sig (Elt F)) :=
  [ nullary main_cst_16 (constant S_ .f32 0xFF800000#32),
    binary main_v31 main_cst_16 main_v68 ((fun x v => Host.reduce FloatOps.maximumf x v reducesTo_S131072x64_S131072_d1 h_S_)),
    nullary main_cst_17 (constant S_ .f32 0xFF800000#32),
    unary main_cst_17 main_v69 (broadcastInDim S131072 ![] bcast_S_S131072),
    binary main_v69 main_v68 main_v70 maximumf,
    unary main_v70 main_v71 (broadcastInDim S131072x1 ![0] bcast_S131072_S131072x1_0),
    unary main_v71 main_v72 (broadcastInDim S131072x64 ![0, 1] bcast_S131072x1_S131072x64_0_1),
    binary main_v31 main_v72 main_v73 subf,
    unary main_v73 main_v74 Host.exp,
    nullary main_cst_18 (constant S_ .f32 0x00000000#32),
    binary main_v74 main_cst_18 main_v75 ((fun x v => Host.reduceAdd x v reducesTo_S131072x64_S131072_d1 h_S_)),
    unary main_v75 main_v76 (broadcastInDim S131072x1 ![0] bcast_S131072_S131072x1_0),
    unary main_v76 main_v77 (broadcastInDim S131072x64 ![0, 1] bcast_S131072x1_S131072x64_0_1),
    binary main_v74 main_v77 main_v78 Host.divf,
    TRef.nullary (TRef.of (T := ⟨S_, .f32⟩) main_call4_cst) (constant S_ .f32 0xFF800000#32),
    TRef.binary (TRef.of (T := ⟨S131072x64, .f32⟩) main_v31) (TRef.of (T := ⟨S_, .f32⟩) main_call4_cst) (TRef.of (T := ⟨S131072, .f32⟩) main_call4_v0) (fun x v => Host.reduce FloatOps.maximumf x v reducesTo_S131072x64_S131072_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S131072, .f32⟩) main_call4_v1) (broadcastInDim S131072 ![] bcast_S_S131072),
    TRef.binary (TRef.of (T := ⟨S131072, .f32⟩) main_call4_v1) (TRef.of (T := ⟨S131072, .f32⟩) main_call4_v0) (TRef.of (T := ⟨S131072, .f32⟩) main_call4_v2) maximumf,
    TRef.unary (TRef.of (T := ⟨S131072, .f32⟩) main_call4_v2) (TRef.of (T := ⟨S131072x1, .f32⟩) main_call4_v3) (broadcastInDim S131072x1 ![0] bcast_S131072_S131072x1_0),
    TRef.unary (TRef.of (T := ⟨S131072x1, .f32⟩) main_call4_v3) (TRef.of (T := ⟨S131072x64, .f32⟩) main_call4_v4) (broadcastInDim S131072x64 ![0, 1] bcast_S131072x1_S131072x64_0_1),
    TRef.binary (TRef.of (T := ⟨S131072x64, .f32⟩) main_v31) (TRef.of (T := ⟨S131072x64, .f32⟩) main_call4_v4) (TRef.of (T := ⟨S131072x64, .f32⟩) main_call4_v5) subf,
    TRef.unary (TRef.of (T := ⟨S131072x64, .f32⟩) main_call4_v5) (TRef.of (T := ⟨S131072x64, .f32⟩) main_call4_v6) Host.exp,
    TRef.nullary (TRef.of (T := ⟨S_, .f32⟩) main_call4_cst_1) (constant S_ .f32 0x00000000#32),
    TRef.binary (TRef.of (T := ⟨S131072x64, .f32⟩) main_call4_v6) (TRef.of (T := ⟨S_, .f32⟩) main_call4_cst_1) (TRef.of (T := ⟨S131072, .f32⟩) main_call4_v7) (fun x v => Host.reduceAdd x v reducesTo_S131072x64_S131072_d1 h_S_),
    TRef.unary (TRef.of (T := ⟨S131072, .f32⟩) main_call4_v7) (TRef.of (T := ⟨S131072x1, .f32⟩) main_call4_v8) (broadcastInDim S131072x1 ![0] bcast_S131072_S131072x1_0),
    TRef.unary (TRef.of (T := ⟨S131072x1, .f32⟩) main_call4_v8) (TRef.of (T := ⟨S131072x1, .f32⟩) main_call4_v9) Host.log,
    TRef.unary (TRef.of (T := ⟨S131072x1, .f32⟩) main_call4_v9) (TRef.of (T := ⟨S131072x64, .f32⟩) main_call4_v10) (broadcastInDim S131072x64 ![0, 1] bcast_S131072x1_S131072x64_0_1),
    TRef.binary (TRef.of (T := ⟨S131072x64, .f32⟩) main_call4_v5) (TRef.of (T := ⟨S131072x64, .f32⟩) main_call4_v10) (TRef.of (T := ⟨S131072x64, .f32⟩) main_v79) subf,
    TRef.nullary (TRef.of (T := ⟨S_, .f32⟩) main_call5_cst) (constant S_ .f32 0xFF800000#32),
    TRef.binary (TRef.of (T := ⟨S131072x64, .f32⟩) main_v27) (TRef.of (T := ⟨S_, .f32⟩) main_call5_cst) (TRef.of (T := ⟨S131072, .f32⟩) main_call5_v0) (fun x v => Host.reduce FloatOps.maximumf x v reducesTo_S131072x64_S131072_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S131072, .f32⟩) main_call5_v1) (broadcastInDim S131072 ![] bcast_S_S131072),
    TRef.binary (TRef.of (T := ⟨S131072, .f32⟩) main_call5_v1) (TRef.of (T := ⟨S131072, .f32⟩) main_call5_v0) (TRef.of (T := ⟨S131072, .f32⟩) main_call5_v2) maximumf,
    TRef.unary (TRef.of (T := ⟨S131072, .f32⟩) main_call5_v2) (TRef.of (T := ⟨S131072x1, .f32⟩) main_call5_v3) (broadcastInDim S131072x1 ![0] bcast_S131072_S131072x1_0),
    TRef.unary (TRef.of (T := ⟨S131072x1, .f32⟩) main_call5_v3) (TRef.of (T := ⟨S131072x64, .f32⟩) main_call5_v4) (broadcastInDim S131072x64 ![0, 1] bcast_S131072x1_S131072x64_0_1),
    TRef.binary (TRef.of (T := ⟨S131072x64, .f32⟩) main_v27) (TRef.of (T := ⟨S131072x64, .f32⟩) main_call5_v4) (TRef.of (T := ⟨S131072x64, .f32⟩) main_call5_v5) subf,
    TRef.unary (TRef.of (T := ⟨S131072x64, .f32⟩) main_call5_v5) (TRef.of (T := ⟨S131072x64, .f32⟩) main_call5_v6) Host.exp,
    TRef.nullary (TRef.of (T := ⟨S_, .f32⟩) main_call5_cst_1) (constant S_ .f32 0x00000000#32),
    TRef.binary (TRef.of (T := ⟨S131072x64, .f32⟩) main_call5_v6) (TRef.of (T := ⟨S_, .f32⟩) main_call5_cst_1) (TRef.of (T := ⟨S131072, .f32⟩) main_call5_v7) (fun x v => Host.reduceAdd x v reducesTo_S131072x64_S131072_d1 h_S_),
    TRef.unary (TRef.of (T := ⟨S131072, .f32⟩) main_call5_v7) (TRef.of (T := ⟨S131072x1, .f32⟩) main_call5_v8) (broadcastInDim S131072x1 ![0] bcast_S131072_S131072x1_0),
    TRef.unary (TRef.of (T := ⟨S131072x1, .f32⟩) main_call5_v8) (TRef.of (T := ⟨S131072x1, .f32⟩) main_call5_v9) Host.log,
    TRef.unary (TRef.of (T := ⟨S131072x1, .f32⟩) main_call5_v9) (TRef.of (T := ⟨S131072x64, .f32⟩) main_call5_v10) (broadcastInDim S131072x64 ![0, 1] bcast_S131072x1_S131072x64_0_1),
    TRef.binary (TRef.of (T := ⟨S131072x64, .f32⟩) main_call5_v5) (TRef.of (T := ⟨S131072x64, .f32⟩) main_call5_v10) (TRef.of (T := ⟨S131072x64, .f32⟩) main_v80) subf,
    binary main_v79 main_v80 main_v81 subf,
    binary main_v78 main_v81 main_v82 mulf,
    nullary main_cst_19 (constant S_ .f32 0x00000000#32),
    binary main_v82 main_cst_19 main_v83 ((fun x v => Host.reduceAdd x v reducesTo_S131072x64_S_d0_1 h_S_)),
    nullary main_cst_20 (constant S_ .f32 0x4B000000#32),
    binary main_v83 main_cst_20 main_v84 Host.divf ]

theorem opsC3_sub : (opsC3 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., binary_bufs_sub .., binary_bufs_sub .., nullary_bufs_sub .., binary_bufs_sub .., nullary_bufs_sub .., binary_bufs_sub ..⟩

theorem opsC3_fresh : (opsC3 : List (HloOp τ sig (Elt F))).Forall fun op => op.fresh = ∅ := by
  repeat' apply And.intro
  all_goals rfl

abbrev opsC3_W : List (Ref sig .tc) := [main_cst_16, main_v68, main_cst_17, main_v69, main_v70, main_v71, main_v72, main_v73, main_v74, main_cst_18, main_v75, main_v76, main_v77, main_v78, main_call4_cst, main_call4_v0, main_call4_cst_0, main_call4_v1, main_call4_v2, main_call4_v3, main_call4_v4, main_call4_v5, main_call4_v6, main_call4_cst_1, main_call4_v7, main_call4_v8, main_call4_v9, main_call4_v10, main_v79, main_call5_cst, main_call5_v0, main_call5_cst_0, main_call5_v1, main_call5_v2, main_call5_v3, main_call5_v4, main_call5_v5, main_call5_v6, main_call5_cst_1, main_call5_v7, main_call5_v8, main_call5_v9, main_call5_v10, main_v80, main_v81, main_v82, main_cst_19, main_v83, main_cst_20, main_v84]

theorem opsC3_writes : (opsC3 : List (HloOp τ sig (Elt F))).Forall fun op => op.writes ⊆ (opsC3_W.map (Proc.devRef (τ := τ) .tc)).toFinset := by
  repeat' apply And.intro
  all_goals exact Finset.singleton_subset_iff.2 (List.mem_toFinset.2 (List.mem_map_of_mem (by decide)))

theorem opsC3_keep (W : Valuation τ sig (Elt F)) (r : Ref sig .tc) (h : r ∉ opsC3_W) :
    after opsC3 W (Proc.devRef .tc r) = W (Proc.devRef .tc r) :=
  after_of_writes_sub opsC3 _ opsC3_writes h

end Cert.ReferenceIdeal.Hand

end
-- ==== Proof.R.RunC3V.lean ====
import proofs.«417377_j33337536151700_1_alg».proof.Proof.R.RunC3
import proofs.«417377_j33337536151700_1_alg».proof.Proof.R.Cast

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem opsC3_val (W : Valuation τ sig (Elt F)) :
    after opsC3 W (Proc.devRef .tc main_v84)
      = klMean (W (Proc.devRef .tc main_v27)) (W (Proc.devRef .tc main_v31)) := by
  simp only [opsC3]
  after_results_simp
  simp only [ofBuf_toBuf, ofBuf_main_v27, ofBuf_main_v31, toBuf_main_v79, toBuf_main_v80]
  rfl

end Cert.ReferenceIdeal.Hand

end
-- ==== Proof.R.RunC4.lean ====
import proofs.«417377_j33337536151700_1_alg».proof.Proof.R.Stages
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev opsC4a : List (HloOp τ sig (Elt F)) :=
  [ nullary main_cst_21 (constant S_ .f32 0xFF800000#32),
    binary main_v27 main_cst_21 main_v85 ((fun x v => Host.reduce FloatOps.maximumf x v reducesTo_S131072x64_S131072_d1 h_S_)),
    nullary main_cst_22 (constant S_ .f32 0xFF800000#32),
    unary main_cst_22 main_v86 (broadcastInDim S131072 ![] bcast_S_S131072),
    binary main_v86 main_v85 main_v87 maximumf,
    unary main_v87 main_v88 (broadcastInDim S131072x1 ![0] bcast_S131072_S131072x1_0),
    unary main_v88 main_v89 (broadcastInDim S131072x64 ![0, 1] bcast_S131072x1_S131072x64_0_1),
    binary main_v27 main_v89 main_v90 subf,
    unary main_v90 main_v91 Host.exp,
    nullary main_cst_23 (constant S_ .f32 0x00000000#32),
    binary main_v91 main_cst_23 main_v92 ((fun x v => Host.reduceAdd x v reducesTo_S131072x64_S131072_d1 h_S_)),
    unary main_v92 main_v93 (broadcastInDim S131072x1 ![0] bcast_S131072_S131072x1_0),
    unary main_v93 main_v94 (broadcastInDim S131072x64 ![0, 1] bcast_S131072x1_S131072x64_0_1) ]

theorem opsC4a_sub : (opsC4a : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub ..⟩

theorem opsC4a_fresh : (opsC4a : List (HloOp τ sig (Elt F))).Forall fun op => op.fresh = ∅ := by
  repeat' apply And.intro
  all_goals rfl

abbrev opsC4a_W : List (Ref sig .tc) := [main_cst_21, main_v85, main_cst_22, main_v86, main_v87, main_v88, main_v89, main_v90, main_v91, main_cst_23, main_v92, main_v93, main_v94]

theorem opsC4a_writes : (opsC4a : List (HloOp τ sig (Elt F))).Forall fun op => op.writes ⊆ (opsC4a_W.map (Proc.devRef (τ := τ) .tc)).toFinset := by
  repeat' apply And.intro
  all_goals exact Finset.singleton_subset_iff.2 (List.mem_toFinset.2 (List.mem_map_of_mem (by decide)))

theorem opsC4a_keep (W : Valuation τ sig (Elt F)) (r : Ref sig .tc) (h : r ∉ opsC4a_W) :
    after opsC4a W (Proc.devRef .tc r) = W (Proc.devRef .tc r) :=
  after_of_writes_sub opsC4a _ opsC4a_writes h

abbrev opsC4b : List (HloOp τ sig (Elt F)) :=
  [ binary main_v91 main_v94 main_v95 Host.divf,
    TRef.nullary (TRef.of (T := ⟨S_, .f32⟩) main_call6_cst) (constant S_ .f32 0xFF800000#32),
    TRef.binary (TRef.of (T := ⟨S131072x64, .f32⟩) main_v27) (TRef.of (T := ⟨S_, .f32⟩) main_call6_cst) (TRef.of (T := ⟨S131072, .f32⟩) main_call6_v0) (fun x v => Host.reduce FloatOps.maximumf x v reducesTo_S131072x64_S131072_d1 h_S_),
    TRef.nullary (TRef.of (T := ⟨S_, .f32⟩) main_call6_cst_0) (constant S_ .f32 0xFF800000#32),
    TRef.unary (TRef.of (T := ⟨S_, .f32⟩) main_call6_cst_0) (TRef.of (T := ⟨S131072, .f32⟩) main_call6_v1) (broadcastInDim S131072 ![] bcast_S_S131072),
    TRef.binary (TRef.of (T := ⟨S131072, .f32⟩) main_call6_v1) (TRef.of (T := ⟨S131072, .f32⟩) main_call6_v0) (TRef.of (T := ⟨S131072, .f32⟩) main_call6_v2) maximumf,
    TRef.unary (TRef.of (T := ⟨S131072, .f32⟩) main_call6_v2) (TRef.of (T := ⟨S131072x1, .f32⟩) main_call6_v3) (broadcastInDim S131072x1 ![0] bcast_S131072_S131072x1_0),
    TRef.unary (TRef.of (T := ⟨S131072x1, .f32⟩) main_call6_v3) (TRef.of (T := ⟨S131072x64, .f32⟩) main_call6_v4) (broadcastInDim S131072x64 ![0, 1] bcast_S131072x1_S131072x64_0_1),
    TRef.binary (TRef.of (T := ⟨S131072x64, .f32⟩) main_v27) (TRef.of (T := ⟨S131072x64, .f32⟩) main_call6_v4) (TRef.of (T := ⟨S131072x64, .f32⟩) main_call6_v5) subf,
    TRef.unary (TRef.of (T := ⟨S131072x64, .f32⟩) main_call6_v5) (TRef.of (T := ⟨S131072x64, .f32⟩) main_call6_v6) Host.exp,
    TRef.nullary (TRef.of (T := ⟨S_, .f32⟩) main_call6_cst_1) (constant S_ .f32 0x00000000#32),
    TRef.binary (TRef.of (T := ⟨S131072x64, .f32⟩) main_call6_v6) (TRef.of (T := ⟨S_, .f32⟩) main_call6_cst_1) (TRef.of (T := ⟨S131072, .f32⟩) main_call6_v7) (fun x v => Host.reduceAdd x v reducesTo_S131072x64_S131072_d1 h_S_),
    TRef.unary (TRef.of (T := ⟨S131072, .f32⟩) main_call6_v7) (TRef.of (T := ⟨S131072x1, .f32⟩) main_call6_v8) (broadcastInDim S131072x1 ![0] bcast_S131072_S131072x1_0),
    TRef.unary (TRef.of (T := ⟨S131072x1, .f32⟩) main_call6_v8) (TRef.of (T := ⟨S131072x1, .f32⟩) main_call6_v9) Host.log,
    TRef.unary (TRef.of (T := ⟨S131072x1, .f32⟩) main_call6_v9) (TRef.of (T := ⟨S131072x64, .f32⟩) main_call6_v10) (broadcastInDim S131072x64 ![0, 1] bcast_S131072x1_S131072x64_0_1),
    TRef.binary (TRef.of (T := ⟨S131072x64, .f32⟩) main_call6_v5) (TRef.of (T := ⟨S131072x64, .f32⟩) main_call6_v10) (TRef.of (T := ⟨S131072x64, .f32⟩) main_v96) subf,
    TRef.nullary (TRef.of (T := ⟨S_, .f32⟩) main_call7_cst) (constant S_ .f32 0xFF800000#32),
    TRef.binary (TRef.of (T := ⟨S131072x64, .f32⟩) main_v31) (TRef.of (T := ⟨S_, .f32⟩) main_call7_cst) (TRef.of (T := ⟨S131072, .f32⟩) main_call7_v0) (fun x v => Host.reduce FloatOps.maximumf x v reducesTo_S131072x64_S131072_d1 h_S_),
    TRef.nullary (TRef.of (T := ⟨S_, .f32⟩) main_call7_cst_0) (constant S_ .f32 0xFF800000#32),
    TRef.unary (TRef.of (T := ⟨S_, .f32⟩) main_call7_cst_0) (TRef.of (T := ⟨S131072, .f32⟩) main_call7_v1) (broadcastInDim S131072 ![] bcast_S_S131072),
    TRef.binary (TRef.of (T := ⟨S131072, .f32⟩) main_call7_v1) (TRef.of (T := ⟨S131072, .f32⟩) main_call7_v0) (TRef.of (T := ⟨S131072, .f32⟩) main_call7_v2) maximumf,
    TRef.unary (TRef.of (T := ⟨S131072, .f32⟩) main_call7_v2) (TRef.of (T := ⟨S131072x1, .f32⟩) main_call7_v3) (broadcastInDim S131072x1 ![0] bcast_S131072_S131072x1_0),
    TRef.unary (TRef.of (T := ⟨S131072x1, .f32⟩) main_call7_v3) (TRef.of (T := ⟨S131072x64, .f32⟩) main_call7_v4) (broadcastInDim S131072x64 ![0, 1] bcast_S131072x1_S131072x64_0_1),
    TRef.binary (TRef.of (T := ⟨S131072x64, .f32⟩) main_v31) (TRef.of (T := ⟨S131072x64, .f32⟩) main_call7_v4) (TRef.of (T := ⟨S131072x64, .f32⟩) main_call7_v5) subf,
    TRef.unary (TRef.of (T := ⟨S131072x64, .f32⟩) main_call7_v5) (TRef.of (T := ⟨S131072x64, .f32⟩) main_call7_v6) Host.exp,
    TRef.nullary (TRef.of (T := ⟨S_, .f32⟩) main_call7_cst_1) (constant S_ .f32 0x00000000#32),
    TRef.binary (TRef.of (T := ⟨S131072x64, .f32⟩) main_call7_v6) (TRef.of (T := ⟨S_, .f32⟩) main_call7_cst_1) (TRef.of (T := ⟨S131072, .f32⟩) main_call7_v7) (fun x v => Host.reduceAdd x v reducesTo_S131072x64_S131072_d1 h_S_),
    TRef.unary (TRef.of (T := ⟨S131072, .f32⟩) main_call7_v7) (TRef.of (T := ⟨S131072x1, .f32⟩) main_call7_v8) (broadcastInDim S131072x1 ![0] bcast_S131072_S131072x1_0),
    TRef.unary (TRef.of (T := ⟨S131072x1, .f32⟩) main_call7_v8) (TRef.of (T := ⟨S131072x1, .f32⟩) main_call7_v9) Host.log,
    TRef.unary (TRef.of (T := ⟨S131072x1, .f32⟩) main_call7_v9) (TRef.of (T := ⟨S131072x64, .f32⟩) main_call7_v10) (broadcastInDim S131072x64 ![0, 1] bcast_S131072x1_S131072x64_0_1),
    TRef.binary (TRef.of (T := ⟨S131072x64, .f32⟩) main_call7_v5) (TRef.of (T := ⟨S131072x64, .f32⟩) main_call7_v10) (TRef.of (T := ⟨S131072x64, .f32⟩) main_v97) subf,
    binary main_v96 main_v97 main_v98 subf,
    binary main_v95 main_v98 main_v99 mulf,
    nullary main_cst_24 (constant S_ .f32 0x00000000#32),
    binary main_v99 main_cst_24 main_v100 ((fun x v => Host.reduceAdd x v reducesTo_S131072x64_S_d0_1 h_S_)),
    nullary main_cst_25 (constant S_ .f32 0x4B000000#32),
    binary main_v100 main_cst_25 main_v101 Host.divf ]

theorem opsC4b_sub : (opsC4b : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., binary_bufs_sub .., binary_bufs_sub .., nullary_bufs_sub .., binary_bufs_sub .., nullary_bufs_sub .., binary_bufs_sub ..⟩

theorem opsC4b_fresh : (opsC4b : List (HloOp τ sig (Elt F))).Forall fun op => op.fresh = ∅ := by
  repeat' apply And.intro
  all_goals rfl

abbrev opsC4b_W : List (Ref sig .tc) := [main_v95, main_call6_cst, main_call6_v0, main_call6_cst_0, main_call6_v1, main_call6_v2, main_call6_v3, main_call6_v4, main_call6_v5, main_call6_v6, main_call6_cst_1, main_call6_v7, main_call6_v8, main_call6_v9, main_call6_v10, main_v96, main_call7_cst, main_call7_v0, main_call7_cst_0, main_call7_v1, main_call7_v2, main_call7_v3, main_call7_v4, main_call7_v5, main_call7_v6, main_call7_cst_1, main_call7_v7, main_call7_v8, main_call7_v9, main_call7_v10, main_v97, main_v98, main_v99, main_cst_24, main_v100, main_cst_25, main_v101]

theorem opsC4b_writes : (opsC4b : List (HloOp τ sig (Elt F))).Forall fun op => op.writes ⊆ (opsC4b_W.map (Proc.devRef (τ := τ) .tc)).toFinset := by
  repeat' apply And.intro
  all_goals exact Finset.singleton_subset_iff.2 (List.mem_toFinset.2 (List.mem_map_of_mem (by decide)))

theorem opsC4b_keep (W : Valuation τ sig (Elt F)) (r : Ref sig .tc) (h : r ∉ opsC4b_W) :
    after opsC4b W (Proc.devRef .tc r) = W (Proc.devRef .tc r) :=
  after_of_writes_sub opsC4b _ opsC4b_writes h

end Cert.ReferenceIdeal.Hand

end
-- ==== Proof.R.RunC4V.lean ====
import proofs.«417377_j33337536151700_1_alg».proof.Proof.R.RunC4
import proofs.«417377_j33337536151700_1_alg».proof.Proof.R.Cast

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem opsC4_val (W : Valuation τ sig (Elt F)) :
    after opsC4b (after opsC4a W) (Proc.devRef .tc main_v101)
      = klMean (W (Proc.devRef .tc main_v31)) (W (Proc.devRef .tc main_v27)) := by
  simp only [opsC4a, opsC4b]
  after_results_simp
  simp only [ofBuf_toBuf, ofBuf_main_v31, ofBuf_main_v27, toBuf_main_v96, toBuf_main_v97]
  rfl

end Cert.ReferenceIdeal.Hand

end
-- ==== Proof.R.RunC5.lean ====
import proofs.«417377_j33337536151700_1_alg».proof.Proof.R.Stages
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev opsC5 : List (HloOp τ sig (Elt F)) :=
  [ nullary main_cst_27 (constant S_ .f32 0xFF800000#32),
    binary main_v31 main_cst_27 main_v104 ((fun x v => Host.reduce FloatOps.maximumf x v reducesTo_S131072x64_S131072_d1 h_S_)),
    nullary main_cst_28 (constant S_ .f32 0xFF800000#32),
    unary main_cst_28 main_v105 (broadcastInDim S131072 ![] bcast_S_S131072),
    binary main_v105 main_v104 main_v106 maximumf,
    unary main_v106 main_v107 (broadcastInDim S131072x1 ![0] bcast_S131072_S131072x1_0),
    unary main_v107 main_v108 (broadcastInDim S131072x64 ![0, 1] bcast_S131072x1_S131072x64_0_1),
    binary main_v31 main_v108 main_v109 subf,
    unary main_v109 main_v110 Host.exp,
    nullary main_cst_29 (constant S_ .f32 0x00000000#32),
    binary main_v110 main_cst_29 main_v111 ((fun x v => Host.reduceAdd x v reducesTo_S131072x64_S131072_d1 h_S_)),
    unary main_v111 main_v112 (broadcastInDim S131072x1 ![0] bcast_S131072_S131072x1_0),
    unary main_v112 main_v113 (broadcastInDim S131072x64 ![0, 1] bcast_S131072x1_S131072x64_0_1),
    binary main_v110 main_v113 main_v114 Host.divf,
    TRef.nullary (TRef.of (T := ⟨S_, .f32⟩) main_call8_cst) (constant S_ .f32 0xFF800000#32),
    TRef.binary (TRef.of (T := ⟨S131072x64, .f32⟩) main_v31) (TRef.of (T := ⟨S_, .f32⟩) main_call8_cst) (TRef.of (T := ⟨S131072, .f32⟩) main_call8_v0) (fun x v => Host.reduce FloatOps.maximumf x v reducesTo_S131072x64_S131072_d1 h_S_),
    TRef.nullary (TRef.of (T := ⟨S_, .f32⟩) main_call8_cst_0) (constant S_ .f32 0xFF800000#32),
    TRef.unary (TRef.of (T := ⟨S_, .f32⟩) main_call8_cst_0) (TRef.of (T := ⟨S131072, .f32⟩) main_call8_v1) (broadcastInDim S131072 ![] bcast_S_S131072),
    TRef.binary (TRef.of (T := ⟨S131072, .f32⟩) main_call8_v1) (TRef.of (T := ⟨S131072, .f32⟩) main_call8_v0) (TRef.of (T := ⟨S131072, .f32⟩) main_call8_v2) maximumf,
    TRef.unary (TRef.of (T := ⟨S131072, .f32⟩) main_call8_v2) (TRef.of (T := ⟨S131072x1, .f32⟩) main_call8_v3) (broadcastInDim S131072x1 ![0] bcast_S131072_S131072x1_0),
    TRef.unary (TRef.of (T := ⟨S131072x1, .f32⟩) main_call8_v3) (TRef.of (T := ⟨S131072x64, .f32⟩) main_call8_v4) (broadcastInDim S131072x64 ![0, 1] bcast_S131072x1_S131072x64_0_1),
    TRef.binary (TRef.of (T := ⟨S131072x64, .f32⟩) main_v31) (TRef.of (T := ⟨S131072x64, .f32⟩) main_call8_v4) (TRef.of (T := ⟨S131072x64, .f32⟩) main_call8_v5) subf,
    TRef.unary (TRef.of (T := ⟨S131072x64, .f32⟩) main_call8_v5) (TRef.of (T := ⟨S131072x64, .f32⟩) main_call8_v6) Host.exp,
    TRef.nullary (TRef.of (T := ⟨S_, .f32⟩) main_call8_cst_1) (constant S_ .f32 0x00000000#32),
    TRef.binary (TRef.of (T := ⟨S131072x64, .f32⟩) main_call8_v6) (TRef.of (T := ⟨S_, .f32⟩) main_call8_cst_1) (TRef.of (T := ⟨S131072, .f32⟩) main_call8_v7) (fun x v => Host.reduceAdd x v reducesTo_S131072x64_S131072_d1 h_S_),
    TRef.unary (TRef.of (T := ⟨S131072, .f32⟩) main_call8_v7) (TRef.of (T := ⟨S131072x1, .f32⟩) main_call8_v8) (broadcastInDim S131072x1 ![0] bcast_S131072_S131072x1_0),
    TRef.unary (TRef.of (T := ⟨S131072x1, .f32⟩) main_call8_v8) (TRef.of (T := ⟨S131072x1, .f32⟩) main_call8_v9) Host.log,
    TRef.unary (TRef.of (T := ⟨S131072x1, .f32⟩) main_call8_v9) (TRef.of (T := ⟨S131072x64, .f32⟩) main_call8_v10) (broadcastInDim S131072x64 ![0, 1] bcast_S131072x1_S131072x64_0_1),
    TRef.binary (TRef.of (T := ⟨S131072x64, .f32⟩) main_call8_v5) (TRef.of (T := ⟨S131072x64, .f32⟩) main_call8_v10) (TRef.of (T := ⟨S131072x64, .f32⟩) main_v115) subf,
    TRef.nullary (TRef.of (T := ⟨S_, .f32⟩) main_call9_cst) (constant S_ .f32 0xFF800000#32),
    TRef.binary (TRef.of (T := ⟨S131072x64, .f32⟩) main_v29) (TRef.of (T := ⟨S_, .f32⟩) main_call9_cst) (TRef.of (T := ⟨S131072, .f32⟩) main_call9_v0) (fun x v => Host.reduce FloatOps.maximumf x v reducesTo_S131072x64_S131072_d1 h_S_),
    TRef.nullary (TRef.of (T := ⟨S_, .f32⟩) main_call9_cst_0) (constant S_ .f32 0xFF800000#32),
    TRef.unary (TRef.of (T := ⟨S_, .f32⟩) main_call9_cst_0) (TRef.of (T := ⟨S131072, .f32⟩) main_call9_v1) (broadcastInDim S131072 ![] bcast_S_S131072),
    TRef.binary (TRef.of (T := ⟨S131072, .f32⟩) main_call9_v1) (TRef.of (T := ⟨S131072, .f32⟩) main_call9_v0) (TRef.of (T := ⟨S131072, .f32⟩) main_call9_v2) maximumf,
    TRef.unary (TRef.of (T := ⟨S131072, .f32⟩) main_call9_v2) (TRef.of (T := ⟨S131072x1, .f32⟩) main_call9_v3) (broadcastInDim S131072x1 ![0] bcast_S131072_S131072x1_0),
    TRef.unary (TRef.of (T := ⟨S131072x1, .f32⟩) main_call9_v3) (TRef.of (T := ⟨S131072x64, .f32⟩) main_call9_v4) (broadcastInDim S131072x64 ![0, 1] bcast_S131072x1_S131072x64_0_1),
    TRef.binary (TRef.of (T := ⟨S131072x64, .f32⟩) main_v29) (TRef.of (T := ⟨S131072x64, .f32⟩) main_call9_v4) (TRef.of (T := ⟨S131072x64, .f32⟩) main_call9_v5) subf,
    TRef.unary (TRef.of (T := ⟨S131072x64, .f32⟩) main_call9_v5) (TRef.of (T := ⟨S131072x64, .f32⟩) main_call9_v6) Host.exp,
    TRef.nullary (TRef.of (T := ⟨S_, .f32⟩) main_call9_cst_1) (constant S_ .f32 0x00000000#32),
    TRef.binary (TRef.of (T := ⟨S131072x64, .f32⟩) main_call9_v6) (TRef.of (T := ⟨S_, .f32⟩) main_call9_cst_1) (TRef.of (T := ⟨S131072, .f32⟩) main_call9_v7) (fun x v => Host.reduceAdd x v reducesTo_S131072x64_S131072_d1 h_S_),
    TRef.unary (TRef.of (T := ⟨S131072, .f32⟩) main_call9_v7) (TRef.of (T := ⟨S131072x1, .f32⟩) main_call9_v8) (broadcastInDim S131072x1 ![0] bcast_S131072_S131072x1_0),
    TRef.unary (TRef.of (T := ⟨S131072x1, .f32⟩) main_call9_v8) (TRef.of (T := ⟨S131072x1, .f32⟩) main_call9_v9) Host.log,
    TRef.unary (TRef.of (T := ⟨S131072x1, .f32⟩) main_call9_v9) (TRef.of (T := ⟨S131072x64, .f32⟩) main_call9_v10) (broadcastInDim S131072x64 ![0, 1] bcast_S131072x1_S131072x64_0_1),
    TRef.binary (TRef.of (T := ⟨S131072x64, .f32⟩) main_call9_v5) (TRef.of (T := ⟨S131072x64, .f32⟩) main_call9_v10) (TRef.of (T := ⟨S131072x64, .f32⟩) main_v116) subf,
    binary main_v115 main_v116 main_v117 subf,
    binary main_v114 main_v117 main_v118 mulf,
    nullary main_cst_30 (constant S_ .f32 0x00000000#32),
    binary main_v118 main_cst_30 main_v119 ((fun x v => Host.reduceAdd x v reducesTo_S131072x64_S_d0_1 h_S_)),
    nullary main_cst_31 (constant S_ .f32 0x4B000000#32),
    binary main_v119 main_cst_31 main_v120 Host.divf ]

theorem opsC5_sub : (opsC5 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., binary_bufs_sub .., binary_bufs_sub .., nullary_bufs_sub .., binary_bufs_sub .., nullary_bufs_sub .., binary_bufs_sub ..⟩

theorem opsC5_fresh : (opsC5 : List (HloOp τ sig (Elt F))).Forall fun op => op.fresh = ∅ := by
  repeat' apply And.intro
  all_goals rfl

abbrev opsC5_W : List (Ref sig .tc) := [main_cst_27, main_v104, main_cst_28, main_v105, main_v106, main_v107, main_v108, main_v109, main_v110, main_cst_29, main_v111, main_v112, main_v113, main_v114, main_call8_cst, main_call8_v0, main_call8_cst_0, main_call8_v1, main_call8_v2, main_call8_v3, main_call8_v4, main_call8_v5, main_call8_v6, main_call8_cst_1, main_call8_v7, main_call8_v8, main_call8_v9, main_call8_v10, main_v115, main_call9_cst, main_call9_v0, main_call9_cst_0, main_call9_v1, main_call9_v2, main_call9_v3, main_call9_v4, main_call9_v5, main_call9_v6, main_call9_cst_1, main_call9_v7, main_call9_v8, main_call9_v9, main_call9_v10, main_v116, main_v117, main_v118, main_cst_30, main_v119, main_cst_31, main_v120]

theorem opsC5_writes : (opsC5 : List (HloOp τ sig (Elt F))).Forall fun op => op.writes ⊆ (opsC5_W.map (Proc.devRef (τ := τ) .tc)).toFinset := by
  repeat' apply And.intro
  all_goals exact Finset.singleton_subset_iff.2 (List.mem_toFinset.2 (List.mem_map_of_mem (by decide)))

theorem opsC5_keep (W : Valuation τ sig (Elt F)) (r : Ref sig .tc) (h : r ∉ opsC5_W) :
    after opsC5 W (Proc.devRef .tc r) = W (Proc.devRef .tc r) :=
  after_of_writes_sub opsC5 _ opsC5_writes h

end Cert.ReferenceIdeal.Hand

end
-- ==== Proof.R.RunC5V.lean ====
import proofs.«417377_j33337536151700_1_alg».proof.Proof.R.RunC5
import proofs.«417377_j33337536151700_1_alg».proof.Proof.R.Cast

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem opsC5_val (W : Valuation τ sig (Elt F)) :
    after opsC5 W (Proc.devRef .tc main_v120)
      = klMean (W (Proc.devRef .tc main_v29)) (W (Proc.devRef .tc main_v31)) := by
  simp only [opsC5]
  after_results_simp
  simp only [ofBuf_toBuf, ofBuf_main_v29, ofBuf_main_v31, toBuf_main_v115, toBuf_main_v116]
  rfl

end Cert.ReferenceIdeal.Hand

end
-- ==== Proof.R.RunC6.lean ====
import proofs.«417377_j33337536151700_1_alg».proof.Proof.R.Stages
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev opsC6 : List (HloOp τ sig (Elt F)) :=
  [ nullary main_cst_32 (constant S_ .f32 0xFF800000#32),
    binary main_v29 main_cst_32 main_v121 ((fun x v => Host.reduce FloatOps.maximumf x v reducesTo_S131072x64_S131072_d1 h_S_)),
    nullary main_cst_33 (constant S_ .f32 0xFF800000#32),
    unary main_cst_33 main_v122 (broadcastInDim S131072 ![] bcast_S_S131072),
    binary main_v122 main_v121 main_v123 maximumf,
    unary main_v123 main_v124 (broadcastInDim S131072x1 ![0] bcast_S131072_S131072x1_0),
    unary main_v124 main_v125 (broadcastInDim S131072x64 ![0, 1] bcast_S131072x1_S131072x64_0_1),
    binary main_v29 main_v125 main_v126 subf,
    unary main_v126 main_v127 Host.exp,
    nullary main_cst_34 (constant S_ .f32 0x00000000#32),
    binary main_v127 main_cst_34 main_v128 ((fun x v => Host.reduceAdd x v reducesTo_S131072x64_S131072_d1 h_S_)),
    unary main_v128 main_v129 (broadcastInDim S131072x1 ![0] bcast_S131072_S131072x1_0),
    unary main_v129 main_v130 (broadcastInDim S131072x64 ![0, 1] bcast_S131072x1_S131072x64_0_1),
    binary main_v127 main_v130 main_v131 Host.divf,
    TRef.nullary (TRef.of (T := ⟨S_, .f32⟩) main_call10_cst) (constant S_ .f32 0xFF800000#32),
    TRef.binary (TRef.of (T := ⟨S131072x64, .f32⟩) main_v29) (TRef.of (T := ⟨S_, .f32⟩) main_call10_cst) (TRef.of (T := ⟨S131072, .f32⟩) main_call10_v0) (fun x v => Host.reduce FloatOps.maximumf x v reducesTo_S131072x64_S131072_d1 h_S_),
    TRef.nullary (TRef.of (T := ⟨S_, .f32⟩) main_call10_cst_0) (constant S_ .f32 0xFF800000#32),
    TRef.unary (TRef.of (T := ⟨S_, .f32⟩) main_call10_cst_0) (TRef.of (T := ⟨S131072, .f32⟩) main_call10_v1) (broadcastInDim S131072 ![] bcast_S_S131072),
    TRef.binary (TRef.of (T := ⟨S131072, .f32⟩) main_call10_v1) (TRef.of (T := ⟨S131072, .f32⟩) main_call10_v0) (TRef.of (T := ⟨S131072, .f32⟩) main_call10_v2) maximumf,
    TRef.unary (TRef.of (T := ⟨S131072, .f32⟩) main_call10_v2) (TRef.of (T := ⟨S131072x1, .f32⟩) main_call10_v3) (broadcastInDim S131072x1 ![0] bcast_S131072_S131072x1_0),
    TRef.unary (TRef.of (T := ⟨S131072x1, .f32⟩) main_call10_v3) (TRef.of (T := ⟨S131072x64, .f32⟩) main_call10_v4) (broadcastInDim S131072x64 ![0, 1] bcast_S131072x1_S131072x64_0_1),
    TRef.binary (TRef.of (T := ⟨S131072x64, .f32⟩) main_v29) (TRef.of (T := ⟨S131072x64, .f32⟩) main_call10_v4) (TRef.of (T := ⟨S131072x64, .f32⟩) main_call10_v5) subf,
    TRef.unary (TRef.of (T := ⟨S131072x64, .f32⟩) main_call10_v5) (TRef.of (T := ⟨S131072x64, .f32⟩) main_call10_v6) Host.exp,
    TRef.nullary (TRef.of (T := ⟨S_, .f32⟩) main_call10_cst_1) (constant S_ .f32 0x00000000#32),
    TRef.binary (TRef.of (T := ⟨S131072x64, .f32⟩) main_call10_v6) (TRef.of (T := ⟨S_, .f32⟩) main_call10_cst_1) (TRef.of (T := ⟨S131072, .f32⟩) main_call10_v7) (fun x v => Host.reduceAdd x v reducesTo_S131072x64_S131072_d1 h_S_),
    TRef.unary (TRef.of (T := ⟨S131072, .f32⟩) main_call10_v7) (TRef.of (T := ⟨S131072x1, .f32⟩) main_call10_v8) (broadcastInDim S131072x1 ![0] bcast_S131072_S131072x1_0),
    TRef.unary (TRef.of (T := ⟨S131072x1, .f32⟩) main_call10_v8) (TRef.of (T := ⟨S131072x1, .f32⟩) main_call10_v9) Host.log,
    TRef.unary (TRef.of (T := ⟨S131072x1, .f32⟩) main_call10_v9) (TRef.of (T := ⟨S131072x64, .f32⟩) main_call10_v10) (broadcastInDim S131072x64 ![0, 1] bcast_S131072x1_S131072x64_0_1),
    TRef.binary (TRef.of (T := ⟨S131072x64, .f32⟩) main_call10_v5) (TRef.of (T := ⟨S131072x64, .f32⟩) main_call10_v10) (TRef.of (T := ⟨S131072x64, .f32⟩) main_v132) subf,
    TRef.nullary (TRef.of (T := ⟨S_, .f32⟩) main_call11_cst) (constant S_ .f32 0xFF800000#32),
    TRef.binary (TRef.of (T := ⟨S131072x64, .f32⟩) main_v31) (TRef.of (T := ⟨S_, .f32⟩) main_call11_cst) (TRef.of (T := ⟨S131072, .f32⟩) main_call11_v0) (fun x v => Host.reduce FloatOps.maximumf x v reducesTo_S131072x64_S131072_d1 h_S_),
    TRef.nullary (TRef.of (T := ⟨S_, .f32⟩) main_call11_cst_0) (constant S_ .f32 0xFF800000#32),
    TRef.unary (TRef.of (T := ⟨S_, .f32⟩) main_call11_cst_0) (TRef.of (T := ⟨S131072, .f32⟩) main_call11_v1) (broadcastInDim S131072 ![] bcast_S_S131072),
    TRef.binary (TRef.of (T := ⟨S131072, .f32⟩) main_call11_v1) (TRef.of (T := ⟨S131072, .f32⟩) main_call11_v0) (TRef.of (T := ⟨S131072, .f32⟩) main_call11_v2) maximumf,
    TRef.unary (TRef.of (T := ⟨S131072, .f32⟩) main_call11_v2) (TRef.of (T := ⟨S131072x1, .f32⟩) main_call11_v3) (broadcastInDim S131072x1 ![0] bcast_S131072_S131072x1_0),
    TRef.unary (TRef.of (T := ⟨S131072x1, .f32⟩) main_call11_v3) (TRef.of (T := ⟨S131072x64, .f32⟩) main_call11_v4) (broadcastInDim S131072x64 ![0, 1] bcast_S131072x1_S131072x64_0_1),
    TRef.binary (TRef.of (T := ⟨S131072x64, .f32⟩) main_v31) (TRef.of (T := ⟨S131072x64, .f32⟩) main_call11_v4) (TRef.of (T := ⟨S131072x64, .f32⟩) main_call11_v5) subf,
    TRef.unary (TRef.of (T := ⟨S131072x64, .f32⟩) main_call11_v5) (TRef.of (T := ⟨S131072x64, .f32⟩) main_call11_v6) Host.exp,
    TRef.nullary (TRef.of (T := ⟨S_, .f32⟩) main_call11_cst_1) (constant S_ .f32 0x00000000#32),
    TRef.binary (TRef.of (T := ⟨S131072x64, .f32⟩) main_call11_v6) (TRef.of (T := ⟨S_, .f32⟩) main_call11_cst_1) (TRef.of (T := ⟨S131072, .f32⟩) main_call11_v7) (fun x v => Host.reduceAdd x v reducesTo_S131072x64_S131072_d1 h_S_),
    TRef.unary (TRef.of (T := ⟨S131072, .f32⟩) main_call11_v7) (TRef.of (T := ⟨S131072x1, .f32⟩) main_call11_v8) (broadcastInDim S131072x1 ![0] bcast_S131072_S131072x1_0),
    TRef.unary (TRef.of (T := ⟨S131072x1, .f32⟩) main_call11_v8) (TRef.of (T := ⟨S131072x1, .f32⟩) main_call11_v9) Host.log,
    TRef.unary (TRef.of (T := ⟨S131072x1, .f32⟩) main_call11_v9) (TRef.of (T := ⟨S131072x64, .f32⟩) main_call11_v10) (broadcastInDim S131072x64 ![0, 1] bcast_S131072x1_S131072x64_0_1),
    TRef.binary (TRef.of (T := ⟨S131072x64, .f32⟩) main_call11_v5) (TRef.of (T := ⟨S131072x64, .f32⟩) main_call11_v10) (TRef.of (T := ⟨S131072x64, .f32⟩) main_v133) subf,
    binary main_v132 main_v133 main_v134 subf,
    binary main_v131 main_v134 main_v135 mulf,
    nullary main_cst_35 (constant S_ .f32 0x00000000#32),
    binary main_v135 main_cst_35 main_v136 ((fun x v => Host.reduceAdd x v reducesTo_S131072x64_S_d0_1 h_S_)),
    nullary main_cst_36 (constant S_ .f32 0x4B000000#32),
    binary main_v136 main_cst_36 main_v137 Host.divf ]

theorem opsC6_sub : (opsC6 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., binary_bufs_sub .., binary_bufs_sub .., nullary_bufs_sub .., binary_bufs_sub .., nullary_bufs_sub .., binary_bufs_sub ..⟩

theorem opsC6_fresh : (opsC6 : List (HloOp τ sig (Elt F))).Forall fun op => op.fresh = ∅ := by
  repeat' apply And.intro
  all_goals rfl

abbrev opsC6_W : List (Ref sig .tc) := [main_cst_32, main_v121, main_cst_33, main_v122, main_v123, main_v124, main_v125, main_v126, main_v127, main_cst_34, main_v128, main_v129, main_v130, main_v131, main_call10_cst, main_call10_v0, main_call10_cst_0, main_call10_v1, main_call10_v2, main_call10_v3, main_call10_v4, main_call10_v5, main_call10_v6, main_call10_cst_1, main_call10_v7, main_call10_v8, main_call10_v9, main_call10_v10, main_v132, main_call11_cst, main_call11_v0, main_call11_cst_0, main_call11_v1, main_call11_v2, main_call11_v3, main_call11_v4, main_call11_v5, main_call11_v6, main_call11_cst_1, main_call11_v7, main_call11_v8, main_call11_v9, main_call11_v10, main_v133, main_v134, main_v135, main_cst_35, main_v136, main_cst_36, main_v137]

theorem opsC6_writes : (opsC6 : List (HloOp τ sig (Elt F))).Forall fun op => op.writes ⊆ (opsC6_W.map (Proc.devRef (τ := τ) .tc)).toFinset := by
  repeat' apply And.intro
  all_goals exact Finset.singleton_subset_iff.2 (List.mem_toFinset.2 (List.mem_map_of_mem (by decide)))

theorem opsC6_keep (W : Valuation τ sig (Elt F)) (r : Ref sig .tc) (h : r ∉ opsC6_W) :
    after opsC6 W (Proc.devRef .tc r) = W (Proc.devRef .tc r) :=
  after_of_writes_sub opsC6 _ opsC6_writes h

end Cert.ReferenceIdeal.Hand

end
-- ==== Proof.R.RunC6V.lean ====
import proofs.«417377_j33337536151700_1_alg».proof.Proof.R.RunC6
import proofs.«417377_j33337536151700_1_alg».proof.Proof.R.Cast

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem opsC6_val (W : Valuation τ sig (Elt F)) :
    after opsC6 W (Proc.devRef .tc main_v137)
      = klMean (W (Proc.devRef .tc main_v31)) (W (Proc.devRef .tc main_v29)) := by
  simp only [opsC6]
  after_results_simp
  simp only [ofBuf_toBuf, ofBuf_main_v31, ofBuf_main_v29, toBuf_main_v132, toBuf_main_v133]
  rfl

end Cert.ReferenceIdeal.Hand

end
-- ==== Proof.R.RunBlocks.lean ====
import proofs.«417377_j33337536151700_1_alg».proof.Proof.R.RunC1V
import proofs.«417377_j33337536151700_1_alg».proof.Proof.R.RunC2V
import proofs.«417377_j33337536151700_1_alg».proof.Proof.R.RunC3V
import proofs.«417377_j33337536151700_1_alg».proof.Proof.R.RunC4V
import proofs.«417377_j33337536151700_1_alg».proof.Proof.R.RunC5V
import proofs.«417377_j33337536151700_1_alg».proof.Proof.R.RunC6V
import proofs.«417377_j33337536151700_1_alg».proof.Proof.R.RunK
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem blk1_val (W : Valuation τ sig (Elt F)) :
    after opsK1 (after opsC2 (after opsC1 W)) (Proc.devRef .tc main_v67)
      = half (klMean (W (Proc.devRef .tc main_v27)) (W (Proc.devRef .tc main_v29)))
          (klMean (W (Proc.devRef .tc main_v29)) (W (Proc.devRef .tc main_v27))) := by
  rw [opsK1_val, opsC2_keep _ main_v48 (by decide), opsC1_val, opsC2_val, opsC1_keep _ main_v29 (by decide),
    opsC1_keep _ main_v27 (by decide)]

theorem blk1_keep (W : Valuation τ sig (Elt F)) (r : Ref sig .tc) (h1 : r ∉ opsC1_W) (h2 : r ∉ opsC2_W) (h3 : r ∉ opsK1_W) :
    after opsK1 (after opsC2 (after opsC1 W)) (Proc.devRef .tc r) = W (Proc.devRef .tc r) := by
  rw [opsK1_keep _ r h3, opsC2_keep _ r h2, opsC1_keep _ r h1]

theorem blk2_val (W : Valuation τ sig (Elt F)) :
    after opsK2 (after opsC4b (after opsC4a (after opsC3 W))) (Proc.devRef .tc main_v103)
      = half (klMean (W (Proc.devRef .tc main_v27)) (W (Proc.devRef .tc main_v31)))
          (klMean (W (Proc.devRef .tc main_v31)) (W (Proc.devRef .tc main_v27))) := by
  rw [opsK2_val, opsC4b_keep _ main_v84 (by decide), opsC4a_keep _ main_v84 (by decide), opsC3_val, opsC4_val,
    opsC3_keep _ main_v31 (by decide), opsC3_keep _ main_v27 (by decide)]

theorem blk2_keep (W : Valuation τ sig (Elt F)) (r : Ref sig .tc) (h1 : r ∉ opsC3_W) (h2 : r ∉ opsC4a_W) (h3 : r ∉ opsC4b_W)
    (h4 : r ∉ opsK2_W) :
    after opsK2 (after opsC4b (after opsC4a (after opsC3 W))) (Proc.devRef .tc r) = W (Proc.devRef .tc r) := by
  rw [opsK2_keep _ r h4, opsC4b_keep _ r h3, opsC4a_keep _ r h2, opsC3_keep _ r h1]

theorem blk3_val (W : Valuation τ sig (Elt F)) :
    after opsK3 (after opsC6 (after opsC5 W)) (Proc.devRef .tc main_v139)
      = half (klMean (W (Proc.devRef .tc main_v29)) (W (Proc.devRef .tc main_v31)))
          (klMean (W (Proc.devRef .tc main_v31)) (W (Proc.devRef .tc main_v29))) := by
  rw [opsK3_val, opsC6_keep _ main_v120 (by decide), opsC5_val, opsC6_val, opsC5_keep _ main_v31 (by decide),
    opsC5_keep _ main_v29 (by decide)]

theorem blk3_keep (W : Valuation τ sig (Elt F)) (r : Ref sig .tc) (h1 : r ∉ opsC5_W) (h2 : r ∉ opsC6_W) (h3 : r ∉ opsK3_W) :
    after opsK3 (after opsC6 (after opsC5 W)) (Proc.devRef .tc r) = W (Proc.devRef .tc r) := by
  rw [opsK3_keep _ r h3, opsC6_keep _ r h2, opsC5_keep _ r h1]

end Cert.ReferenceIdeal.Hand

end
-- ==== Proof.R.MainEq0.lean ====
import proofs.«417377_j33337536151700_1_alg».proof.Proof.R.RunA
import proofs.«417377_j33337536151700_1_alg».proof.Proof.R.RunC1
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_part0_eq (c : Dev nD) : main_part0 (F := F) c = seq (opsA ++ opsC1) := rfl

end Cert.ReferenceIdeal.Hand

end
-- ==== Proof.R.MainEq1.lean ====
import proofs.«417377_j33337536151700_1_alg».proof.Proof.R.RunC2
import proofs.«417377_j33337536151700_1_alg».proof.Proof.R.RunK
import proofs.«417377_j33337536151700_1_alg».proof.Proof.R.RunC3
import proofs.«417377_j33337536151700_1_alg».proof.Proof.R.RunC4
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_part1_eq (c : Dev nD) :
    main_part1 (F := F) c = seq (opsC2 ++ (opsK1 ++ (opsC3 ++ opsC4a))) := rfl

end Cert.ReferenceIdeal.Hand

end
-- ==== Proof.R.MainEq2.lean ====
import proofs.«417377_j33337536151700_1_alg».proof.Proof.R.RunC4
import proofs.«417377_j33337536151700_1_alg».proof.Proof.R.RunK
import proofs.«417377_j33337536151700_1_alg».proof.Proof.R.RunC5
import proofs.«417377_j33337536151700_1_alg».proof.Proof.R.RunC6
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_part2_eq (c : Dev nD) :
    main_part2 (F := F) c = seq (opsC4b ++ (opsK2 ++ (opsC5 ++ (opsC6 ++ (opsK3 ++ opsFa))))) := rfl

end Cert.ReferenceIdeal.Hand

end
-- ==== Proof.R.MainEq.lean ====
import proofs.«417377_j33337536151700_1_alg».proof.Proof.R.MainEq0
import proofs.«417377_j33337536151700_1_alg».proof.Proof.R.MainEq1
import proofs.«417377_j33337536151700_1_alg».proof.Proof.R.MainEq2
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

def ops : List (HloOp τ sig (Elt F)) :=
  opsA ++ (opsC1 ++ (opsC2 ++ (opsK1 ++ (opsC3 ++ (opsC4a ++ (opsC4b ++ (opsK2 ++ (opsC5 ++ (opsC6 ++ (opsK3 ++ (opsFa ++ opsFb)))))))))))

theorem ops_def : (ops : List (HloOp τ sig (Elt F))) =
    opsA ++ (opsC1 ++ (opsC2 ++ (opsK1 ++ (opsC3 ++ (opsC4a ++ (opsC4b ++ (opsK2 ++ (opsC5 ++ (opsC6 ++ (opsK3 ++ (opsFa ++ opsFb))))))))))) := rfl

theorem main_part3_eq (c : Dev nD) : main_part3 (F := F) c = seq opsFb := rfl

theorem ops_windows : (ops : List (HloOp τ sig (Elt F))) =
    (opsA ++ opsC1) ++ ((opsC2 ++ (opsK1 ++ (opsC3 ++ opsC4a)))
      ++ ((opsC4b ++ (opsK2 ++ (opsC5 ++ (opsC6 ++ (opsK3 ++ opsFa))))) ++ opsFb)) := by
  simp only [ops, List.append_assoc]

theorem main_eq (c : Dev nD) : main (F := F) c = seq ops := by
  rw [ops_windows,
    seq_append (opsA ++ opsC1) _,
    seq_append (opsC2 ++ (opsK1 ++ (opsC3 ++ opsC4a))) _,
    seq_append (opsC4b ++ (opsK2 ++ (opsC5 ++ (opsC6 ++ (opsK3 ++ opsFa))))) opsFb,
    ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.Hand

end
-- ==== Proof.R.Run.lean ====
import proofs.«417377_j33337536151700_1_alg».proof.Proof.R.RunA
import proofs.«417377_j33337536151700_1_alg».proof.Proof.R.RunK
import proofs.«417377_j33337536151700_1_alg».proof.Proof.R.RunBlocks
import proofs.«417377_j33337536151700_1_alg».proof.Proof.R.MainEq
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem forall_app {α : Type} {p : α → Prop} {l₁ l₂ : List α} (h₁ : l₁.Forall p) (h₂ : l₂.Forall p) : (l₁ ++ l₂).Forall p :=
  List.forall_append.2 ⟨h₁, h₂⟩

theorem ops_sub : (ops : List (HloOp τ sig (Elt F))).Forall fun op => op.bufs ⊆ tcRefs τ sig := by
  rw [ops_def]
  exact forall_app opsA_sub (forall_app opsC1_sub (forall_app opsC2_sub (forall_app opsK1_sub (forall_app opsC3_sub
    (forall_app opsC4a_sub (forall_app opsC4b_sub (forall_app opsK2_sub (forall_app opsC5_sub (forall_app opsC6_sub
    (forall_app opsK3_sub (forall_app opsFa_sub opsFb_sub)))))))))))

theorem ops_fresh : ∀ op ∈ (ops : List (HloOp τ sig (Elt F))), op.fresh = ∅ := by
  refine List.forall_iff_forall_mem.1 ?_
  rw [ops_def]
  exact forall_app opsA_fresh (forall_app opsC1_fresh (forall_app opsC2_fresh (forall_app opsK1_fresh (forall_app opsC3_fresh
    (forall_app opsC4a_fresh (forall_app opsC4b_fresh (forall_app opsK2_fresh (forall_app opsC5_fresh (forall_app opsC6_fresh
    (forall_app opsK3_fresh (forall_app opsFa_fresh opsFb_fresh)))))))))))

theorem ops_val (V : Valuation τ sig (Elt F)) :
    after ops V (Proc.devRef .tc main_v142)
      = result (V (Proc.devRef .tc main_arg0)) (V (Proc.devRef .tc main_arg1)) (V (Proc.devRef .tc main_arg2))
          (V (Proc.devRef .tc main_arg3)) := by
  rw [ops_def]
  simp only [after_append]
  rw [opsF_val, blk3_val,
    blk3_keep _ main_v103 (by decide) (by decide) (by decide), blk3_keep _ main_v67 (by decide) (by decide) (by decide),
    blk2_val,
    blk2_keep _ main_v67 (by decide) (by decide) (by decide) (by decide),
    blk2_keep _ main_v29 (by decide) (by decide) (by decide) (by decide),
    blk2_keep _ main_v31 (by decide) (by decide) (by decide) (by decide),
    blk1_val,
    blk1_keep _ main_v27 (by decide) (by decide) (by decide), blk1_keep _ main_v29 (by decide) (by decide) (by decide),
    blk1_keep _ main_v31 (by decide) (by decide) (by decide),
    opsA_v27, opsA_v29, opsA_v31]
  rfl

theorem ops_keep (V : Valuation τ sig (Elt F)) (r : Ref sig .tc) (hA : r ∉ opsA_W) (h1 : r ∉ opsC1_W) (h2 : r ∉ opsC2_W)
    (hK1 : r ∉ opsK1_W) (h3 : r ∉ opsC3_W) (h4a : r ∉ opsC4a_W) (h4b : r ∉ opsC4b_W) (hK2 : r ∉ opsK2_W) (h5 : r ∉ opsC5_W)
    (h6 : r ∉ opsC6_W) (hK3 : r ∉ opsK3_W) (hFa : r ∉ opsFa_W) (hFb : r ∉ opsFb_W) :
    after ops V (Proc.devRef .tc r) = V (Proc.devRef .tc r) := by
  rw [ops_def]
  simp only [after_append]
  rw [opsFb_keep _ r hFb, opsFa_keep _ r hFa, blk3_keep _ r h5 h6 hK3, blk2_keep _ r h3 h4a h4b hK2, blk1_keep _ r h1 h2 hK1,
    opsA_keep _ r hA]

abbrev argRefs : List (Ref sig .tc) := [main_arg0, main_arg1, main_arg2, main_arg3, main_arg4]

theorem arg_keep (V : Valuation τ sig (Elt F)) (r : Ref sig .tc) (hr : r ∈ argRefs) :
    after ops V (Proc.devRef .tc r) = V (Proc.devRef .tc r) :=
  ops_keep V r ((by decide : ∀ r ∈ argRefs, r ∉ opsA_W) r hr) ((by decide : ∀ r ∈ argRefs, r ∉ opsC1_W) r hr)
    ((by decide : ∀ r ∈ argRefs, r ∉ opsC2_W) r hr) ((by decide : ∀ r ∈ argRefs, r ∉ opsK1_W) r hr)
    ((by decide : ∀ r ∈ argRefs, r ∉ opsC3_W) r hr) ((by decide : ∀ r ∈ argRefs, r ∉ opsC4a_W) r hr)
    ((by decide : ∀ r ∈ argRefs, r ∉ opsC4b_W) r hr) ((by decide : ∀ r ∈ argRefs, r ∉ opsK2_W) r hr)
    ((by decide : ∀ r ∈ argRefs, r ∉ opsC5_W) r hr) ((by decide : ∀ r ∈ argRefs, r ∉ opsC6_W) r hr)
    ((by decide : ∀ r ∈ argRefs, r ∉ opsK3_W) r hr) ((by decide : ∀ r ∈ argRefs, r ∉ opsFa_W) r hr)
    ((by decide : ∀ r ∈ argRefs, r ∉ opsFb_W) r hr)

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v142)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v142).trans (ops_val (launchContents m c)),
      (h c main_arg0).trans (arg_keep (launchContents m c) main_arg0 (by decide)),
      (h c main_arg1).trans (arg_keep (launchContents m c) main_arg1 (by decide)),
      (h c main_arg2).trans (arg_keep (launchContents m c) main_arg2 (by decide)),
      (h c main_arg3).trans (arg_keep (launchContents m c) main_arg3 (by decide)),
      (h c main_arg4).trans (arg_keep (launchContents m c) main_arg4 (by decide))⟩)
    (run_seq scopedRefs_eq scopedSems_eq defs main (fun _ => ops) main_eq (fun _ => ops_sub) m ρ (fun _ => ops_fresh))

end Cert.ReferenceIdeal.Hand

end
-- ==== Proof.R.VTables.lean ====
import proofs.«417377_j33337536151700_1_alg».proof.Proof.R.Stages
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.Hand

open Cert.ReferenceIdeal Cert.ReferenceIdeal.Gen Idealize.ShloMosaic Idealize.ShloMosaic.TcCoe Idealize.ShloMosaic.ValueIdx

theorem bcastCol_apply (n : FVec Ideal S64 .f32) (c : Fin 64) (d : Fin 256) :
    broadcastInDim S64x256 ![0, 1] bcast_S64x1_S64x256_0_1 (broadcastInDim S64x1 ![0] bcast_S64_S64x1_0 n) (ix2 c d) = n (ix1 c) := by
  rw [broadcastInDim_apply ![0, 1] bcast_S64x1_S64x256_0_1 _ (ix2 c d) (ix2 c (0 : Fin 1))
    (fun a => match a with | ⟨0, _⟩ => rfl | ⟨1, _⟩ => rfl)]
  exact broadcastInDim_apply ![0] bcast_S64_S64x1_0 n (ix2 c (0 : Fin 1)) (ix1 c) (fun a => match a with | ⟨0, _⟩ => rfl)

theorem mean_apply (s : FVec Ideal S64x256 .f32) (n : FVec Ideal S64 .f32) (c : Fin 64) (d : Fin 256) :
    mean (F := Ideal) s n (ix2 c d) = Ideal.div (s (ix2 c d)) (n (ix1 c)) := by
  unfold mean
  rw [hostDivf_apply, bcastCol_apply]

theorem feats_apply_left (x y : FVec Ideal S65536x256 .f32) (n : Fin 65536) (d : Fin 256) :
    feats (F := Ideal) x y (ix2 (⟨n.val, by have := n.isLt; omega⟩ : Fin 131072) d) = x (ix2 n d) := by
  unfold feats
  exact concatenate_pair_apply_left 0 x y concatenates_S65536x256_S65536x256_S131072x256_d0 _ rfl (ix2 n d)
    (fun b => match b with | ⟨0, _⟩ => rfl | ⟨1, _⟩ => rfl)

theorem feats_apply_right (x y : FVec Ideal S65536x256 .f32) (n : Fin 65536) (d : Fin 256) :
    feats (F := Ideal) x y (ix2 (⟨65536 + n.val, by have := n.isLt; omega⟩ : Fin 131072) d) = y (ix2 n d) := by
  unfold feats
  exact concatenate_pair_apply_right 0 x y concatenates_S65536x256_S65536x256_S131072x256_d0 _ rfl rfl (ix2 n d)
    (fun b hb => match b, hb with | ⟨0, _⟩, hb => absurd rfl hb | ⟨1, _⟩, _ => rfl)
    (by show n.val + 65536 = 65536 + n.val; omega)

end Cert.ReferenceIdeal.Hand

end
-- ==== Proof.R.VLogits.lean ====
import proofs.«417377_j33337536151700_1_alg».proof.Proof.R.Stages
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.Hand

open Cert.ReferenceIdeal Cert.ReferenceIdeal.Gen Idealize.ShloMosaic Idealize.ShloMosaic.TcCoe Idealize.ShloMosaic.ValueIdx

theorem lhs_logits_0 (i : S131072x64.Idx) (q : dot_S131072x256_S256x64_S131072x64_1_0_0_1_n_n.contr.Idx) :
    (dot_S131072x256_S256x64_S131072x64_1_0_0_1_n_n.lhsIdx i q 0).val = (i 0).val := by
  unfold DotDims.lhsIdx
  rw [dif_neg (show ¬(0 : Fin S131072x256.rank) ∈ dot_S131072x256_S256x64_S131072x64_1_0_0_1_n_n.lhsBatch by decide),
    dif_pos (show (0 : Fin S131072x256.rank) ∈ dot_S131072x256_S256x64_S131072x64_1_0_0_1_n_n.lhsNonContracting by decide)]
  rfl

theorem lhs_logits_1 (i : S131072x64.Idx) (q : dot_S131072x256_S256x64_S131072x64_1_0_0_1_n_n.contr.Idx) :
    (dot_S131072x256_S256x64_S131072x64_1_0_0_1_n_n.lhsIdx i q 1).val = (q ⟨0, by decide⟩).val :=
  dot_S131072x256_S256x64_S131072x64_1_0_0_1_n_n.lhsIdx_val_of_single rfl i q

theorem rhs_logits_0 (i : S131072x64.Idx) (q : dot_S131072x256_S256x64_S131072x64_1_0_0_1_n_n.contr.Idx) :
    (dot_S131072x256_S256x64_S131072x64_1_0_0_1_n_n.rhsIdx i q 0).val = (q ⟨0, by decide⟩).val :=
  dot_S131072x256_S256x64_S131072x64_1_0_0_1_n_n.rhsIdx_val_of_single rfl i q

theorem rhs_logits_1 (i : S131072x64.Idx) (q : dot_S131072x256_S256x64_S131072x64_1_0_0_1_n_n.contr.Idx) :
    (dot_S131072x256_S256x64_S131072x64_1_0_0_1_n_n.rhsIdx i q 1).val = (i 1).val := by
  unfold DotDims.rhsIdx
  rw [dif_neg (show ¬(1 : Fin S256x64.rank) ∈ dot_S131072x256_S256x64_S131072x64_1_0_0_1_n_n.rhsBatch by decide),
    dif_pos (show (1 : Fin S256x64.rank) ∈ dot_S131072x256_S256x64_S131072x64_1_0_0_1_n_n.rhsNonContracting by decide)]
  rfl

theorem logits_apply (f : FVec Ideal S131072x256 .f32) (u : FVec Ideal S64x256 .f32) (n : Fin 131072) (c : Fin 64) :
    logits (F := Ideal) f u (ix2 n c) = ∑ d : Fin 256, f (ix2 n d) * u (ix2 c d) := by
  unfold logits
  simp only [Host.dotGeneral]
  rw [Ideal.dotGeneral_apply, ← Equiv.sum_comp (contrEquiv1 dot_S131072x256_S256x64_S131072x64_1_0_0_1_n_n 256 rfl rfl).symm]
  refine Finset.sum_congr rfl fun k _ => ?_
  have hk := contrEquiv1_symm_val dot_S131072x256_S256x64_S131072x64_1_0_0_1_n_n 256 rfl rfl k
  have el : dot_S131072x256_S256x64_S131072x64_1_0_0_1_n_n.lhsIdx (ix2 n c) ((contrEquiv1 dot_S131072x256_S256x64_S131072x64_1_0_0_1_n_n 256 rfl rfl).symm k) = ix2 n k :=
    funext fun a => Fin.ext (by
      match a with
      | ⟨0, _⟩ => exact lhs_logits_0 _ _
      | ⟨1, _⟩ => exact (lhs_logits_1 _ _).trans hk)
  have er : dot_S131072x256_S256x64_S131072x64_1_0_0_1_n_n.rhsIdx (ix2 n c) ((contrEquiv1 dot_S131072x256_S256x64_S131072x64_1_0_0_1_n_n 256 rfl rfl).symm k) = ix2 k c :=
    funext fun a => Fin.ext (by
      match a with
      | ⟨0, _⟩ => exact (rhs_logits_0 _ _).trans hk
      | ⟨1, _⟩ => exact rhs_logits_1 _ _)
  rw [el, er, transpose_ix2_apply]

end Cert.ReferenceIdeal.Hand

end
-- ==== Proof.R.VSoft.lean ====
import proofs.«417377_j33337536151700_1_alg».proof.Proof.R.Stages
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«417377_j33337536151700_1_alg».proof.Proof.Spec

noncomputable section

namespace Cert.ReferenceIdeal.Hand

open Cert.ReferenceIdeal Cert.ReferenceIdeal.Gen Idealize.ShloMosaic Idealize.ShloMosaic.TcCoe Idealize.ShloMosaic.ValueIdx

theorem ofBits_negInf : Ideal.ofBits .f32 0xFF800000#32 = (⊥ : EReal) := by simp [Ideal.ofBits, Ideal.ieee]

theorem lift_row (h : S131072x64.Reduces [1] S131072) (n : Fin 131072) (k : Fin (S131072x64.size 1)) :
    h.lift (ix1 n) k = ix2 n (⟨k.val, k.isLt⟩ : Fin 64) := by
  funext c; apply Fin.ext
  match c with | ⟨0, _⟩ => rfl | ⟨1, _⟩ => rfl

theorem spread_apply (w : FVec Ideal S131072x1 .f32) (n : Fin 131072) (c : Fin 64) :
    broadcastInDim S131072x64 ![0, 1] bcast_S131072x1_S131072x64_0_1 w (ix2 n c) = w (ix2 n (0 : Fin 1)) :=
  broadcastInDim_apply ![0, 1] bcast_S131072x1_S131072x64_0_1 w (ix2 n c) (ix2 n (0 : Fin 1))
    (fun a => match a with | ⟨0, _⟩ => rfl | ⟨1, _⟩ => rfl)

theorem column_apply (v : FVec Ideal S131072 .f32) (n : Fin 131072) :
    broadcastInDim S131072x1 ![0] bcast_S131072_S131072x1_0 v (ix2 n (0 : Fin 1)) = v (ix1 n) :=
  broadcastInDim_apply ![0] bcast_S131072_S131072x1_0 v (ix2 n (0 : Fin 1)) (ix1 n) (fun a => match a with | ⟨0, _⟩ => rfl)

theorem rowMax_apply (z : FVec Ideal S131072x64 .f32) (n : Fin 131072) :
    Host.reduce FloatOps.maximumf z (constant (F := Ideal) S_ .f32 0xFF800000#32) reducesTo_S131072x64_S131072_d1 h_S_ (ix1 n)
      = Cert.Spec.rmax (fun c => z (ix2 n c)) := by
  have h : S131072x64.Reduces [1] S131072 := by decide
  rw [Host.reduce_eq_fold_single FloatOps.maximumf z _ reducesTo_S131072x64_S131072_d1 h h_S_]
  have hf : (z ∘ h.lift (ix1 n)) = fun c : Fin 64 => z (ix2 n c) := funext fun k => congrArg z (lift_row h n k)
  rw [hf]
  show (Finset.univ : Finset (Fin 64)).fold max (Ideal.ofBits .f32 0xFF800000#32) (fun c : Fin 64 => z (ix2 n c)) = _
  rw [ofBits_negInf]
  rfl

theorem shifted_apply (z : FVec Ideal S131072x64 .f32) (n : Fin 131072) (c : Fin 64) :
    shifted (F := Ideal) z (ix2 n c) = z (ix2 n c) - Cert.Spec.rmax (fun c => z (ix2 n c)) := by
  unfold shifted
  rw [subf_apply, spread_apply, column_apply, maximumf_apply, broadcastInDim_scalar_apply, constant_apply, rowMax_apply,
    ofBits_negInf]
  exact congrArg (z (ix2 n c) - ·) (max_eq_right bot_le)

theorem rowSums_apply (e : FVec Ideal S131072x64 .f32) (n : Fin 131072) :
    rowSums (F := Ideal) e (ix2 n (0 : Fin 1)) = ∑ c : Fin 64, e (ix2 n c) := by
  have h : S131072x64.Reduces [1] S131072 := by decide
  unfold rowSums
  rw [column_apply, hostReduceAdd_apply, Ideal.hostReduceAdd_single reducesTo_S131072x64_S131072_d1 h, constant_apply,
    Ideal.ofBits_zero_f32, zero_add]
  show ∑ k : Fin 64, e (h.lift (ix1 n) k) = _
  exact Finset.sum_congr rfl fun k _ => congrArg e (lift_row h n k)

theorem expShifted_apply (z : FVec Ideal S131072x64 .f32) (n : Fin 131072) (c : Fin 64) :
    Host.exp (shifted (F := Ideal) z) (ix2 n c) = Cert.Spec.ex (fun c => z (ix2 n c)) c := by
  show FloatOps.hostUnary .exp (shifted (F := Ideal) z (ix2 n c)) = _
  rw [Ideal.hostUnary_exp_def, shifted_apply]
  rfl

theorem expSums_apply (z : FVec Ideal S131072x64 .f32) (n : Fin 131072) :
    rowSums (F := Ideal) (Host.exp (shifted (F := Ideal) z)) (ix2 n (0 : Fin 1)) = Cert.Spec.se (fun c => z (ix2 n c)) := by
  rw [rowSums_apply]
  exact Finset.sum_congr rfl fun c _ => expShifted_apply z n c

theorem softmax_apply (z : FVec Ideal S131072x64 .f32) (n : Fin 131072) (c : Fin 64) :
    softmax (F := Ideal) z (ix2 n c) = Cert.Spec.sm (fun c => z (ix2 n c)) c := by
  unfold softmax
  rw [hostDivf_apply, spread_apply, expSums_apply, expShifted_apply]
  rfl

theorem logSoftmax_apply (z : FVec Ideal S131072x64 .f32) (n : Fin 131072) (c : Fin 64) :
    logSoftmax (F := Ideal) z (ix2 n c) = Cert.Spec.lsm (fun c => z (ix2 n c)) c := by
  unfold logSoftmax
  rw [subf_apply, spread_apply, shifted_apply]
  show _ - FloatOps.hostUnary .log (rowSums (F := Ideal) (Host.exp (shifted (F := Ideal) z)) (ix2 n (0 : Fin 1))) = _
  rw [Ideal.hostUnary_log_def, expSums_apply]
  rfl

theorem klMean_apply (za zb : FVec Ideal S131072x64 .f32) (j : S_.Idx) :
    klMean (F := Ideal) za zb j
      = Ideal.div (∑ n : Fin 131072, Cert.Spec.klRow (fun c => za (ix2 n c)) (fun c => zb (ix2 n c))) (Ideal.ofBits .f32 0x4B000000#32) := by
  unfold klMean
  rw [hostDivf_apply, hostReduceAdd_apply, Ideal.hostReduceAdd_total reducesTo_S131072x64_S_d0_1 (fun b => b.elim0), constant_apply,
    constant_apply, Ideal.ofBits_zero_f32, zero_add, sum_idx2]
  have e : ∀ n : Fin 131072, (∑ c : Fin 64, mulf (softmax (F := Ideal) zb) (subf (logSoftmax (F := Ideal) zb) (logSoftmax (F := Ideal) za)) (ix2 n c))
      = Cert.Spec.klRow (fun c => za (ix2 n c)) (fun c => zb (ix2 n c)) := fun n => by
    unfold Cert.Spec.klRow
    refine Finset.sum_congr rfl fun c _ => ?_
    rw [mulf_apply, subf_apply, softmax_apply, logSoftmax_apply, logSoftmax_apply]
  exact congrArg (fun t => Ideal.div t (Ideal.ofBits .f32 0x4B000000#32)) (Fintype.sum_congr _ _ e)

end Cert.ReferenceIdeal.Hand

end
-- ==== Proof.R.VLoss.lean ====
import proofs.«417377_j33337536151700_1_alg».proof.Proof.R.Stages
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«417377_j33337536151700_1_alg».proof.Proof.Spec
import proofs.«417377_j33337536151700_1_alg».proof.Proof.Cur
import proofs.«417377_j33337536151700_1_alg».proof.Proof.R.VTables
import proofs.«417377_j33337536151700_1_alg».proof.Proof.R.VLogits
import proofs.«417377_j33337536151700_1_alg».proof.Proof.R.VSoft

noncomputable section

namespace Cert.ReferenceIdeal.Hand

open Cert.ReferenceIdeal Cert.ReferenceIdeal.Gen Idealize.ShloMosaic Idealize.ShloMosaic.TcCoe Idealize.ShloMosaic.ValueIdx

open Cert.Spec Cert.Cur

def tbl (u : FVec Ideal S64x256 .f32) : Fin 64 → Fin 256 → EReal := fun c d => u (ix2 c d)

theorem sum_rows (f : Fin 131072 → EReal) :
    ∑ n : Fin 131072, f n
      = ∑ n : Fin 65536, f ⟨n.val, by have := n.isLt; omega⟩ + ∑ n : Fin 65536, f ⟨65536 + n.val, by have := n.isLt; omega⟩ :=
  Fin.sum_univ_add (a := 65536) (b := 65536) f

theorem logitsRow_left (x y : FVec Ideal S65536x256 .f32) (u : FVec Ideal S64x256 .f32) (n : Fin 65536) :
    (fun c => logits (F := Ideal) (feats (F := Ideal) x y) u (ix2 (⟨n.val, by have := n.isLt; omega⟩ : Fin 131072) c))
      = logit (cur2 x n) (tbl u) := by
  funext c
  rw [logits_apply]
  exact Finset.sum_congr rfl fun d _ => by rw [feats_apply_left]; rfl

theorem logitsRow_right (x y : FVec Ideal S65536x256 .f32) (u : FVec Ideal S64x256 .f32) (n : Fin 65536) :
    (fun c => logits (F := Ideal) (feats (F := Ideal) x y) u (ix2 (⟨65536 + n.val, by have := n.isLt; omega⟩ : Fin 131072) c))
      = logit (cur2 y n) (tbl u) := by
  funext c
  rw [logits_apply]
  exact Finset.sum_congr rfl fun d _ => by rw [feats_apply_right]; rfl

theorem klMean_logits (x y : FVec Ideal S65536x256 .f32) (ua ub : FVec Ideal S64x256 .f32) (j : S_.Idx) :
    klMean (F := Ideal) (logits (F := Ideal) (feats (F := Ideal) x y) ua) (logits (F := Ideal) (feats (F := Ideal) x y) ub) j
      = Ideal.div ((∑ n : Fin 65536, klRow (logit (cur2 x n) (tbl ua)) (logit (cur2 x n) (tbl ub)))
          + ∑ n : Fin 65536, klRow (logit (cur2 y n) (tbl ua)) (logit (cur2 y n) (tbl ub))) (Ideal.ofBits .f32 0x4B000000#32) := by
  rw [klMean_apply, sum_rows]
  have el : ∀ n : Fin 65536,
      klRow (fun c => logits (F := Ideal) (feats (F := Ideal) x y) ua (ix2 (⟨n.val, by have := n.isLt; omega⟩ : Fin 131072) c))
        (fun c => logits (F := Ideal) (feats (F := Ideal) x y) ub (ix2 (⟨n.val, by have := n.isLt; omega⟩ : Fin 131072) c))
      = klRow (logit (cur2 x n) (tbl ua)) (logit (cur2 x n) (tbl ub)) := fun n => by
    rw [logitsRow_left, logitsRow_left]
  have er : ∀ n : Fin 65536,
      klRow (fun c => logits (F := Ideal) (feats (F := Ideal) x y) ua (ix2 (⟨65536 + n.val, by have := n.isLt; omega⟩ : Fin 131072) c))
        (fun c => logits (F := Ideal) (feats (F := Ideal) x y) ub (ix2 (⟨65536 + n.val, by have := n.isLt; omega⟩ : Fin 131072) c))
      = klRow (logit (cur2 y n) (tbl ua)) (logit (cur2 y n) (tbl ub)) := fun n => by
    rw [logitsRow_right, logitsRow_right]
  rw [Fintype.sum_congr _ _ el, Fintype.sum_congr _ _ er]

theorem result_eq_of
    (hS : ∀ (x : FVec Ideal S65536x256 .f32) (l : IVec S65536 32) (c : Fin 64) (d : Fin 256),
      segSum (F := Ideal) x l (ix2 c d) = Cert.Spec.segSum (cur2 x) (lab1 l) c d)
    (hC : ∀ (l : IVec S65536 32) (c : Fin 64), segCnt (F := Ideal) l (ix1 c) = Cert.Spec.segCnt (lab1 l) c)
    (x y : FVec Ideal S65536x256 .f32) (l k : IVec S65536 32) :
    result (F := Ideal) x y l k = fun _ => loss (cur2 x) (cur2 y) (lab1 l) (lab1 k) := by
  funext j
  have eus : tbl (mean (F := Ideal) (segSum (F := Ideal) x l) (segCnt (F := Ideal) l)) = mean1 (cur2 x) (lab1 l) := by
    funext c d; unfold tbl; rw [mean_apply, hS, hC]; rfl
  have eut : tbl (mean (F := Ideal) (segSum (F := Ideal) y k) (segCnt (F := Ideal) k)) = mean1 (cur2 y) (lab1 k) := by
    funext c d; unfold tbl; rw [mean_apply, hS, hC]; rfl
  have eust : tbl (mean (F := Ideal) (addf (segSum (F := Ideal) x l) (segSum (F := Ideal) y k)) (addf (segCnt (F := Ideal) l) (segCnt (F := Ideal) k)))
      = mean2 (cur2 x) (cur2 y) (lab1 l) (lab1 k) := by
    funext c d; unfold tbl; rw [mean_apply, addf_apply, addf_apply, hS, hS, hC, hC]; rfl
  unfold result half
  simp only [hostDivf_apply, addf_apply, constant_apply, klMean_logits, eus, eut, eust]
  rfl

end Cert.ReferenceIdeal.Hand

end
-- ==== Proof.R.Scatter.lean ====
import proofs.«417377_j33337536151700_1_alg».proof.Proof.R.Stages
import proofs.«417377_j33337536151700_1_alg».proof.Proof.Spec
import proofs.«417377_j33337536151700_1_alg».proof.Proof.Cur
import Idealize.ShloMosaic.Lib.ValueIdx
import Idealize.ShloMosaic.Lib.ValueIdxRank1
import Idealize.ShloMosaic.Lib.ValueLayout
import Idealize.ShloMosaic.Lib.Pipeline.Value
import Idealize.ShloMosaic.PureOps.Ideal.Laws

noncomputable section

namespace Cert.ReferenceIdeal.Hand

open Cert.ReferenceIdeal Cert.ReferenceIdeal.Gen Idealize.ShloMosaic Idealize.ShloMosaic.ValueIdx

theorem toInt_eq_class (w : BitVec 32) (c : Fin 64) : w.toInt = (c.val : Int) ↔ w = BitVec.ofNat 32 c.val := by
  have hc := c.isLt
  have hw := w.isLt
  constructor
  · intro h
    apply BitVec.eq_of_toNat_eq
    rw [BitVec.toNat_ofNat, Nat.mod_eq_of_lt (by omega)]
    rw [BitVec.toInt_eq_toNat_cond] at h
    split at h <;> omega
  · intro h
    subst h
    rw [BitVec.toInt_eq_toNat_cond, BitVec.toNat_ofNat, Nat.mod_eq_of_lt (by omega)]
    split <;> omega

theorem ofBits_one_f32 : Ideal.ofBits .f32 0x3F800000#32 = 1 := by
  simp [Ideal.ofBits, Ideal.ieee]
  rw [← EReal.coe_mul]
  norm_num

theorem bcast_label (l : IVec S65536 32) (n : Fin 65536) :
    broadcastInDim S65536x1 ![0] bcast_S65536_S65536x1_0 l (ix2 n 0) = l (ix1 n) := by
  unfold broadcastInDim
  refine congrArg l (funext fun a => ?_)
  match a with
  | ⟨0, _⟩ => rfl

theorem s2_siIdx (n : Fin 65536) (b : Fin 256) (c : Fin scatter_S64x256_S65536x1_S65536x256_1_0_0_1.scatterDimsToOperandDims.length) :
    scatter_S64x256_S65536x1_S65536x256_1_0_0_1.siIdx (ix2 n b) c = ix2 n 0 := by
  funext a
  match a with
  | ⟨0, _⟩ => rfl
  | ⟨1, _⟩ =>
    apply Fin.ext
    have := c.isLt
    show c.val = 0
    change c.val < 1 at this
    omega

theorem s2_start0 (n : Fin 65536) (b : Fin 256) (idx : IVec S65536x1 32) :
    scatter_S64x256_S65536x1_S65536x256_1_0_0_1.start (ix2 n b) idx 0 = (idx (ix2 n 0)).toInt := by
  rw [← s2_siIdx n b ⟨0, by decide⟩]
  rfl

theorem s2_start1 (n : Fin 65536) (b : Fin 256) (idx : IVec S65536x1 32) :
    scatter_S64x256_S65536x1_S65536x256_1_0_0_1.start (ix2 n b) idx 1 = 0 := rfl

theorem s2_window0 (n : Fin 65536) (b : Fin 256) :
    scatter_S64x256_S65536x1_S65536x256_1_0_0_1.window (ix2 n b) 0 = 0 := rfl

theorem s2_window1 (n : Fin 65536) (b : Fin 256) :
    scatter_S64x256_S65536x1_S65536x256_1_0_0_1.window (ix2 n b) 1 = b.val := rfl

theorem s2_resultIdx (n : Fin 65536) (b : Fin 256) (idx : IVec S65536x1 32) (c : Fin 64) (d : Fin 256) :
    scatter_S64x256_S65536x1_S65536x256_1_0_0_1.resultIdx? (ix2 n b) idx = some (ix2 c d)
      ↔ (idx (ix2 n 0)).toInt = (c.val : Int) ∧ b = d := by
  have hc := c.isLt
  have hd := d.isLt
  have hb := b.isLt
  unfold ScatterDims.resultIdx?
  split
  · rename_i h
    rw [Option.some.injEq]
    constructor
    · intro he
      have h0 := congrArg Fin.val (congrFun he 0)
      have h1 := congrArg Fin.val (congrFun he 1)
      have g0 := h 0
      rw [s2_start0, s2_window0] at g0
      change (scatter_S64x256_S65536x1_S65536x256_1_0_0_1.start (ix2 n b) idx 0 + (scatter_S64x256_S65536x1_S65536x256_1_0_0_1.window (ix2 n b) 0 : Int)).toNat = c.val at h0
      change (scatter_S64x256_S65536x1_S65536x256_1_0_0_1.start (ix2 n b) idx 1 + (scatter_S64x256_S65536x1_S65536x256_1_0_0_1.window (ix2 n b) 1 : Int)).toNat = d.val at h1
      rw [s2_start0, s2_window0] at h0
      rw [s2_start1, s2_window1] at h1
      refine ⟨by omega, Fin.ext (by omega)⟩
    · rintro ⟨ha, hb'⟩
      funext a
      match a with
      | ⟨0, _⟩ =>
        apply Fin.ext
        change (scatter_S64x256_S65536x1_S65536x256_1_0_0_1.start (ix2 n b) idx 0 + (scatter_S64x256_S65536x1_S65536x256_1_0_0_1.window (ix2 n b) 0 : Int)).toNat = c.val
        rw [s2_start0, s2_window0]; omega
      | ⟨1, _⟩ =>
        apply Fin.ext
        change (scatter_S64x256_S65536x1_S65536x256_1_0_0_1.start (ix2 n b) idx 1 + (scatter_S64x256_S65536x1_S65536x256_1_0_0_1.window (ix2 n b) 1 : Int)).toNat = d.val
        rw [s2_start1, s2_window1, hb']; omega
  · rename_i h
    constructor
    · intro he; cases he
    · rintro ⟨ha, hb'⟩
      exfalso
      apply h
      intro a
      match a with
      | ⟨0, _⟩ =>
        change 0 ≤ scatter_S64x256_S65536x1_S65536x256_1_0_0_1.start (ix2 n b) idx 0 + (scatter_S64x256_S65536x1_S65536x256_1_0_0_1.window (ix2 n b) 0 : Int) ∧ scatter_S64x256_S65536x1_S65536x256_1_0_0_1.start (ix2 n b) idx 0 + (scatter_S64x256_S65536x1_S65536x256_1_0_0_1.window (ix2 n b) 0 : Int) < 64
        rw [s2_start0, s2_window0]; omega
      | ⟨1, _⟩ =>
        change 0 ≤ scatter_S64x256_S65536x1_S65536x256_1_0_0_1.start (ix2 n b) idx 1 + (scatter_S64x256_S65536x1_S65536x256_1_0_0_1.window (ix2 n b) 1 : Int) ∧ scatter_S64x256_S65536x1_S65536x256_1_0_0_1.start (ix2 n b) idx 1 + (scatter_S64x256_S65536x1_S65536x256_1_0_0_1.window (ix2 n b) 1 : Int) < 256
        rw [s2_start1, s2_window1]; omega

theorem segSum_apply (x : FVec Ideal S65536x256 .f32) (l : IVec S65536 32) (c : Fin 64) (d : Fin 256) :
    segSum (F := Ideal) x l (ix2 c d) = Cert.Spec.segSum (Cert.Cur.cur2 x) (Cert.Cur.lab1 l) c d := by
  unfold segSum Host.scatterAdd
  rw [Ideal.hostScatterAdd_def]
  unfold Ideal.hostScatterAdd
  have hz : broadcastInDim S64x256 ![] bcast_S_S64x256 (constant (F := Ideal) S_ .f32 0x00000000#32) (ix2 c d) = 0 :=
    Ideal.ofBits_zero_f32
  rw [hz, zero_add, Finset.sum_filter, sum_idx2]
  unfold Cert.Spec.segSum
  refine Finset.sum_congr rfl fun n _ => ?_
  simp only [s2_resultIdx]
  rw [bcast_label l n]
  unfold Cert.Spec.hot Cert.Cur.lab1 Cert.Cur.cur2
  by_cases hA : l (ix1 n) = BitVec.ofNat 32 c.val
  · have hA' := (toInt_eq_class _ c).2 hA
    simp only [hA', true_and]
    rw [if_pos hA, one_mul, Finset.sum_ite_eq' Finset.univ d fun b => x (ix2 n b), if_pos (Finset.mem_univ d)]
  · have hA' : ¬ (l (ix1 n)).toInt = (c.val : Int) := fun h => hA ((toInt_eq_class _ c).1 h)
    simp only [hA', false_and, hA, if_false, zero_mul, Finset.sum_const_zero]

theorem s1_siIdx (n : Fin 65536) (c : Fin scatter_S64_S65536x1_S65536_n_0_0_1.scatterDimsToOperandDims.length) :
    scatter_S64_S65536x1_S65536_n_0_0_1.siIdx (ix1 n) c = ix2 n 0 := by
  funext a
  match a with
  | ⟨0, _⟩ => rfl
  | ⟨1, _⟩ =>
    apply Fin.ext
    have := c.isLt
    show c.val = 0
    change c.val < 1 at this
    omega

theorem s1_start0 (n : Fin 65536) (idx : IVec S65536x1 32) :
    scatter_S64_S65536x1_S65536_n_0_0_1.start (ix1 n) idx 0 = (idx (ix2 n 0)).toInt := by
  rw [← s1_siIdx n ⟨0, by decide⟩]
  rfl

theorem s1_window0 (n : Fin 65536) :
    scatter_S64_S65536x1_S65536_n_0_0_1.window (ix1 n) 0 = 0 := rfl

theorem s1_resultIdx (n : Fin 65536) (idx : IVec S65536x1 32) (c : Fin 64) :
    scatter_S64_S65536x1_S65536_n_0_0_1.resultIdx? (ix1 n) idx = some (ix1 c)
      ↔ (idx (ix2 n 0)).toInt = (c.val : Int) := by
  have hc := c.isLt
  unfold ScatterDims.resultIdx?
  split
  · rename_i h
    rw [Option.some.injEq]
    constructor
    · intro he
      have h0 := congrArg Fin.val (congrFun he 0)
      have g0 := h 0
      rw [s1_start0, s1_window0] at g0
      change (scatter_S64_S65536x1_S65536_n_0_0_1.start (ix1 n) idx 0 + (scatter_S64_S65536x1_S65536_n_0_0_1.window (ix1 n) 0 : Int)).toNat = c.val at h0
      rw [s1_start0, s1_window0] at h0
      omega
    · intro ha
      funext a
      match a with
      | ⟨0, _⟩ =>
        apply Fin.ext
        change (scatter_S64_S65536x1_S65536_n_0_0_1.start (ix1 n) idx 0 + (scatter_S64_S65536x1_S65536_n_0_0_1.window (ix1 n) 0 : Int)).toNat = c.val
        rw [s1_start0, s1_window0]; omega
  · rename_i h
    constructor
    · intro he; cases he
    · intro ha
      exfalso
      apply h
      intro a
      match a with
      | ⟨0, _⟩ =>
        change 0 ≤ scatter_S64_S65536x1_S65536_n_0_0_1.start (ix1 n) idx 0 + (scatter_S64_S65536x1_S65536_n_0_0_1.window (ix1 n) 0 : Int) ∧ scatter_S64_S65536x1_S65536_n_0_0_1.start (ix1 n) idx 0 + (scatter_S64_S65536x1_S65536_n_0_0_1.window (ix1 n) 0 : Int) < 64
        rw [s1_start0, s1_window0]; omega

theorem segCnt_apply (l : IVec S65536 32) (c : Fin 64) :
    segCnt (F := Ideal) l (ix1 c) = Cert.Spec.segCnt (Cert.Cur.lab1 l) c := by
  unfold segCnt Host.scatterAdd
  rw [Ideal.hostScatterAdd_def]
  unfold Ideal.hostScatterAdd
  have hz : broadcastInDim S64 ![] bcast_S_S64 (constant (F := Ideal) S_ .f32 0x00000000#32) (ix1 c) = 0 :=
    Ideal.ofBits_zero_f32
  rw [hz, zero_add, Finset.sum_filter, ← Equiv.sum_comp (idxEquiv1 (n := 65536)).symm]
  unfold Cert.Spec.segCnt
  refine Finset.sum_congr rfl fun n _ => ?_
  change (if scatter_S64_S65536x1_S65536_n_0_0_1.resultIdx? (ix1 n) (broadcastInDim S65536x1 ![0] bcast_S65536_S65536x1_0 l) = some (ix1 c)
    then Ideal.ofBits .f32 0x3F800000#32 else 0) = _
  rw [ofBits_one_f32]
  simp only [s1_resultIdx]
  rw [bcast_label l n]
  unfold Cert.Spec.hot Cert.Cur.lab1
  exact if_congr (toInt_eq_class _ c) rfl rfl

end Cert.ReferenceIdeal.Hand

end
-- ==== Proof.R.Value.lean ====
import proofs.«417377_j33337536151700_1_alg».proof.Proof.R.VLoss
import proofs.«417377_j33337536151700_1_alg».proof.Proof.R.Scatter

noncomputable section

namespace Cert.ReferenceIdeal.Hand

open Cert.ReferenceIdeal Cert.ReferenceIdeal.Gen Idealize.ShloMosaic Idealize.ShloMosaic.TcCoe Idealize.ShloMosaic.ValueIdx

theorem result_eq (x y : FVec Ideal S65536x256 .f32) (l k : IVec S65536 32) :
    result (F := Ideal) x y l k = fun _ => Cert.Spec.loss (Cert.Cur.cur2 x) (Cert.Cur.cur2 y) (Cert.Cur.lab1 l) (Cert.Cur.lab1 k) :=
  result_eq_of (fun x l c d => segSum_apply x l c d) (fun l c => segCnt_apply l c) x y l k

end Cert.ReferenceIdeal.Hand

end
-- ==== Proof.lean ====
/-
  Per class (labels 0..63), the sum and the number of the rows of each of two feature arrays give three tables of class
  means; every row is scored against the three tables, and the six ordered pairs of tables contribute
  ∑ c, softmax(zb) c * (logsoftmax(zb) c - logsoftmax(za) c), summed over all rows. The kernel adds these up tile by tile
  and the reference all at once: finite sums of extended reals may be cut and regrouped freely, and a one-hot product is
  the label-selected sum (0 * x = 0 and 1 * x = x also at the infinities), so finiteness of the inputs is never used.
-/
import proofs.«417377_j33337536151700_1_alg».proof.Defs
import proofs.«417377_j33337536151700_1_alg».proof.Proof.Gen.Kernel
import proofs.«417377_j33337536151700_1_alg».proof.Proof.Gen.KernelIdeal
import proofs.«417377_j33337536151700_1_alg».proof.Proof.Gen.ReferenceIdeal
import proofs.«417377_j33337536151700_1_alg».proof.Proof.Gen.Pre_finite_inputs
import proofs.«417377_j33337536151700_1_alg».proof.Proof.KB.Frame
import proofs.«417377_j33337536151700_1_alg».proof.Proof.K.Frame
import proofs.«417377_j33337536151700_1_alg».proof.Proof.KV.Value
import proofs.«417377_j33337536151700_1_alg».proof.Proof.R.Run
import proofs.«417377_j33337536151700_1_alg».proof.Proof.R.Value

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Fr.frame m ρ

theorem frame_ki : Cert.frame_KernelIdeal (hKernelIdeal := Cert.KernelIdeal.Gen.facts) (hPre_finite_inputs := Cert.Pre_finite_inputs.Gen.facts) :=
  fun m ρ _ => Cert.KernelIdeal.Fr.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run (F := Ideal) m ρ)

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c _ => Cert.Spec.loss (Cert.KernelIdeal.Val.srcOf m c) (Cert.KernelIdeal.Val.trgOf m c)
    (Cert.KernelIdeal.Val.slOf m c) (Cert.KernelIdeal.Val.tlOf m c), Cert.KernelIdeal.Val.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2.1]
  exact Cert.ReferenceIdeal.Hand.result_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
